-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S128 .f32) (main_arg14 : FVec F S128 .f32) (main_arg15 : FVec F S128x1 .f32) (main_arg16 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg15
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg16 main_v63 main_v67

def fn_part2 {F : FTy → Type} [FloatOps F] (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_arg16 main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x256 .f32) (main_arg1 : IVec S800000 32) (main_arg2 : IVec S800000 32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_arg13 : FVec F S128 .f32) (main_arg14 : FVec F S128 .f32) (main_arg15 : FVec F S128x1 .f32) (main_arg16 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S100000x128 : Shape := ⟨2, ![100000, 128]⟩
abbrev S5000x256 : Shape := ⟨2, ![5000, 256]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 169
  | .vmem => 74
  | .smem => 0
  | _ => 0

abbrev hbmTy0_0 (i : Nat) : BufTy := match i % 128 with
  | 0 => ⟨S100000x256, .f32⟩
  | 1 => ⟨S800000, .i32⟩
  | 2 => ⟨S800000, .i32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S_, .f32⟩
  | 18 => ⟨S800000, .f32⟩
  | 19 => ⟨S_, .f32⟩
  | 20 => ⟨S100000, .f32⟩
  | 21 => ⟨S800000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S800000, .f32⟩
  | 46 => ⟨S100000, .f32⟩
  | 47 => ⟨S100000x1, .f32⟩
  | 48 => ⟨S100000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S100000x128, .f32⟩
  | 63 => ⟨S800000x1, .i32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S1x128, .f32⟩
  | 70 => ⟨S1x128, .f32⟩
  | 71 => ⟨S_, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S100000x128, .f32⟩
  | 87 => ⟨S100000x128, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x128, .f32⟩
  | 97 => ⟨S800000x1, .f32⟩
  | 98 => ⟨S800000x128, .f32⟩
  | 99 => ⟨S800000x128, .f32⟩
  | 100 => ⟨S_, .f32⟩
  | 101 => ⟨S100000x128, .f32⟩
  | 102 => ⟨S800000x1, .i32⟩
  | 103 => ⟨S100000x128, .f32⟩
  | 104 => ⟨S100000x128, .f32⟩
  | 105 => ⟨S100000x128, .f32⟩
  | 106 => ⟨S1x128, .f32⟩
  | 107 => ⟨S100000x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S1x128, .f32⟩
  | 118 => ⟨S1x128, .f32⟩
  | 119 => ⟨S_, .f32⟩
  | 120 => ⟨S1x128, .f32⟩
  | 121 => ⟨S1x128, .f32⟩
  | 122 => ⟨S1x128, .f32⟩
  | 123 => ⟨S1x128, .f32⟩
  | 124 => ⟨S1x128, .f32⟩
  | 125 => ⟨S100000x128, .f32⟩
  | 126 => ⟨S100000x128, .f32⟩
  | 127 => ⟨S_, .i32⟩
  | _ => ⟨S100000x256, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S800000x1, .f32⟩
  | 9 => ⟨S800000x128, .f32⟩
  | 10 => ⟨S800000x128, .f32⟩
  | 11 => ⟨S_, .f32⟩
  | 12 => ⟨S100000x128, .f32⟩
  | 13 => ⟨S800000x1, .i32⟩
  | 14 => ⟨S100000x128, .f32⟩
  | 15 => ⟨S100000x128, .f32⟩
  | 16 => ⟨S100000x128, .f32⟩
  | 17 => ⟨S1x128, .f32⟩
  | 18 => ⟨S100000x128, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S_, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S_, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S100000x128, .f32⟩
  | 37 => ⟨S100000x1, .f32⟩
  | 38 => ⟨S1x1, .f32⟩
  | 39 => ⟨S100000x1, .f32⟩
  | 40 => ⟨S100000x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S1x128, .f32⟩
  | .local _ .vmem, ⟨33, _⟩ => ⟨S5000x128, .f32⟩
  | .local _ .vmem, ⟨34, _⟩ => ⟨S5000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S5000x128, .f32⟩
  | .local _ .vmem, ⟨40, _⟩ => ⟨S5000x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S128x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S1x128, .f32⟩
  | .local _ .vmem, ⟨65, _⟩ => ⟨S1x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S128x1, .f32⟩
  | .local _ .vmem, ⟨72, _⟩ => ⟨S5000x1, .f32⟩
  | .local _ .vmem, ⟨73, _⟩ => ⟨S5000x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c : Ref sig .tc := ⟨.hbm, 27, rfl⟩
abbrev main_v7 : Ref sig .tc := ⟨.hbm, 28, rfl⟩
abbrev main_v8 : Ref sig .tc := ⟨.hbm, 29, rfl⟩
abbrev main_c_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_c_3 : Ref sig .tc := ⟨.hbm, 36, rfl⟩
abbrev main_v14 : Ref sig .tc := ⟨.hbm, 37, rfl⟩
abbrev main_v15 : Ref sig .tc := ⟨.hbm, 38, rfl⟩
abbrev main_c_4 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_c_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41_0 : Ref sig .tc := ⟨.hbm, 68, rfl⟩
abbrev main_v41_1 : Ref sig .tc := ⟨.hbm, 69, rfl⟩
abbrev main_v41_2 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_10 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72_0 : Ref sig .tc := ⟨.hbm, 107, rfl⟩
abbrev main_v72_1 : Ref sig .tc := ⟨.hbm, 108, rfl⟩
abbrev main_v72_2 : Ref sig .tc := ⟨.hbm, 109, rfl⟩
abbrev main_cst_14 : Ref sig .tc := ⟨.hbm, 110, rfl⟩
abbrev main_v73 : Ref sig .tc := ⟨.hbm, 111, rfl⟩
abbrev main_v74 : Ref sig .tc := ⟨.hbm, 112, rfl⟩
abbrev main_cst_15 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_17 : Ref sig .tc := ⟨.hbm, 127, rfl⟩
abbrev main_v87 : Ref sig .tc := ⟨.hbm, 128, rfl⟩
abbrev main_v88 : Ref sig .tc := ⟨.hbm, 129, rfl⟩
abbrev main_c_18 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_cst_19 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103_0 : Ref sig .tc := ⟨.hbm, 146, rfl⟩
abbrev main_v103_1 : Ref sig .tc := ⟨.hbm, 147, rfl⟩
abbrev main_v103_2 : Ref sig .tc := ⟨.hbm, 148, rfl⟩
abbrev main_cst_20 : Ref sig .tc := ⟨.hbm, 149, rfl⟩
abbrev main_v104 : Ref sig .tc := ⟨.hbm, 150, rfl⟩
abbrev main_v105 : Ref sig .tc := ⟨.hbm, 151, rfl⟩
abbrev main_cst_21 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_22 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc4_stg4_0 : Ref sig .tc := ⟨.vmem, 35, rfl⟩
abbrev cc4_stg5_0 : Ref sig .tc := ⟨.vmem, 36, rfl⟩
abbrev cc4_scratch0 : Ref sig .tc := ⟨.vmem, 37, rfl⟩
abbrev cc4_scratch1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg4_1 : Ref sig .tc := ⟨.vmem, 45, rfl⟩
abbrev cc6_stg0_0 : Ref sig .tc := ⟨.vmem, 46, rfl⟩
abbrev cc6_stg0_1 : Ref sig .tc := ⟨.vmem, 47, rfl⟩
abbrev cc6_stg1_0 : Ref sig .tc := ⟨.vmem, 48, rfl⟩
abbrev cc6_stg2_0 : Ref sig .tc := ⟨.vmem, 49, rfl⟩
abbrev cc6_stg2_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc7_stg4_0 : Ref sig .tc := ⟨.vmem, 58, rfl⟩
abbrev cc7_stg5_0 : Ref sig .tc := ⟨.vmem, 59, rfl⟩
abbrev cc7_scratch0 : Ref sig .tc := ⟨.vmem, 60, rfl⟩
abbrev cc7_scratch1 : Ref sig .tc := ⟨.vmem, 61, rfl⟩
abbrev cc8_stg0_0 : Ref sig .tc := ⟨.vmem, 62, rfl⟩
abbrev cc8_stg0_1 : Ref sig .tc := ⟨.vmem, 63, rfl⟩
abbrev cc8_stg1_0 : Ref sig .tc := ⟨.vmem, 64, rfl⟩
abbrev cc8_stg2_0 : Ref sig .tc := ⟨.vmem, 65, rfl⟩
abbrev cc8_stg3_0 : Ref sig .tc := ⟨.vmem, 66, rfl⟩
abbrev cc8_stg4_0 : Ref sig .tc := ⟨.vmem, 67, rfl⟩
abbrev cc8_stg4_1 : Ref sig .tc := ⟨.vmem, 68, rfl⟩
abbrev cc9_stg0_0 : Ref sig .tc := ⟨.vmem, 69, rfl⟩
abbrev cc9_stg0_1 : Ref sig .tc := ⟨.vmem, 70, rfl⟩
abbrev cc9_stg1_0 : Ref sig .tc := ⟨.vmem, 71, rfl⟩
abbrev cc9_stg2_0 : Ref sig .tc := ⟨.vmem, 72, rfl⟩
abbrev cc9_stg2_1 : Ref sig .tc := ⟨.vmem, 73, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem5_0 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem4_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem2_1 : DmaSem sig := 46
abbrev cc7_sem0_0 : DmaSem sig := 47
abbrev cc7_sem0_1 : DmaSem sig := 48
abbrev cc7_sem1_0 : DmaSem sig := 49
abbrev cc7_sem1_1 : DmaSem sig := 50
abbrev cc7_sem2_0 : DmaSem sig := 51
abbrev cc7_sem3_0 : DmaSem sig := 52
abbrev cc7_sem3_1 : DmaSem sig := 53
abbrev cc7_sem4_0 : DmaSem sig := 54
abbrev cc7_sem5_0 : DmaSem sig := 55
abbrev cc8_sem0_0 : DmaSem sig := 56
abbrev cc8_sem0_1 : DmaSem sig := 57
abbrev cc8_sem1_0 : DmaSem sig := 58
abbrev cc8_sem2_0 : DmaSem sig := 59
abbrev cc8_sem3_0 : DmaSem sig := 60
abbrev cc8_sem4_0 : DmaSem sig := 61
abbrev cc8_sem4_1 : DmaSem sig := 62
abbrev cc9_sem0_0 : DmaSem sig := 63
abbrev cc9_sem0_1 : DmaSem sig := 64
abbrev cc9_sem1_0 : DmaSem sig := 65
abbrev cc9_sem2_0 : DmaSem sig := 66
abbrev cc9_sem2_1 : DmaSem sig := 67

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_17 : BitVec 32 := 0#32
  let v30 : BitVec 1 := Scalar.cmpi .ne v29 c0_i32_17
  v30

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_17 : BitVec 32 := 0#32
  let v30 : BitVec 1 := Scalar.cmpi .ne v29 c0_i32_17
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def k7_cond2 (i : grid7.Coords) : BitVec 1 :=
  let arg0 : BitVec 32 := BitVec.ofNat 32 (i 0).val
  let c19_i32 : BitVec 32 := 19#32
  let v28 : BitVec 1 := Scalar.cmpi .eq arg0 c19_i32
  let v29 : BitVec 32 := Scalar.extui v28
  let c0_i32_17 : BitVec 32 := 0#32
  let v30 : BitVec 1 := Scalar.cmpi .ne v29 c0_i32_17
  v30

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x1 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  broadcasts_S1x128_S5000x128 : S1x128.Broadcasts S5000x128
  reduces_S5000x128_S128 : S5000x128.Reduces [0] S128
  bcast_S_S1x128 : S_.BroadcastsInDim S1x128 (![] : Fin 0 → Fin S1x128.rank)
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  inb_S5000x1_S5000x1_0_0 : ∀ a, (![0, 0] : Fin 2 → Nat) a + S5000x1.size a ≤ S5000x1.size a
  h_S5000x1 : 0 < S5000x1.numel
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  dot_S5000x256_S256x128_S5000x128_1_0_0_1_n_n_wf : DotDims.WF S5000x256 S256x128 S5000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S100000x128.size a
  hwx2_4 : ∀ i : grid2.Coords, EltTy.bits .f32 = 32 ∨ (Rect.block (s := S100000x128) S5000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x128.size a ≤ S100000x128.size a
  hwx5_4 : ∀ i : grid5.Coords, EltTy.bits .f32 = 32 ∨ (Rect.block (s := S100000x128) S5000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x128.size a ≤ S1x128.size a
  hwx8_1 : ∀ i : grid8.Coords, EltTy.bits .f32 = 32 ∨ (Rect.block (s := S1x128) S1x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x1.size a ≤ S128x1.size a
  hwx9_1 : ∀ i : grid9.Coords, EltTy.bits .f32 = 32 ∨ (Rect.block (s := S128x1) S128x1.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x1.size a ≤ S100000x1.size a
  hwx9_2 : ∀ i : grid9.Coords, EltTy.bits .f32 = 32 ∨ (Rect.block (s := S100000x1) S5000x1.size (cc9_transform_2 i) (hinb9_2 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41_0) S5000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v41_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v41_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S5000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v70) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v71) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72_0) S5000x128.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v72_1) S1x128.size cc4_transform_4 reads4_4 true true 1 stage4_4 sem4_4
    hrank4 hreads4_4 hinb4_4 nbuf4_4 (Memref.isWhole_whole _) hwx4_4 hstage4_4

abbrev win4_5 : Pipeline.Window sig grid4 :=
  Pipeline.Window.ofSpec (Memref.whole main_v72_2) S1x128.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev idle4 : Fin 6 → grid4.Coords → Bool := fun | 0 => fun _ => false | 1 => fun _ => false | 2 => fun _ => false | 3 => fun _ => false | 4 => fun i => !(k4_cond2 i == 1#1) | 5 => fun i => !(k4_cond2 i == 1#1) | ⟨_ + 6, h⟩ => absurd h (Nat.not_lt.2 (Nat.le_add_left _ _))

abbrev win5_0 : Pipeline.Window sig grid5 :=
  Pipeline.Window.ofSpec (Memref.whole main_v72_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v84) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v85) S5000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v86) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v99) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v101) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v102) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v103_0) S5000x128.size cc7_transform_3 reads7_3 true false 2 stage7_3 sem7_3
    hrank7 hreads7_3 hinb7_3 nbuf7_3 (Memref.isWhole_whole _) hwx7_3 hstage7_3

abbrev win7_4 : Pipeline.Window sig grid7 :=
  Pipeline.Window.ofSpec (Memref.whole main_v103_1) S1x128.size cc7_transform_4 reads7_4 true true 1 stage7_4 sem7_4
    hrank7 hreads7_4 hinb7_4 nbuf7_4 (Memref.isWhole_whole _) hwx7_4 hstage7_4

abbrev win7_5 : Pipeline.Window sig grid7 :=
  Pipeline.Window.ofSpec (Memref.whole main_v103_2) S1x128.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun i => !(k7_cond2 i == 1#1) | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v103_0) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v105) S1x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v114) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v115) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v116) S5000x128.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v116) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg15) S128x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v117) S5000x1.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x256 : Shape := ⟨2, ![100000, 256]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S100000 : Shape := ⟨1, ![100000]⟩
abbrev S800000x1 : Shape := ⟨2, ![800000, 1]⟩
abbrev S100000x128 : Shape := ⟨2, ![100000, 128]⟩
abbrev S800000x128 : Shape := ⟨2, ![800000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 298
  | .vmem => 0
  | .smem => 0
  | _ => 0

abbrev hbmTy0_0 (i : Nat) : BufTy := match i % 128 with
  | 0 => ⟨S100000x256, .f32⟩
  | 1 => ⟨S800000, .i32⟩
  | 2 => ⟨S800000, .i32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S128, .f32⟩
  | 14 => ⟨S128, .f32⟩
  | 15 => ⟨S128x1, .f32⟩
  | 16 => ⟨S1, .f32⟩
  | 17 => ⟨S_, .f32⟩
  | 18 => ⟨S800000, .f32⟩
  | 19 => ⟨S_, .f32⟩
  | 20 => ⟨S100000, .f32⟩
  | 21 => ⟨S800000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S100000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x128, .f32⟩
  | 56 => ⟨S800000x1, .f32⟩
  | 57 => ⟨S800000x128, .f32⟩
  | 58 => ⟨S800000x128, .f32⟩
  | 59 => ⟨S_, .f32⟩
  | 60 => ⟨S100000x128, .f32⟩
  | 61 => ⟨S800000x1, .i32⟩
  | 62 => ⟨S100000x128, .f32⟩
  | 63 => ⟨S100000, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S100000x128, .f32⟩
  | 84 => ⟨S100000x128, .f32⟩
  | 85 => ⟨S100000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S100000x128, .f32⟩
  | 101 => ⟨S100000x128, .f32⟩
  | 102 => ⟨S_, .f32⟩
  | 103 => ⟨S128, .f32⟩
  | 104 => ⟨S128, .f32⟩
  | 105 => ⟨S128, .f32⟩
  | 106 => ⟨S128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S100000x128, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S_, .i32⟩
  | 127 => ⟨S800000, .i32⟩
  | _ => ⟨S100000x256, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000, .f32⟩
  | 7 => ⟨S800000, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x128, .f32⟩
  | 17 => ⟨S800000x1, .f32⟩
  | 18 => ⟨S800000x128, .f32⟩
  | 19 => ⟨S800000x128, .f32⟩
  | 20 => ⟨S_, .f32⟩
  | 21 => ⟨S100000x128, .f32⟩
  | 22 => ⟨S800000x1, .i32⟩
  | 23 => ⟨S100000x128, .f32⟩
  | 24 => ⟨S100000, .f32⟩
  | 25 => ⟨S100000x1, .f32⟩
  | 26 => ⟨S100000x128, .f32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000, .f32⟩
  | 96 => ⟨S800000, .f32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x128, .f32⟩
  | 106 => ⟨S800000x1, .f32⟩
  | 107 => ⟨S800000x128, .f32⟩
  | 108 => ⟨S800000x128, .f32⟩
  | 109 => ⟨S_, .f32⟩
  | 110 => ⟨S100000x128, .f32⟩
  | 111 => ⟨S800000x1, .i32⟩
  | 112 => ⟨S100000x128, .f32⟩
  | 113 => ⟨S100000, .f32⟩
  | 114 => ⟨S100000x1, .f32⟩
  | 115 => ⟨S100000x128, .f32⟩
  | 116 => ⟨S100000x128, .f32⟩
  | 117 => ⟨S100000x128, .f32⟩
  | 118 => ⟨S1x128, .f32⟩
  | 119 => ⟨S100000x128, .f32⟩
  | 120 => ⟨S100000x128, .f32⟩
  | 121 => ⟨S_, .f32⟩
  | 122 => ⟨S128, .f32⟩
  | 123 => ⟨S_, .f32⟩
  | 124 => ⟨S128, .f32⟩
  | 125 => ⟨S128, .f32⟩
  | 126 => ⟨S_, .i32⟩
  | 127 => ⟨S_, .f32⟩
  | _ => ⟨S100000x256, .f32⟩

abbrev hbmTy0_2 (i : Nat) : BufTy := match i % 128 with
  | 0 => ⟨S128, .f32⟩
  | 1 => ⟨S1x128, .f32⟩
  | 2 => ⟨S_, .f32⟩
  | 3 => ⟨S1x128, .f32⟩
  | 4 => ⟨S1x128, .f32⟩
  | 5 => ⟨S100000x128, .f32⟩
  | 6 => ⟨S100000x128, .f32⟩
  | 7 => ⟨S100000x128, .f32⟩
  | 8 => ⟨S_, .f32⟩
  | 9 => ⟨S_, .f32⟩
  | 10 => ⟨S_, .f32⟩
  | 11 => ⟨S_, .f32⟩
  | 12 => ⟨S128, .f32⟩
  | 13 => ⟨S128, .f32⟩
  | 14 => ⟨S128, .f32⟩
  | 15 => ⟨S_, .f32⟩
  | 16 => ⟨S_, .i1⟩
  | 17 => ⟨S_, .f32⟩
  | 18 => ⟨S_, .f32⟩
  | 19 => ⟨S128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S128, .f32⟩
  | 26 => ⟨S128, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x1, .f32⟩
  | 39 => ⟨S1x1, .f32⟩
  | 40 => ⟨S100000x1, .f32⟩
  | 41 => ⟨S100000x1, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_v8 : Ref sig .tc := ⟨.hbm, 29, rfl⟩
abbrev main_v9 : Ref sig .tc := ⟨.hbm, 30, rfl⟩
abbrev main_c_2 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_c_4 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_c_6 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_7 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_8 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_c_10 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_11 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_call1_cst : Ref sig .tc := ⟨.hbm, 113, rfl⟩
abbrev main_call1_v0 : Ref sig .tc := ⟨.hbm, 114, rfl⟩
abbrev main_v61 : Ref sig .tc := ⟨.hbm, 115, rfl⟩
abbrev main_v62 : Ref sig .tc := ⟨.hbm, 116, rfl⟩
abbrev main_c_12 : Ref sig .tc := ⟨.hbm, 117, rfl⟩
abbrev main_v63 : Ref sig .tc := ⟨.hbm, 118, rfl⟩
abbrev main_v64 : Ref sig .tc := ⟨.hbm, 119, rfl⟩
abbrev main_c_13 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_c_14 : Ref sig .tc := ⟨.hbm, 126, rfl⟩
abbrev main_v70 : Ref sig .tc := ⟨.hbm, 127, rfl⟩
abbrev main_v71 : Ref sig .tc := ⟨.hbm, 128, rfl⟩
abbrev main_c_15 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_c_16 : Ref sig .tc := ⟨.hbm, 136, rfl⟩
abbrev main_v78 : Ref sig .tc := ⟨.hbm, 137, rfl⟩
abbrev main_v79 : Ref sig .tc := ⟨.hbm, 138, rfl⟩
abbrev main_c_17 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_18 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_19 : Ref sig .tc := ⟨.hbm, 160, rfl⟩
abbrev main_v99 : Ref sig .tc := ⟨.hbm, 161, rfl⟩
abbrev main_cst_20 : Ref sig .tc := ⟨.hbm, 162, rfl⟩
abbrev main_v100 : Ref sig .tc := ⟨.hbm, 163, rfl⟩
abbrev main_v101 : Ref sig .tc := ⟨.hbm, 164, rfl⟩
abbrev main_c_21 : Ref sig .tc := ⟨.hbm, 165, rfl⟩
abbrev main_call2_cst : Ref sig .tc := ⟨.hbm, 166, rfl⟩
abbrev main_call2_v0 : Ref sig .tc := ⟨.hbm, 167, rfl⟩
abbrev main_call2_v1 : Ref sig .tc := ⟨.hbm, 168, rfl⟩
abbrev main_call2_cst_0 : Ref sig .tc := ⟨.hbm, 169, rfl⟩
abbrev main_call2_v2 : Ref sig .tc := ⟨.hbm, 170, rfl⟩
abbrev main_call2_v3 : Ref sig .tc := ⟨.hbm, 171, rfl⟩
abbrev main_call2_v4 : Ref sig .tc := ⟨.hbm, 172, rfl⟩
abbrev main_call2_v5 : Ref sig .tc := ⟨.hbm, 173, rfl⟩
abbrev main_call2_v6 : Ref sig .tc := ⟨.hbm, 174, rfl⟩
abbrev main_call2_v7 : Ref sig .tc := ⟨.hbm, 175, rfl⟩
abbrev main_call2_cst_1 : Ref sig .tc := ⟨.hbm, 176, rfl⟩
abbrev main_call2_v8 : Ref sig .tc := ⟨.hbm, 177, rfl⟩
abbrev main_call2_cst_2 : Ref sig .tc := ⟨.hbm, 178, rfl⟩
abbrev main_call2_v9 : Ref sig .tc := ⟨.hbm, 179, rfl⟩
abbrev main_call2_v10 : Ref sig .tc := ⟨.hbm, 180, rfl⟩
abbrev main_call2_v11 : Ref sig .tc := ⟨.hbm, 181, rfl⟩
abbrev main_call2_cst_3 : Ref sig .tc := ⟨.hbm, 182, rfl⟩
abbrev main_call2_v12 : Ref sig .tc := ⟨.hbm, 183, rfl⟩
abbrev main_call2_cst_4 : Ref sig .tc := ⟨.hbm, 184, rfl⟩
abbrev main_call2_call0_v0 : Ref sig .tc := ⟨.hbm, 185, rfl⟩
abbrev main_call2_call0_v1 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_cst_22 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_call3_cst : Ref sig .tc := ⟨.hbm, 202, rfl⟩
abbrev main_call3_v0 : Ref sig .tc := ⟨.hbm, 203, rfl⟩
abbrev main_v116 : Ref sig .tc := ⟨.hbm, 204, rfl⟩
abbrev main_v117 : Ref sig .tc := ⟨.hbm, 205, rfl⟩
abbrev main_c_23 : Ref sig .tc := ⟨.hbm, 206, rfl⟩
abbrev main_v118 : Ref sig .tc := ⟨.hbm, 207, rfl⟩
abbrev main_v119 : Ref sig .tc := ⟨.hbm, 208, rfl⟩
abbrev main_c_24 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_c_25 : Ref sig .tc := ⟨.hbm, 215, rfl⟩
abbrev main_v125 : Ref sig .tc := ⟨.hbm, 216, rfl⟩
abbrev main_v126 : Ref sig .tc := ⟨.hbm, 217, rfl⟩
abbrev main_c_26 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_c_27 : Ref sig .tc := ⟨.hbm, 225, rfl⟩
abbrev main_v133 : Ref sig .tc := ⟨.hbm, 226, rfl⟩
abbrev main_v134 : Ref sig .tc := ⟨.hbm, 227, rfl⟩
abbrev main_c_28 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_cst_29 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_v146 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_cst_30 : Ref sig .tc := ⟨.hbm, 249, rfl⟩
abbrev main_v154 : Ref sig .tc := ⟨.hbm, 250, rfl⟩
abbrev main_cst_31 : Ref sig .tc := ⟨.hbm, 251, rfl⟩
abbrev main_v155 : Ref sig .tc := ⟨.hbm, 252, rfl⟩
abbrev main_v156 : Ref sig .tc := ⟨.hbm, 253, rfl⟩
abbrev main_c_32 : Ref sig .tc := ⟨.hbm, 254, rfl⟩
abbrev main_call4_cst : Ref sig .tc := ⟨.hbm, 255, rfl⟩
abbrev main_call4_v0 : Ref sig .tc := ⟨.hbm, 256, rfl⟩
abbrev main_call4_v1 : Ref sig .tc := ⟨.hbm, 257, rfl⟩
abbrev main_call4_cst_0 : Ref sig .tc := ⟨.hbm, 258, rfl⟩
abbrev main_call4_v2 : Ref sig .tc := ⟨.hbm, 259, rfl⟩
abbrev main_call4_v3 : Ref sig .tc := ⟨.hbm, 260, rfl⟩
abbrev main_call4_v4 : Ref sig .tc := ⟨.hbm, 261, rfl⟩
abbrev main_call4_v5 : Ref sig .tc := ⟨.hbm, 262, rfl⟩
abbrev main_call4_v6 : Ref sig .tc := ⟨.hbm, 263, rfl⟩
abbrev main_call4_v7 : Ref sig .tc := ⟨.hbm, 264, rfl⟩
abbrev main_call4_cst_1 : Ref sig .tc := ⟨.hbm, 265, rfl⟩
abbrev main_call4_v8 : Ref sig .tc := ⟨.hbm, 266, rfl⟩
abbrev main_call4_cst_2 : Ref sig .tc := ⟨.hbm, 267, rfl⟩
abbrev main_call4_v9 : Ref sig .tc := ⟨.hbm, 268, rfl⟩
abbrev main_call4_v10 : Ref sig .tc := ⟨.hbm, 269, rfl⟩
abbrev main_call4_v11 : Ref sig .tc := ⟨.hbm, 270, rfl⟩
abbrev main_call4_cst_3 : Ref sig .tc := ⟨.hbm, 271, rfl⟩
abbrev main_call4_v12 : Ref sig .tc := ⟨.hbm, 272, rfl⟩
abbrev main_call4_cst_4 : Ref sig .tc := ⟨.hbm, 273, rfl⟩
abbrev main_call4_call0_v0 : Ref sig .tc := ⟨.hbm, 274, rfl⟩
abbrev main_call4_call0_v1 : Ref sig .tc := ⟨.hbm, 275, rfl⟩
abbrev main_v157 : Ref sig .tc := ⟨.hbm, 276, rfl⟩
abbrev main_v158 : Ref sig .tc := ⟨.hbm, 277, rfl⟩
abbrev main_v159 : Ref sig .tc := ⟨.hbm, 278, rfl⟩
abbrev main_v160 : Ref sig .tc := ⟨.hbm, 279, rfl⟩
abbrev main_cst_33 : Ref sig .tc := ⟨.hbm, 280, rfl⟩
abbrev main_v161 : Ref sig .tc := ⟨.hbm, 281, rfl⟩
abbrev main_v162 : Ref sig .tc := ⟨.hbm, 282, rfl⟩
abbrev main_v163 : Ref sig .tc := ⟨.hbm, 283, rfl⟩
abbrev main_v164 : Ref sig .tc := ⟨.hbm, 284, rfl⟩
abbrev main_v165 : Ref sig .tc := ⟨.hbm, 285, rfl⟩
abbrev main_v166 : Ref sig .tc := ⟨.hbm, 286, rfl⟩
abbrev main_v167 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_call5_cst : Ref sig .tc := ⟨.hbm, 291, rfl⟩
abbrev main_call5_v0 : Ref sig .tc := ⟨.hbm, 292, rfl⟩
abbrev main_v171 : Ref sig .tc := ⟨.hbm, 293, rfl⟩
abbrev main_v172 : Ref sig .tc := ⟨.hbm, 294, rfl⟩
abbrev main_v173 : Ref sig .tc := ⟨.hbm, 295, rfl⟩
abbrev main_v174 : Ref sig .tc := ⟨.hbm, 296, rfl⟩
abbrev main_v175 : Ref sig .tc := ⟨.hbm, 297, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S800000x1_S800000_n_0_0_1_wf : ScatterDims.WF S100000 S800000x1 S800000 [] [0] [0] 1
  dot_S100000x256_S256x128_S100000x128_1_0_0_1_n_n_wf : DotDims.WF S100000x256 S256x128 S100000x128 [1] [0] [0] [1] [] []
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.KI.RegM0.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S5000x256 := Rect.unit (s := S5000x256) ![0, 0] S5000x256.size inb_S5000x256_S5000x256_0_0
abbrev rw0 : Rect S256x128 := Rect.unit (s := S256x128) ![0, 0] S256x128.size inb_S256x128_S256x128_0_0
abbrev ro0 : Rect S5000x128 := Rect.unit (s := S5000x128) ![0, 0] S5000x128.size inb_S5000x128_S5000x128_0_0

def out0_2 (x0 : Vec F S5000x256 .f32) (x1 : Vec F S256x128 .f32) : Vec F S5000x128 .f32 :=
  View.canon [⟨ro0, k0_pay1 (View.ld x0 rx0) (View.ld x1 rw0)⟩]

theorem cover0_2 (p0 : Vec F S5000x128 .f32) (y : S5000x128.Idx) :
    ∃ pc ∈ ([⟨ro0, p0⟩] : List (View.Piece (Elt F) S5000x128 .f32)), y ∈ pc.1.set :=
  View.cover_of_tiled [⟨ro0, p0⟩] S5000x128.size (by rfl) y

set_option maxHeartbeats 1000000 in

theorem sound_kernel0 (c : Dev nD) (E : Set ℕ) (i : grid0.Coords) (arg1 : Memref sig .tc .vmem S5000x256 .f32) (harg1 : arg1.IsWhole) (arg2 : Memref sig .tc .vmem S256x128 .f32) (harg2 : arg2.IsWhole)
    (arg3 : Memref sig .tc .vmem S5000x128 .f32) (harg3 : arg3.IsWhole)
    (x0 : Vec F S5000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.RegM3.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev rx3 : Rect S5000x128 := Rect.unit (s := S5000x128) ![0, 0] S5000x128.size inb_S5000x128_S5000x128_0_0
abbrev rw3 : Rect S128x128 := Rect.unit (s := S128x128) ![0, 0] S128x128.size inb_S128x128_S128x128_0_0
abbrev ro3 : Rect S5000x128 := Rect.unit (s := S5000x128) ![0, 0] S5000x128.size inb_S5000x128_S5000x128_0_0

def out3_2 (x0 : Vec F S5000x128 .f32) (x1 : Vec F S128x128 .f32) : Vec F S5000x128 .f32 :=
  View.canon [⟨ro3, k3_pay1 (View.ld x0 rx3) (View.ld x1 rw3)⟩]

theorem cover3_2 (p0 : Vec F S5000x128 .f32) (y : S5000x128.Idx) :
    ∃ pc ∈ ([⟨ro3, p0⟩] : List (View.Piece (Elt F) S5000x128 .f32)), y ∈ pc.1.set :=
  View.cover_of_tiled [⟨ro3, p0⟩] S5000x128.size (by rfl) y

set_option maxHeartbeats 1000000 in

theorem sound_kernel3 (c : Dev nD) (E : Set ℕ) (i : grid3.Coords) (arg1 : Memref sig .tc .vmem S5000x128 .f32) (harg1 : arg1.IsWhole) (arg2 : Memref sig .tc .vmem S128x128 .f32) (harg2 : arg2.IsWhole)
    (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.RegM6.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.KI.RegM3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev rx6 : Rect S5000x128 := Rect.unit (s := S5000x128) ![0, 0] S5000x128.size inb_S5000x128_S5000x128_0_0
abbrev rw6 : Rect S128x128 := Rect.unit (s := S128x128) ![0, 0] S128x128.size inb_S128x128_S128x128_0_0
abbrev ro6 : Rect S5000x128 := Rect.unit (s := S5000x128) ![0, 0] S5000x128.size inb_S5000x128_S5000x128_0_0

def out6_2 (x0 : Vec F S5000x128 .f32) (x1 : Vec F S128x128 .f32) : Vec F S5000x128 .f32 :=
  View.canon [⟨ro6, k3_pay1 (View.ld x0 rx6) (View.ld x1 rw6)⟩]

theorem cc6_eq : (cc6__matmul_kernel (F := F)) = cc3__matmul_kernel (F := F) := rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  rw [cc6_eq]
  simp only [before6_0, before6_1]
  rw [show (dat6 V c).Φ t.succ = (dat6 V c).Φ t.castSucc from rfl,
    show (dat6 V c).owesAt () t.succ = (dat6 V c).owesAt () t.castSucc from rfl,
    after6_0, after6_1, after6_2]
  iintro ⟨HΦ, Ho, ⟨%d0, H0⟩, ⟨%d1, H1⟩, ⟨%d2, H2⟩⟩
  iapply (sound_kernel3 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KI.RegM9.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev rx9 : Rect S5000x128 := Rect.unit (s := S5000x128) ![0, 0] S5000x128.size inb_S5000x128_S5000x128_0_0
abbrev rw9 : Rect S128x1 := Rect.unit (s := S128x1) ![0, 0] S128x1.size inb_S128x1_S128x1_0_0
abbrev ro9 : Rect S5000x1 := Rect.unit (s := S5000x1) ![0, 0] S5000x1.size inb_S5000x1_S5000x1_0_0

def out9_2 (x0 : Vec F S5000x128 .f32) (x1 : Vec F S128x1 .f32) : Vec F S5000x1 .f32 :=
  View.canon [⟨ro9, k9_pay1 (View.ld x0 rx9) (View.ld x1 rw9)⟩]

theorem cover9_2 (p0 : Vec F S5000x1 .f32) (y : S5000x1.Idx) :
    ∃ pc ∈ ([⟨ro9, p0⟩] : List (View.Piece (Elt F) S5000x1 .f32)), y ∈ pc.1.set :=
  View.cover_of_tiled [⟨ro9, p0⟩] S5000x1.size (by rfl) y

set_option maxHeartbeats 1000000 in

theorem sound_kernel9 (c : Dev nD) (E : Set ℕ) (i : grid9.Coords) (arg1 : Memref sig .tc .vmem S5000x128 .f32) (harg1 : arg1.IsWhole) (arg2 : Memref sig .tc .vmem S128x1 .f32) (harg2 : arg2.IsWhole)
    (arg3 : Memref sig .tc .vmem S5000x1 .f32) (harg3 : arg3.IsWhole)
    (x0 : Vec F S5000x128 .f32) (x1 : Vec F S128x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out9_2 x0 x1)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover9_2 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2]
  iintro ⟨HΦ, Ho, ⟨%d0, H0⟩, ⟨%d1, H1⟩, ⟨%d2, H2⟩⟩
  iapply (sound_kernel9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KI.RegB2.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev rb2 : Rect S5000x128 := Rect.unit (s := S5000x128) ![0, 0] S5000x128.size inb_S5000x128_S5000x128_0_0
abbrev rr2 : Rect S1x128 := Rect.unit (s := S1x128) ![0, 0] S1x128.size inb_S1x128_S1x128_0_0

def out2_4 (x0 : Vec F S5000x128 .f32) (x1 x2 x3 : Vec F S1x128 .f32) : Vec F S5000x128 .f32 :=
  View.canon [⟨rb2, k2_pay1 (View.ld x0 rb2) (View.ld x1 rr2) (View.ld x2 rr2) (View.ld x3 rr2)⟩]

theorem cover2_4 (p0 : Vec F S5000x128 .f32) (y : S5000x128.Idx) :
    ∃ pc ∈ ([⟨rb2, p0⟩] : List (View.Piece (Elt F) S5000x128 .f32)), y ∈ pc.1.set :=
  View.cover_of_tiled [⟨rb2, p0⟩] S5000x128.size (by rfl) y

set_option maxHeartbeats 1000000 in

theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S5000x128 .f32) (harg5 : arg5.IsWhole)
    (x0 : Vec F S5000x128 .f32) (x1 x2 x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out2_4 x0 x1 x2 x3)) -∗ K ⟨⟩))
      ⊢ wp frame (wpE (defs₀ (F := F)) Variants.none c none) E (cc2__bn_relu_kernel i arg1 harg1 arg2 harg2 arg3 harg3 arg4 harg4 arg5 harg5) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RegB5.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.KI.RegB2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

abbrev rb5 : Rect S5000x128 := Rect.unit (s := S5000x128) ![0, 0] S5000x128.size inb_S5000x128_S5000x128_0_0
abbrev rr5 : Rect S1x128 := Rect.unit (s := S1x128) ![0, 0] S1x128.size inb_S1x128_S1x128_0_0

def out5_4 (x0 : Vec F S5000x128 .f32) (x1 x2 x3 : Vec F S1x128 .f32) : Vec F S5000x128 .f32 :=
  View.canon [⟨rb5, k2_pay1 (View.ld x0 rb5) (View.ld x1 rr5) (View.ld x2 rr5) (View.ld x3 rr5)⟩]

theorem cc5_eq : (cc5__bn_relu_kernel (F := F)) = cc2__bn_relu_kernel (F := F) := rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  rw [cc5_eq]
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.RegB8.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.KI.RegB2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

abbrev rb8 : Rect S5000x128 := Rect.unit (s := S5000x128) ![0, 0] S5000x128.size inb_S5000x128_S5000x128_0_0
abbrev rr8 : Rect S1x128 := Rect.unit (s := S1x128) ![0, 0] S1x128.size inb_S1x128_S1x128_0_0

def out8_4 (x0 : Vec F S5000x128 .f32) (x1 x2 x3 : Vec F S1x128 .f32) : Vec F S5000x128 .f32 :=
  View.canon [⟨rb8, k2_pay1 (View.ld x0 rb8) (View.ld x1 rr8) (View.ld x2 rr8) (View.ld x3 rr8)⟩]

theorem cc8_eq : (cc8__bn_relu_kernel (F := F)) = cc2__bn_relu_kernel (F := F) := rfl

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => out8_4 (iblk8 V c 0 t) (iblk8 V c 1 t) (iblk8 V c 2 t) (iblk8 V c 3 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = out8_4 (iblk8 V c 0 t) (iblk8 V c 1 t) (iblk8 V c 2 t) (iblk8 V c 3 t) := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  rw [cc8_eq]
  simp only [before8_0, before8_1, before8_2, before8_3]
  rw [show (dat8 V c).Φ t.succ = (dat8 V c).Φ t.castSucc from rfl,
    show (dat8 V c).owesAt () t.succ = (dat8 V c).owesAt () t.castSucc from rfl,
    after8_0, after8_1, after8_2, after8_3, after8_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk8 V c 0 t) (iblk8 V c 1 t) (iblk8 V c 2 t) (iblk8 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KI.Whole.lean ====
import Idealize.ShloMosaic.Lib.Pipeline.FrameBody
import Idealize.ShloMosaic.Lib.Pipeline.Value
import Idealize.ShloMosaic.Lib.Tactic

namespace Cert.KernelIdeal.Hand

open Idealize.ShloMosaic Idealize.ShloMosaic.TcCoe
open Idealize.SL Idealize.SL.Sem

variable {F : FTy → Type} [FloatOps F] {sig : RefSig}

theorem hzero : (![0, 0] : Fin 2 → Nat) = fun _ => 0 := funext fun a => by fin_cases a <;> rfl

/-- A load through the whole-shape rectangle reads what the view reads. -/
theorem readAt_whole {κ : Kind} {sp : Space} {S : Shape} {e : EltTy} (v : View sig κ sp S e) {off : Fin S.rank → Nat} (h : off = fun _ => 0)
    (inb : ∀ a, off a + S.size a ≤ S.size a) (f : v.ty.Contents (Elt F)) :
    v.readAt (Elt F) (Rect.unit off S.size inb).toLoadRect f = v.read (Elt F) f :=
  View.ld_unit_zero h inb _

/-- A store through it, made last, leaves its payload whatever was stored before. -/
theorem read_writes_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h; funext y
  have e := View.read_writes_cons_emb v f (Rect.whole S) w L y
  rw [Rect.emb_whole_apply] at e
  exact e

theorem read_writes_canon {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e) :
    v.read (Elt F) (v.writes (Elt F) f [(⟨Rect.unit off S.size inb, w⟩ : View.Piece (Elt F) S e)])
      = View.canon [(⟨Rect.unit off S.size inb, w⟩ : View.Piece (Elt F) S e)] :=
  (read_writes_whole v f h inb w []).trans (View.canon_unit_zero h inb w).symm

end Cert.KernelIdeal.Hand
-- ==== Proof.KI.RegC1.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.Gen.KernelIdeal.Regions
import proofs.«113696_j26852135535044_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev condF1 (i : grid1.Coords) : Prop := (Scalar.cmpi .ne (Scalar.extui (Scalar.cmpi .eq (BitVec.ofNat 32 (i 0).val) 0#32)) 0#32) = 1#1

theorem hcondF1 : ∀ t : Fin cfg1.N, condF1 (grid1.coords t) ↔ t.val = 0 :=
  (by decide +kernel : ∀ t : Fin grid1.N, condF1 (grid1.coords t) ↔ t.val = 0)

abbrev condL1 (i : grid1.Coords) : Prop := k1_cond2 i = 1#1

theorem hcondL1 : ∀ t : Fin cfg1.N, condL1 (grid1.coords t) ↔ t.val = 19 :=
  (by decide +kernel : ∀ t : Fin grid1.N, condL1 (grid1.coords t) ↔ t.val = 19)

theorem idleAt1_4 : ∀ t : Fin cfg1.N, ¬condL1 (grid1.coords t) → cfg1.idle 4 (grid1.coords t) = true := by decide +kernel
theorem idleAt1_5 : ∀ t : Fin cfg1.N, ¬condL1 (grid1.coords t) → cfg1.idle 5 (grid1.coords t) = true := by decide +kernel
theorem noFlush1_4 : ∀ t : Fin cfg1.N, ¬condL1 (grid1.coords t) → (cfg1.win 4).flush t = false := by decide +kernel
theorem noFlush1_5 : ∀ t : Fin cfg1.N, ¬condL1 (grid1.coords t) → (cfg1.win 5).flush t = false := by decide +kernel
theorem liveAt1_4 : ∀ t : Fin cfg1.N, condL1 (grid1.coords t) → cfg1.idle 4 (grid1.coords t) = false := by decide +kernel
theorem liveAt1_5 : ∀ t : Fin cfg1.N, condL1 (grid1.coords t) → cfg1.idle 5 (grid1.coords t) = false := by decide +kernel

abbrev rBig1 : Rect S5000x128 := Rect.unit (s := S5000x128) ![0, 0] S5000x128.size inb_S5000x128_S5000x128_0_0
abbrev rRow1 : Rect S1x128 := Rect.unit (s := S1x128) ![0, 0] S1x128.size inb_S1x128_S1x128_0_0

set_option maxHeartbeats 1000000 in
theorem run1_A (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (hcF : condF1 i) (hcL : ¬condL1 i)
    (x0 x1 : Vec F S5000x128 .f32) (x2 xi4 xi5 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ owns (c : Thread nD τ) arg5 fullShare xi4
        ∗ owns (c : Thread nD τ) arg6 fullShare xi5
        ∗ (∃ d, owns (c : Thread nD τ) arg7 fullShare d)
        ∗ (∃ d, owns (c : Thread nD τ) arg8 fullShare d)
        ∗ (iprop(owns (c : Thread nD τ) arg1 fullShare x0
            ∗ owns (c : Thread nD τ) arg2 fullShare x1
            ∗ owns (c : Thread nD τ) arg3 fullShare x2
            ∗ (∃ f, arg4.view.loc (c : Thread nD τ) ↦[arg4.view.set]{fullShare} arg4.view.writes (Elt F) f [⟨rBig1, k1_pay3 x0 x1 x2⟩])
            ∗ owns (c : Thread nD τ) arg5 fullShare xi4
            ∗ owns (c : Thread nD τ) arg6 fullShare xi5
            ∗ (∃ f, arg7.view.loc (c : Thread nD τ) ↦[arg7.view.set]{fullShare} arg7.view.writes (Elt F) f [⟨rRow1, k1_pay4 x0 x1 x2 k1_pay1⟩, ⟨rRow1, k1_pay1⟩])
            ∗ (∃ f, arg8.view.loc (c : Thread nD τ) ↦[arg8.view.set]{fullShare} arg8.view.writes (Elt F) f [⟨rRow1, k1_pay5 x0 x1 x2 k1_pay2⟩, ⟨rRow1, k1_pay2⟩])) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hcF | exact hcL)
  sl_unfold_run_names
  have e0 : View.readAt (Elt F) arg1.view rBig1.toLoadRect (harg1.unread x0) = x0 := (readAt_whole arg1.view hzero _ _).trans hf0
  have e1 : View.readAt (Elt F) arg2.view rBig1.toLoadRect (harg2.unread x1) = x1 := (readAt_whole arg2.view hzero _ _).trans hf1
  have e2 : View.readAt (Elt F) arg3.view rRow1.toLoadRect (harg3.unread x2) = x2 := (readAt_whole arg3.view hzero _ _).trans hf2
  simp only [e0, e1, e2, View.readCov_cons_toLoadRect]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]; · iexists _; iexact H3
  isplitl [H4]
  · iexists _; isplitr; · ipureintro; exact harg5.read_unread _
    iexact H4
  isplitl [H5]
  · iexists _; isplitr; · ipureintro; exact harg6.read_unread _
    iexact H5
  isplitl [HS0]; · iexists _; iexact HS0
  iexists _; iexact HS1

set_option maxHeartbeats 1000000 in
theorem run1_B (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (hcF : ¬condF1 i) (hcL : ¬condL1 i)
    (x0 x1 : Vec F S5000x128 .f32) (x2 xi4 xi5 s0 s1 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ owns (c : Thread nD τ) arg5 fullShare xi4
        ∗ owns (c : Thread nD τ) arg6 fullShare xi5
        ∗ owns (c : Thread nD τ) arg7 fullShare s0
        ∗ owns (c : Thread nD τ) arg8 fullShare s1
        ∗ (iprop(owns (c : Thread nD τ) arg1 fullShare x0
            ∗ owns (c : Thread nD τ) arg2 fullShare x1
            ∗ owns (c : Thread nD τ) arg3 fullShare x2
            ∗ (∃ f, arg4.view.loc (c : Thread nD τ) ↦[arg4.view.set]{fullShare} arg4.view.writes (Elt F) f [⟨rBig1, k1_pay3 x0 x1 x2⟩])
            ∗ owns (c : Thread nD τ) arg5 fullShare xi4
            ∗ owns (c : Thread nD τ) arg6 fullShare xi5
            ∗ (∃ f, arg7.view.loc (c : Thread nD τ) ↦[arg7.view.set]{fullShare} arg7.view.writes (Elt F) f [⟨rRow1, k1_pay4 x0 x1 x2 s0⟩])
            ∗ (∃ f, arg8.view.loc (c : Thread nD τ) ↦[arg8.view.set]{fullShare} arg8.view.writes (Elt F) f [⟨rRow1, k1_pay5 x0 x1 x2 s1⟩])) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg5.eq_unread hf4; obtain rfl := harg6.eq_unread hf5
  obtain rfl := harg7.eq_unread hfs0; obtain rfl := harg8.eq_unread hfs1
  sl_exec (disch := first | exact hcF | exact hcL)
  sl_unfold_run_names
  have e0 : View.readAt (Elt F) arg1.view rBig1.toLoadRect (harg1.unread x0) = x0 := (readAt_whole arg1.view hzero _ _).trans hf0
  have e1 : View.readAt (Elt F) arg2.view rBig1.toLoadRect (harg2.unread x1) = x1 := (readAt_whole arg2.view hzero _ _).trans hf1
  have e2 : View.readAt (Elt F) arg3.view rRow1.toLoadRect (harg3.unread x2) = x2 := (readAt_whole arg3.view hzero _ _).trans hf2
  have e7 : View.readAt (Elt F) arg7.view rRow1.toLoadRect (harg7.unread s0) = s0 := (readAt_whole arg7.view hzero _ _).trans hfs0
  have e8 : View.readAt (Elt F) arg8.view rRow1.toLoadRect (harg8.unread s1) = s1 := (readAt_whole arg8.view hzero _ _).trans hfs1
  simp only [e0, e1, e2, e7, e8]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]; · iexists _; iexact H3
  isplitl [H4]
  · iexists _; isplitr; · ipureintro; exact harg5.read_unread _
    iexact H4
  isplitl [H5]
  · iexists _; isplitr; · ipureintro; exact harg6.read_unread _
    iexact H5
  isplitl [HS0]; · iexists _; iexact HS0
  iexists _; iexact HS1

set_option maxHeartbeats 1000000 in
theorem run1_C (c : Dev nD) (i : grid1.Coords) (arg1 : Memref sig .tc .vmem S5000x128 .f32) (harg1 : arg1.IsWhole) (arg2 : Memref sig .tc .vmem S5000x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole)
    (hcF : ¬condF1 i) (hcL : condL1 i)
    (x0 x1 : Vec F S5000x128 .f32) (x2 s0 s1 : Vec F S1x128 .f32) (E : Set ℕ) (K : PUnit → sProp 𝕄) :
    iprop(owns (c : Thread nD τ) arg1 fullShare x0
        ∗ owns (c : Thread nD τ) arg2 fullShare x1
        ∗ owns (c : Thread nD τ) arg3 fullShare x2
        ∗ (∃ d, owns (c : Thread nD τ) arg4 fullShare d)
        ∗ (∃ d, owns (c : Thread nD τ) arg5 fullShare d)
        ∗ (∃ d, owns (c : Thread nD τ) arg6 fullShare d)
        ∗ owns (c : Thread nD τ) arg7 fullShare s0
        ∗ owns (c : Thread nD τ) arg8 fullShare s1
        ∗ (iprop(owns (c : Thread nD τ) arg1 fullShare x0
            ∗ owns (c : Thread nD τ) arg2 fullShare x1
            ∗ owns (c : Thread nD τ) arg3 fullShare x2
            ∗ (∃ f, arg4.view.loc (c : Thread nD τ) ↦[arg4.view.set]{fullShare} arg4.view.writes (Elt F) f [⟨rBig1, k1_pay3 x0 x1 x2⟩])
            ∗ (∃ f, arg5.view.loc (c : Thread nD τ) ↦[arg5.view.set]{fullShare} arg5.view.writes (Elt F) f [⟨rRow1, k1_pay4 x0 x1 x2 s0⟩])
            ∗ (∃ f, arg6.view.loc (c : Thread nD τ) ↦[arg6.view.set]{fullShare} arg6.view.writes (Elt F) f [⟨rRow1, k1_pay5 x0 x1 x2 s1⟩])
            ∗ (∃ f, arg7.view.loc (c : Thread nD τ) ↦[arg7.view.set]{fullShare} arg7.view.writes (Elt F) f [⟨rRow1, k1_pay4 x0 x1 x2 s0⟩])
            ∗ (∃ f, arg8.view.loc (c : Thread nD τ) ↦[arg8.view.set]{fullShare} arg8.view.writes (Elt F) f [⟨rRow1, k1_pay5 x0 x1 x2 s1⟩])) -∗ K ⟨⟩))
      ⊢ wp frame (wpE (defs₀ (F := F)) Variants.none c none) E (cc1__combine_stats_kernel i arg1 harg1 arg2 harg2 arg3 harg3 arg4 harg4 arg5 harg5 arg6 harg6 arg7 harg7 arg8 harg8) K := by
  simp only [cc1__combine_stats_kernel_eq_skeleton]; unfold cc1__combine_stats_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg7.eq_unread hfs0; obtain rfl := harg8.eq_unread hfs1
  sl_exec (disch := first | exact hcF | exact hcL)
  sl_unfold_run_names
  have e0 : View.readAt (Elt F) arg1.view rBig1.toLoadRect (harg1.unread x0) = x0 := (readAt_whole arg1.view hzero _ _).trans hf0
  have e1 : View.readAt (Elt F) arg2.view rBig1.toLoadRect (harg2.unread x1) = x1 := (readAt_whole arg2.view hzero _ _).trans hf1
  have e2 : View.readAt (Elt F) arg3.view rRow1.toLoadRect (harg3.unread x2) = x2 := (readAt_whole arg3.view hzero _ _).trans hf2
  have e7 : View.readAt (Elt F) arg7.view rRow1.toLoadRect (harg7.unread s0) = s0 := (readAt_whole arg7.view hzero _ _).trans hfs0
  have e8 : View.readAt (Elt F) arg8.view rRow1.toLoadRect (harg8.unread s1) = s1 := (readAt_whole arg8.view hzero _ _).trans hfs1
  simp only [e0, e1, e2, e7, e8, View.readCov_cons_toLoadRect]
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]; · iexists _; iexact H3
  isplitl [H4]; · iexists _; iexact H4
  isplitl [H5]; · iexists _; iexact H5
  isplitl [HS0]; · iexists _; iexact HS0
  iexists _; iexact HS1

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def pt1 (n : ℕ) : Fin cfg1.N := ⟨n % 20, lt_of_lt_of_eq (Nat.mod_lt n (by decide)) N_1.symm⟩

theorem pt1_val (t : Fin cfg1.N) : pt1 t.val = t := Fin.ext (Nat.mod_eq_of_lt (lt_of_lt_of_eq t.isLt N_1))

def pre1 (c : Dev nD) (t : Fin cfg1.N) : Vec F S5000x128 .f32 :=
  k1_pay3 (iblk1 V c 0 t) (iblk1 V c 1 t) (iblk1 V c 2 t)

def accS1 (c : Dev nD) : ℕ → Vec F S1x128 .f32
  | 0 => k1_pay4 (iblk1 V c 0 (pt1 0)) (iblk1 V c 1 (pt1 0)) (iblk1 V c 2 (pt1 0)) k1_pay1
  | n + 1 => k1_pay4 (iblk1 V c 0 (pt1 (n + 1))) (iblk1 V c 1 (pt1 (n + 1))) (iblk1 V c 2 (pt1 (n + 1))) (accS1 c n)

def accQ1 (c : Dev nD) : ℕ → Vec F S1x128 .f32
  | 0 => k1_pay5 (iblk1 V c 0 (pt1 0)) (iblk1 V c 1 (pt1 0)) (iblk1 V c 2 (pt1 0)) k1_pay2
  | n + 1 => k1_pay5 (iblk1 V c 0 (pt1 (n + 1))) (iblk1 V c 1 (pt1 (n + 1))) (iblk1 V c 2 (pt1 (n + 1))) (accQ1 c n)

theorem accS1_first (c : Dev nD) (t : Fin cfg1.N) (h : t.val = 0) :
    accS1 V c t.val = k1_pay4 (iblk1 V c 0 t) (iblk1 V c 1 t) (iblk1 V c 2 t) k1_pay1 := by
  have e : pt1 0 = t := by rw [← h]; exact pt1_val t
  rw [h]; show k1_pay4 (iblk1 V c 0 (pt1 0)) (iblk1 V c 1 (pt1 0)) (iblk1 V c 2 (pt1 0)) k1_pay1 = _
  rw [e]

theorem accS1_later (c : Dev nD) (t : Fin cfg1.N) (h : t.val ≠ 0) :
    accS1 V c t.val = k1_pay4 (iblk1 V c 0 t) (iblk1 V c 1 t) (iblk1 V c 2 t) (accS1 V c (t.val - 1)) := by
  obtain ⟨n, hn⟩ : ∃ n, t.val = n + 1 := ⟨t.val - 1, by omega⟩
  have e : pt1 (n + 1) = t := by rw [← hn]; exact pt1_val t
  rw [hn]; show k1_pay4 (iblk1 V c 0 (pt1 (n + 1))) (iblk1 V c 1 (pt1 (n + 1))) (iblk1 V c 2 (pt1 (n + 1))) (accS1 V c n) = _
  rw [e]; rfl

theorem accQ1_first (c : Dev nD) (t : Fin cfg1.N) (h : t.val = 0) :
    accQ1 V c t.val = k1_pay5 (iblk1 V c 0 t) (iblk1 V c 1 t) (iblk1 V c 2 t) k1_pay2 := by
  have e : pt1 0 = t := by rw [← h]; exact pt1_val t
  rw [h]; show k1_pay5 (iblk1 V c 0 (pt1 0)) (iblk1 V c 1 (pt1 0)) (iblk1 V c 2 (pt1 0)) k1_pay2 = _
  rw [e]

theorem accQ1_later (c : Dev nD) (t : Fin cfg1.N) (h : t.val ≠ 0) :
    accQ1 V c t.val = k1_pay5 (iblk1 V c 0 t) (iblk1 V c 1 t) (iblk1 V c 2 t) (accQ1 V c (t.val - 1)) := by
  obtain ⟨n, hn⟩ : ∃ n, t.val = n + 1 := ⟨t.val - 1, by omega⟩
  have e : pt1 (n + 1) = t := by rw [← hn]; exact pt1_val t
  rw [hn]; show k1_pay5 (iblk1 V c 0 (pt1 (n + 1))) (iblk1 V c 1 (pt1 (n + 1))) (iblk1 V c 2 (pt1 (n + 1))) (accQ1 V c n) = _
  rw [e]; rfl

abbrev scS1 : Memref sig .tc .vmem S1x128 .f32 := Memref.whole cc1_scratch0
abbrev scQ1 : Memref sig .tc .vmem S1x128 .f32 := Memref.whole cc1_scratch1

def Phi1 (c : Dev nD) : ℕ → sProp 𝕄
  | 0 => iprop((∃ r, prngReg c r) ∗ (∃ d, owns (c : Thread nD τ) scS1 fullShare d) ∗ (∃ d, owns (c : Thread nD τ) scQ1 fullShare d)
      ∗ Pipeline.scopedRestBut (Ix := Unit) (Name := ℕ) (U := UR sig nD τ) (Lvl := ℕ) (Val := Elt F) spec1 c [cc1_scratch0, cc1_scratch1])
  | n + 1 => iprop((∃ r, prngReg c r) ∗ owns (c : Thread nD τ) scS1 fullShare (accS1 V c n) ∗ owns (c : Thread nD τ) scQ1 fullShare (accQ1 V c n)
      ∗ Pipeline.scopedRestBut (Ix := Unit) (Name := ℕ) (U := UR sig nD τ) (Lvl := ℕ) (Val := Elt F) spec1 c [cc1_scratch0, cc1_scratch1])

theorem Phi1_first (c : Dev nD) (n : ℕ) (h : n = 0) :
    Phi1 V c n = iprop((∃ r, prngReg c r) ∗ (∃ d, owns (c : Thread nD τ) scS1 fullShare d) ∗ (∃ d, owns (c : Thread nD τ) scQ1 fullShare d)
      ∗ Pipeline.scopedRestBut (Ix := Unit) (Name := ℕ) (U := UR sig nD τ) (Lvl := ℕ) (Val := Elt F) spec1 c [cc1_scratch0, cc1_scratch1]) := by
  subst h; rfl

theorem Phi1_succ (c : Dev nD) (n : ℕ) :
    Phi1 V c (n + 1) = iprop((∃ r, prngReg c r) ∗ owns (c : Thread nD τ) scS1 fullShare (accS1 V c n) ∗ owns (c : Thread nD τ) scQ1 fullShare (accQ1 V c n)
      ∗ Pipeline.scopedRestBut (Ix := Unit) (Name := ℕ) (U := UR sig nD τ) (Lvl := ℕ) (Val := Elt F) spec1 c [cc1_scratch0, cc1_scratch1]) := rfl

theorem Phi1_later (c : Dev nD) (n : ℕ) (h : n ≠ 0) :
    Phi1 V c n = iprop((∃ r, prngReg c r) ∗ owns (c : Thread nD τ) scS1 fullShare (accS1 V c (n - 1)) ∗ owns (c : Thread nD τ) scQ1 fullShare (accQ1 V c (n - 1))
      ∗ Pipeline.scopedRestBut (Ix := Unit) (Name := ℕ) (U := UR sig nD τ) (Lvl := ℕ) (Val := Elt F) spec1 c [cc1_scratch0, cc1_scratch1]) := by
  cases n with
  | zero => exact absurd rfl h
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => View.canon [(⟨rBig1, pre1 V c t⟩ : View.Piece (Elt F) S5000x128 .f32)]
    | ⟨4, _⟩ => View.canon [(⟨rRow1, accS1 V c t.val⟩ : View.Piece (Elt F) S1x128 .f32)]
    | ⟨5, _⟩ => View.canon [(⟨rRow1, accQ1 V c t.val⟩ : View.Piece (Elt F) S1x128 .f32)]
  Φ t := Phi1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

theorem after1_3 (c : Dev nD) (t : Fin cfg1.N) :
    (dat1 V c).after 3 t = View.canon [(⟨rBig1, pre1 V c t⟩ : View.Piece (Elt F) S5000x128 .f32)] := by dsimp only [dat1]

theorem after1_4 (c : Dev nD) (t : Fin cfg1.N) (h : t.val = 19) :
    (dat1 V c).after 4 t = View.canon [(⟨rRow1, accS1 V c 19⟩ : View.Piece (Elt F) S1x128 .f32)] := by dsimp only [dat1]; rw [h]

theorem after1_5 (c : Dev nD) (t : Fin cfg1.N) (h : t.val = 19) :
    (dat1 V c).after 5 t = View.canon [(⟨rRow1, accQ1 V c 19⟩ : View.Piece (Elt F) S1x128 .f32)] := by dsimp only [dat1]; rw [h]

theorem after1_4_any (c : Dev nD) (t : Fin cfg1.N) :
    (dat1 V c).after 4 t = View.canon [(⟨rRow1, accS1 V c t.val⟩ : View.Piece (Elt F) S1x128 .f32)] := by dsimp only [dat1]
theorem after1_5_any (c : Dev nD) (t : Fin cfg1.N) :
    (dat1 V c).after 5 t = View.canon [(⟨rRow1, accQ1 V c t.val⟩ : View.Piece (Elt F) S1x128 .f32)] := by dsimp only [dat1]

theorem after1_3_val (c : Dev nD) (t : Fin cfg1.N) : (dat1 V c).after 3 t = pre1 V c t :=
  (after1_3 V c t).trans (View.canon_unit_zero hzero _ _)
theorem after1_4_val (c : Dev nD) (t : Fin cfg1.N) (h : t.val = 19) : (dat1 V c).after 4 t = accS1 V c 19 :=
  (after1_4 V c t h).trans (View.canon_unit_zero hzero _ _)
theorem after1_5_val (c : Dev nD) (t : Fin cfg1.N) (h : t.val = 19) : (dat1 V c).after 5 t = accQ1 V c 19 :=
  (after1_5 V c t h).trans (View.canon_unit_zero hzero _ _)

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

abbrev ms1_0 (t : Fin cfg1.N) : Memref sig .tc .vmem S5000x128 .f32 := win1_0.stage (cfg1.slots t 0)
abbrev ms1_1 (t : Fin cfg1.N) : Memref sig .tc .vmem S5000x128 .f32 := win1_1.stage (cfg1.slots t 1)
abbrev ms1_2 (t : Fin cfg1.N) : Memref sig .tc .vmem S1x128 .f32 := win1_2.stage (cfg1.slots t 2)
abbrev ms1_3 (t : Fin cfg1.N) : Memref sig .tc .vmem S5000x128 .f32 := win1_3.stage (cfg1.slots t 3)
abbrev ms1_4 (t : Fin cfg1.N) : Memref sig .tc .vmem S1x128 .f32 := win1_4.stage (cfg1.slots t 4)
abbrev ms1_5 (t : Fin cfg1.N) : Memref sig .tc .vmem S1x128 .f32 := win1_5.stage (cfg1.slots t 5)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) from rfl, Phi1_succ]
  rw [show (dat1 V c).Φ t.castSucc = Phi1 V c t.val from rfl]
  have hN : t.val < 20 := lt_of_lt_of_eq t.isLt N_1
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t]]
  by_cases hF : t.val = 0
  · have hL : ¬t.val = 19 := by omega
    have hcF : condF1 (grid1.coords t) := (hcondF1 t).mpr hF
    have hcL : ¬condL1 (grid1.coords t) := fun h => hL ((hcondL1 t).mp h)
    rw [Dat.leavesExact_idle (dat1 V c) 4 t (idleAt1_4 t hcL) (noFlush1_4 t hcL), Dat.leavesExact_idle (dat1 V c) 5 t (idleAt1_5 t hcL) (noFlush1_5 t hcL)]
    rw [Phi1_first V c _ hF, accS1_first V c t hF, accQ1_first V c t hF, after1_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ _ _ hcF hcL (iblk1 V c 0 t) (iblk1 V c 1 t) (iblk1 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]; · iexists _; iexact H4
    iexists _; iexact H5

  by_cases hL : t.val = 19
  · have hcF : ¬condF1 (grid1.coords t) := fun h => hF ((hcondF1 t).mp h)
    have hcL : condL1 (grid1.coords t) := (hcondL1 t).mpr hL
    rw [show (dat1 V c).leavesExact 4 t = owns (c : Thread nD τ) (ms1_4 t) fullShare ((dat1 V c).after 4 t) from by
      unfold Dat.leavesExact; rw [liveAt1_4 t hcL], after1_4_any]
    rw [show (dat1 V c).leavesExact 5 t = owns (c : Thread nD τ) (ms1_5 t) fullShare ((dat1 V c).after 5 t) from by
      unfold Dat.leavesExact; rw [liveAt1_5 t hcL], after1_5_any]
    rw [Phi1_later V c _ hF, accS1_later V c t hF, accQ1_later V c t hF, after1_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_C c (grid1.coords t) _ _ _ _ _ _ _ _ _ _ _ _ _ _ _ _ hcF hcL (iblk1 V c 0 t) (iblk1 V c 1 t) (iblk1 V c 2 t) (accS1 V c (t.val - 1)) (accQ1 V c (t.val - 1)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]
    · unfold owns; iexists _; isplitr
      swap; · iexact H4
      ipureintro; exact read_writes_canon _ _ hzero _ _
    unfold owns; iexists _; isplitr
    swap; · iexact H5
    ipureintro; exact read_writes_canon _ _ hzero _ _

  · have hcF : ¬condF1 (grid1.coords t) := fun h => hF ((hcondF1 t).mp h)
    have hcL : ¬condL1 (grid1.coords t) := fun h => hL ((hcondL1 t).mp h)
    rw [Dat.leavesExact_idle (dat1 V c) 4 t (idleAt1_4 t hcL) (noFlush1_4 t hcL), Dat.leavesExact_idle (dat1 V c) 5 t (idleAt1_5 t hcL) (noFlush1_5 t hcL)]
    rw [Phi1_later V c _ hF, accS1_later V c t hF, accQ1_later V c t hF, after1_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_B c (grid1.coords t) _ _ _ _ _ _ _ _ _ _ _ _ _ _ _ _ hcF hcL (iblk1 V c 0 t) (iblk1 V c 1 t) (iblk1 V c 2 t) _ _ (accS1 V c (t.val - 1)) (accQ1 V c (t.val - 1)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]; · iexists _; iexact H4
    iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : (iprop((∃ r, prngReg c r) ∗ Pipeline.prefHeld (pcfgs (F := F) 1).pre c (fun _ => fullShare) (adm (F := F) 1).1 ∗ Pipeline.scopedRest spec1 c) : sProp 𝕄) ⊢ (dat1 V c).Φ 0 := by
  rw [show (dat1 V c).Φ 0 = Phi1 V c 0 from rfl, Phi1_first V c 0 rfl, scopedRest1_split]
  simp only [scS1, scQ1, owns_whole]
  iintro ⟨Hp, -, ⟨HS0, HS1⟩, Hr⟩
  isplitl [Hp]; · iexact Hp
  isplitl [HS0]; · iexact HS0
  isplitl [HS1]; · iexact HS1
  iexact Hr

theorem hout1 (c : Dev nD) : (dat1 V c).Φ (Fin.last cfg1.N) ⊢ (iprop((∃ r, prngReg c r) ∗ Pipeline.ownSems0 (fun k : PEmpty => k.elim) c ∗ Pipeline.scopedRest spec1 c) : sProp 𝕄) := by
  have e : (Fin.last cfg1.N).val = 19 + 1 := by rw [Fin.val_last]; exact N_1
  rw [Pipeline.ownSems0_none, show (dat1 V c).Φ (Fin.last cfg1.N) = Phi1 V c (Fin.last cfg1.N).val from rfl, e, Phi1_succ, scopedRest1_split]
  simp only [scS1, scQ1, owns_whole]
  iintro ⟨Hp, HS0, HS1, Hr⟩
  isplitl [Hp]; · iexact Hp
  isplitr; · iempintro
  isplitr [Hr]
  · isplitl [HS0]; · iexists _; iexact HS0
    iexists _; iexact HS1
  iexact Hr

end Cert.KernelIdeal.Hand

end
-- ==== Proof.KI.RegC4.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.Gen.KernelIdeal.Regions
import proofs.«113696_j26852135535044_1_alg».proof.Proof.KI.RegC1
import proofs.«113696_j26852135535044_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev condF4 (i : grid4.Coords) : Prop := (Scalar.cmpi .ne (Scalar.extui (Scalar.cmpi .eq (BitVec.ofNat 32 (i 0).val) 0#32)) 0#32) = 1#1

theorem hcondF4 : ∀ t : Fin cfg4.N, condF4 (grid4.coords t) ↔ t.val = 0 :=
  (by decide +kernel : ∀ t : Fin grid4.N, condF4 (grid4.coords t) ↔ t.val = 0)

abbrev condL4 (i : grid4.Coords) : Prop := k4_cond2 i = 1#1

theorem hcondL4 : ∀ t : Fin cfg4.N, condL4 (grid4.coords t) ↔ t.val = 19 :=
  (by decide +kernel : ∀ t : Fin grid4.N, condL4 (grid4.coords t) ↔ t.val = 19)

theorem idleAt4_4 : ∀ t : Fin cfg4.N, ¬condL4 (grid4.coords t) → cfg4.idle 4 (grid4.coords t) = true := by decide +kernel
theorem idleAt4_5 : ∀ t : Fin cfg4.N, ¬condL4 (grid4.coords t) → cfg4.idle 5 (grid4.coords t) = true := by decide +kernel
theorem noFlush4_4 : ∀ t : Fin cfg4.N, ¬condL4 (grid4.coords t) → (cfg4.win 4).flush t = false := by decide +kernel
theorem noFlush4_5 : ∀ t : Fin cfg4.N, ¬condL4 (grid4.coords t) → (cfg4.win 5).flush t = false := by decide +kernel
theorem liveAt4_4 : ∀ t : Fin cfg4.N, condL4 (grid4.coords t) → cfg4.idle 4 (grid4.coords t) = false := by decide +kernel
theorem liveAt4_5 : ∀ t : Fin cfg4.N, condL4 (grid4.coords t) → cfg4.idle 5 (grid4.coords t) = false := by decide +kernel

abbrev rBig4 : Rect S5000x128 := Rect.unit (s := S5000x128) ![0, 0] S5000x128.size inb_S5000x128_S5000x128_0_0
abbrev rRow4 : Rect S1x128 := Rect.unit (s := S1x128) ![0, 0] S1x128.size inb_S1x128_S1x128_0_0

theorem cc4_eq : (cc4__combine_stats_kernel (F := F)) = cc1__combine_stats_kernel (F := F) := rfl

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def pt4 (n : ℕ) : Fin cfg4.N := ⟨n % 20, lt_of_lt_of_eq (Nat.mod_lt n (by decide)) N_4.symm⟩

theorem pt4_val (t : Fin cfg4.N) : pt4 t.val = t := Fin.ext (Nat.mod_eq_of_lt (lt_of_lt_of_eq t.isLt N_4))

def pre4 (c : Dev nD) (t : Fin cfg4.N) : Vec F S5000x128 .f32 :=
  k1_pay3 (iblk4 V c 0 t) (iblk4 V c 1 t) (iblk4 V c 2 t)

def accS4 (c : Dev nD) : ℕ → Vec F S1x128 .f32
  | 0 => k1_pay4 (iblk4 V c 0 (pt4 0)) (iblk4 V c 1 (pt4 0)) (iblk4 V c 2 (pt4 0)) k1_pay1
  | n + 1 => k1_pay4 (iblk4 V c 0 (pt4 (n + 1))) (iblk4 V c 1 (pt4 (n + 1))) (iblk4 V c 2 (pt4 (n + 1))) (accS4 c n)

def accQ4 (c : Dev nD) : ℕ → Vec F S1x128 .f32
  | 0 => k1_pay5 (iblk4 V c 0 (pt4 0)) (iblk4 V c 1 (pt4 0)) (iblk4 V c 2 (pt4 0)) k1_pay2
  | n + 1 => k1_pay5 (iblk4 V c 0 (pt4 (n + 1))) (iblk4 V c 1 (pt4 (n + 1))) (iblk4 V c 2 (pt4 (n + 1))) (accQ4 c n)

theorem accS4_first (c : Dev nD) (t : Fin cfg4.N) (h : t.val = 0) :
    accS4 V c t.val = k1_pay4 (iblk4 V c 0 t) (iblk4 V c 1 t) (iblk4 V c 2 t) k1_pay1 := by
  have e : pt4 0 = t := by rw [← h]; exact pt4_val t
  rw [h]; show k1_pay4 (iblk4 V c 0 (pt4 0)) (iblk4 V c 1 (pt4 0)) (iblk4 V c 2 (pt4 0)) k1_pay1 = _
  rw [e]

theorem accS4_later (c : Dev nD) (t : Fin cfg4.N) (h : t.val ≠ 0) :
    accS4 V c t.val = k1_pay4 (iblk4 V c 0 t) (iblk4 V c 1 t) (iblk4 V c 2 t) (accS4 V c (t.val - 1)) := by
  obtain ⟨n, hn⟩ : ∃ n, t.val = n + 1 := ⟨t.val - 1, by omega⟩
  have e : pt4 (n + 1) = t := by rw [← hn]; exact pt4_val t
  rw [hn]; show k1_pay4 (iblk4 V c 0 (pt4 (n + 1))) (iblk4 V c 1 (pt4 (n + 1))) (iblk4 V c 2 (pt4 (n + 1))) (accS4 V c n) = _
  rw [e]; rfl

theorem accQ4_first (c : Dev nD) (t : Fin cfg4.N) (h : t.val = 0) :
    accQ4 V c t.val = k1_pay5 (iblk4 V c 0 t) (iblk4 V c 1 t) (iblk4 V c 2 t) k1_pay2 := by
  have e : pt4 0 = t := by rw [← h]; exact pt4_val t
  rw [h]; show k1_pay5 (iblk4 V c 0 (pt4 0)) (iblk4 V c 1 (pt4 0)) (iblk4 V c 2 (pt4 0)) k1_pay2 = _
  rw [e]

theorem accQ4_later (c : Dev nD) (t : Fin cfg4.N) (h : t.val ≠ 0) :
    accQ4 V c t.val = k1_pay5 (iblk4 V c 0 t) (iblk4 V c 1 t) (iblk4 V c 2 t) (accQ4 V c (t.val - 1)) := by
  obtain ⟨n, hn⟩ : ∃ n, t.val = n + 1 := ⟨t.val - 1, by omega⟩
  have e : pt4 (n + 1) = t := by rw [← hn]; exact pt4_val t
  rw [hn]; show k1_pay5 (iblk4 V c 0 (pt4 (n + 1))) (iblk4 V c 1 (pt4 (n + 1))) (iblk4 V c 2 (pt4 (n + 1))) (accQ4 V c n) = _
  rw [e]; rfl

abbrev scS4 : Memref sig .tc .vmem S1x128 .f32 := Memref.whole cc4_scratch0
abbrev scQ4 : Memref sig .tc .vmem S1x128 .f32 := Memref.whole cc4_scratch1

def Phi4 (c : Dev nD) : ℕ → sProp 𝕄
  | 0 => iprop((∃ r, prngReg c r) ∗ (∃ d, owns (c : Thread nD τ) scS4 fullShare d) ∗ (∃ d, owns (c : Thread nD τ) scQ4 fullShare d)
      ∗ Pipeline.scopedRestBut (Ix := Unit) (Name := ℕ) (U := UR sig nD τ) (Lvl := ℕ) (Val := Elt F) spec4 c [cc4_scratch0, cc4_scratch1])
  | n + 1 => iprop((∃ r, prngReg c r) ∗ owns (c : Thread nD τ) scS4 fullShare (accS4 V c n) ∗ owns (c : Thread nD τ) scQ4 fullShare (accQ4 V c n)
      ∗ Pipeline.scopedRestBut (Ix := Unit) (Name := ℕ) (U := UR sig nD τ) (Lvl := ℕ) (Val := Elt F) spec4 c [cc4_scratch0, cc4_scratch1])

theorem Phi4_first (c : Dev nD) (n : ℕ) (h : n = 0) :
    Phi4 V c n = iprop((∃ r, prngReg c r) ∗ (∃ d, owns (c : Thread nD τ) scS4 fullShare d) ∗ (∃ d, owns (c : Thread nD τ) scQ4 fullShare d)
      ∗ Pipeline.scopedRestBut (Ix := Unit) (Name := ℕ) (U := UR sig nD τ) (Lvl := ℕ) (Val := Elt F) spec4 c [cc4_scratch0, cc4_scratch1]) := by
  subst h; rfl

theorem Phi4_succ (c : Dev nD) (n : ℕ) :
    Phi4 V c (n + 1) = iprop((∃ r, prngReg c r) ∗ owns (c : Thread nD τ) scS4 fullShare (accS4 V c n) ∗ owns (c : Thread nD τ) scQ4 fullShare (accQ4 V c n)
      ∗ Pipeline.scopedRestBut (Ix := Unit) (Name := ℕ) (U := UR sig nD τ) (Lvl := ℕ) (Val := Elt F) spec4 c [cc4_scratch0, cc4_scratch1]) := rfl

theorem Phi4_later (c : Dev nD) (n : ℕ) (h : n ≠ 0) :
    Phi4 V c n = iprop((∃ r, prngReg c r) ∗ owns (c : Thread nD τ) scS4 fullShare (accS4 V c (n - 1)) ∗ owns (c : Thread nD τ) scQ4 fullShare (accQ4 V c (n - 1))
      ∗ Pipeline.scopedRestBut (Ix := Unit) (Name := ℕ) (U := UR sig nD τ) (Lvl := ℕ) (Val := Elt F) spec4 c [cc4_scratch0, cc4_scratch1]) := by
  cases n with
  | zero => exact absurd rfl h
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => View.canon [(⟨rBig4, pre4 V c t⟩ : View.Piece (Elt F) S5000x128 .f32)]
    | ⟨4, _⟩ => View.canon [(⟨rRow4, accS4 V c t.val⟩ : View.Piece (Elt F) S1x128 .f32)]
    | ⟨5, _⟩ => View.canon [(⟨rRow4, accQ4 V c t.val⟩ : View.Piece (Elt F) S1x128 .f32)]
  Φ t := Phi4 V c t.val
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]

theorem after4_3 (c : Dev nD) (t : Fin cfg4.N) :
    (dat4 V c).after 3 t = View.canon [(⟨rBig4, pre4 V c t⟩ : View.Piece (Elt F) S5000x128 .f32)] := by dsimp only [dat4]

theorem after4_4 (c : Dev nD) (t : Fin cfg4.N) (h : t.val = 19) :
    (dat4 V c).after 4 t = View.canon [(⟨rRow4, accS4 V c 19⟩ : View.Piece (Elt F) S1x128 .f32)] := by dsimp only [dat4]; rw [h]

theorem after4_5 (c : Dev nD) (t : Fin cfg4.N) (h : t.val = 19) :
    (dat4 V c).after 5 t = View.canon [(⟨rRow4, accQ4 V c 19⟩ : View.Piece (Elt F) S1x128 .f32)] := by dsimp only [dat4]; rw [h]

theorem after4_4_any (c : Dev nD) (t : Fin cfg4.N) :
    (dat4 V c).after 4 t = View.canon [(⟨rRow4, accS4 V c t.val⟩ : View.Piece (Elt F) S1x128 .f32)] := by dsimp only [dat4]
theorem after4_5_any (c : Dev nD) (t : Fin cfg4.N) :
    (dat4 V c).after 5 t = View.canon [(⟨rRow4, accQ4 V c t.val⟩ : View.Piece (Elt F) S1x128 .f32)] := by dsimp only [dat4]

theorem after4_3_val (c : Dev nD) (t : Fin cfg4.N) : (dat4 V c).after 3 t = pre4 V c t :=
  (after4_3 V c t).trans (View.canon_unit_zero hzero _ _)
theorem after4_4_val (c : Dev nD) (t : Fin cfg4.N) (h : t.val = 19) : (dat4 V c).after 4 t = accS4 V c 19 :=
  (after4_4 V c t h).trans (View.canon_unit_zero hzero _ _)
theorem after4_5_val (c : Dev nD) (t : Fin cfg4.N) (h : t.val = 19) : (dat4 V c).after 5 t = accQ4 V c 19 :=
  (after4_5 V c t h).trans (View.canon_unit_zero hzero _ _)

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

abbrev ms4_0 (t : Fin cfg4.N) : Memref sig .tc .vmem S5000x128 .f32 := win4_0.stage (cfg4.slots t 0)
abbrev ms4_1 (t : Fin cfg4.N) : Memref sig .tc .vmem S5000x128 .f32 := win4_1.stage (cfg4.slots t 1)
abbrev ms4_2 (t : Fin cfg4.N) : Memref sig .tc .vmem S1x128 .f32 := win4_2.stage (cfg4.slots t 2)
abbrev ms4_3 (t : Fin cfg4.N) : Memref sig .tc .vmem S5000x128 .f32 := win4_3.stage (cfg4.slots t 3)
abbrev ms4_4 (t : Fin cfg4.N) : Memref sig .tc .vmem S1x128 .f32 := win4_4.stage (cfg4.slots t 4)
abbrev ms4_5 (t : Fin cfg4.N) : Memref sig .tc .vmem S1x128 .f32 := win4_5.stage (cfg4.slots t 5)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [cc4_eq]
  simp only [before4_0, before4_1, before4_2]
  rw [show (dat4 V c).owesAt () t.succ = (dat4 V c).owesAt () t.castSucc from rfl]
  rw [show (dat4 V c).Φ t.succ = Phi4 V c (t.val + 1) from rfl, Phi4_succ]
  rw [show (dat4 V c).Φ t.castSucc = Phi4 V c t.val from rfl]
  have hN : t.val < 20 := lt_of_lt_of_eq t.isLt N_4
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t]]
  by_cases hF : t.val = 0
  · have hL : ¬t.val = 19 := by omega
    have hcF : condF4 (grid4.coords t) := (hcondF4 t).mpr hF
    have hcL : ¬condL4 (grid4.coords t) := fun h => hL ((hcondL4 t).mp h)
    rw [Dat.leavesExact_idle (dat4 V c) 4 t (idleAt4_4 t hcL) (noFlush4_4 t hcL), Dat.leavesExact_idle (dat4 V c) 5 t (idleAt4_5 t hcL) (noFlush4_5 t hcL)]
    rw [Phi4_first V c _ hF, accS4_first V c t hF, accQ4_first V c t hF, after4_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_A c (grid4.coords t) _ _ _ _ _ _ _ _ _ _ _ _ _ _ _ _ hcF hcL (iblk4 V c 0 t) (iblk4 V c 1 t) (iblk4 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]; · iexists _; iexact H4
    iexists _; iexact H5

  by_cases hL : t.val = 19
  · have hcF : ¬condF4 (grid4.coords t) := fun h => hF ((hcondF4 t).mp h)
    have hcL : condL4 (grid4.coords t) := (hcondL4 t).mpr hL
    rw [show (dat4 V c).leavesExact 4 t = owns (c : Thread nD τ) (ms4_4 t) fullShare ((dat4 V c).after 4 t) from by
      unfold Dat.leavesExact; rw [liveAt4_4 t hcL], after4_4_any]
    rw [show (dat4 V c).leavesExact 5 t = owns (c : Thread nD τ) (ms4_5 t) fullShare ((dat4 V c).after 5 t) from by
      unfold Dat.leavesExact; rw [liveAt4_5 t hcL], after4_5_any]
    rw [Phi4_later V c _ hF, accS4_later V c t hF, accQ4_later V c t hF, after4_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_C c (grid4.coords t) _ _ _ _ _ _ _ _ _ _ _ _ _ _ _ _ hcF hcL (iblk4 V c 0 t) (iblk4 V c 1 t) (iblk4 V c 2 t) (accS4 V c (t.val - 1)) (accQ4 V c (t.val - 1)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]
    · unfold owns; iexists _; isplitr
      swap; · iexact H4
      ipureintro; exact read_writes_canon _ _ hzero _ _
    unfold owns; iexists _; isplitr
    swap; · iexact H5
    ipureintro; exact read_writes_canon _ _ hzero _ _

  · have hcF : ¬condF4 (grid4.coords t) := fun h => hF ((hcondF4 t).mp h)
    have hcL : ¬condL4 (grid4.coords t) := fun h => hL ((hcondL4 t).mp h)
    rw [Dat.leavesExact_idle (dat4 V c) 4 t (idleAt4_4 t hcL) (noFlush4_4 t hcL), Dat.leavesExact_idle (dat4 V c) 5 t (idleAt4_5 t hcL) (noFlush4_5 t hcL)]
    rw [Phi4_later V c _ hF, accS4_later V c t hF, accQ4_later V c t hF, after4_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_B c (grid4.coords t) _ _ _ _ _ _ _ _ _ _ _ _ _ _ _ _ hcF hcL (iblk4 V c 0 t) (iblk4 V c 1 t) (iblk4 V c 2 t) _ _ (accS4 V c (t.val - 1)) (accQ4 V c (t.val - 1)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]; · iexists _; iexact H4
    iexists _; iexact H5

theorem body_obligation4 (c : Dev nD) : BodyObligation (dat4 (F := F) V c) (defs₀ (F := F)) Variants.none () Set.univ := fun t => by
  rw [bigSep_W4, bigSep_W4]
  exact sound_body4 V c t

theorem hin4 (c : Dev nD) : (iprop((∃ r, prngReg c r) ∗ Pipeline.prefHeld (pcfgs (F := F) 4).pre c (fun _ => fullShare) (adm (F := F) 4).1 ∗ Pipeline.scopedRest spec4 c) : sProp 𝕄) ⊢ (dat4 V c).Φ 0 := by
  rw [show (dat4 V c).Φ 0 = Phi4 V c 0 from rfl, Phi4_first V c 0 rfl, scopedRest4_split]
  simp only [scS4, scQ4, owns_whole]
  iintro ⟨Hp, -, ⟨HS0, HS1⟩, Hr⟩
  isplitl [Hp]; · iexact Hp
  isplitl [HS0]; · iexact HS0
  isplitl [HS1]; · iexact HS1
  iexact Hr

theorem hout4 (c : Dev nD) : (dat4 V c).Φ (Fin.last cfg4.N) ⊢ (iprop((∃ r, prngReg c r) ∗ Pipeline.ownSems0 (fun k : PEmpty => k.elim) c ∗ Pipeline.scopedRest spec4 c) : sProp 𝕄) := by
  have e : (Fin.last cfg4.N).val = 19 + 1 := by rw [Fin.val_last]; exact N_4
  rw [Pipeline.ownSems0_none, show (dat4 V c).Φ (Fin.last cfg4.N) = Phi4 V c (Fin.last cfg4.N).val from rfl, e, Phi4_succ, scopedRest4_split]
  simp only [scS4, scQ4, owns_whole]
  iintro ⟨Hp, HS0, HS1, Hr⟩
  isplitl [Hp]; · iexact Hp
  isplitr; · iempintro
  isplitr [Hr]
  · isplitl [HS0]; · iexists _; iexact HS0
    iexists _; iexact HS1
  iexact Hr

end Cert.KernelIdeal.Hand

end
-- ==== Proof.KI.RegC7.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.Gen.KernelIdeal.Regions
import proofs.«113696_j26852135535044_1_alg».proof.Proof.KI.RegC1
import proofs.«113696_j26852135535044_1_alg».proof.Proof.KI.Whole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev condF7 (i : grid7.Coords) : Prop := (Scalar.cmpi .ne (Scalar.extui (Scalar.cmpi .eq (BitVec.ofNat 32 (i 0).val) 0#32)) 0#32) = 1#1

theorem hcondF7 : ∀ t : Fin cfg7.N, condF7 (grid7.coords t) ↔ t.val = 0 :=
  (by decide +kernel : ∀ t : Fin grid7.N, condF7 (grid7.coords t) ↔ t.val = 0)

abbrev condL7 (i : grid7.Coords) : Prop := k7_cond2 i = 1#1

theorem hcondL7 : ∀ t : Fin cfg7.N, condL7 (grid7.coords t) ↔ t.val = 19 :=
  (by decide +kernel : ∀ t : Fin grid7.N, condL7 (grid7.coords t) ↔ t.val = 19)

theorem idleAt7_4 : ∀ t : Fin cfg7.N, ¬condL7 (grid7.coords t) → cfg7.idle 4 (grid7.coords t) = true := by decide +kernel
theorem idleAt7_5 : ∀ t : Fin cfg7.N, ¬condL7 (grid7.coords t) → cfg7.idle 5 (grid7.coords t) = true := by decide +kernel
theorem noFlush7_4 : ∀ t : Fin cfg7.N, ¬condL7 (grid7.coords t) → (cfg7.win 4).flush t = false := by decide +kernel
theorem noFlush7_5 : ∀ t : Fin cfg7.N, ¬condL7 (grid7.coords t) → (cfg7.win 5).flush t = false := by decide +kernel
theorem liveAt7_4 : ∀ t : Fin cfg7.N, condL7 (grid7.coords t) → cfg7.idle 4 (grid7.coords t) = false := by decide +kernel
theorem liveAt7_5 : ∀ t : Fin cfg7.N, condL7 (grid7.coords t) → cfg7.idle 5 (grid7.coords t) = false := by decide +kernel

abbrev rBig7 : Rect S5000x128 := Rect.unit (s := S5000x128) ![0, 0] S5000x128.size inb_S5000x128_S5000x128_0_0
abbrev rRow7 : Rect S1x128 := Rect.unit (s := S1x128) ![0, 0] S1x128.size inb_S1x128_S1x128_0_0

theorem cc7_eq : (cc7__combine_stats_kernel (F := F)) = cc1__combine_stats_kernel (F := F) := rfl

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def pt7 (n : ℕ) : Fin cfg7.N := ⟨n % 20, lt_of_lt_of_eq (Nat.mod_lt n (by decide)) N_7.symm⟩

theorem pt7_val (t : Fin cfg7.N) : pt7 t.val = t := Fin.ext (Nat.mod_eq_of_lt (lt_of_lt_of_eq t.isLt N_7))

def pre7 (c : Dev nD) (t : Fin cfg7.N) : Vec F S5000x128 .f32 :=
  k1_pay3 (iblk7 V c 0 t) (iblk7 V c 1 t) (iblk7 V c 2 t)

def accS7 (c : Dev nD) : ℕ → Vec F S1x128 .f32
  | 0 => k1_pay4 (iblk7 V c 0 (pt7 0)) (iblk7 V c 1 (pt7 0)) (iblk7 V c 2 (pt7 0)) k1_pay1
  | n + 1 => k1_pay4 (iblk7 V c 0 (pt7 (n + 1))) (iblk7 V c 1 (pt7 (n + 1))) (iblk7 V c 2 (pt7 (n + 1))) (accS7 c n)

def accQ7 (c : Dev nD) : ℕ → Vec F S1x128 .f32
  | 0 => k1_pay5 (iblk7 V c 0 (pt7 0)) (iblk7 V c 1 (pt7 0)) (iblk7 V c 2 (pt7 0)) k1_pay2
  | n + 1 => k1_pay5 (iblk7 V c 0 (pt7 (n + 1))) (iblk7 V c 1 (pt7 (n + 1))) (iblk7 V c 2 (pt7 (n + 1))) (accQ7 c n)

theorem accS7_first (c : Dev nD) (t : Fin cfg7.N) (h : t.val = 0) :
    accS7 V c t.val = k1_pay4 (iblk7 V c 0 t) (iblk7 V c 1 t) (iblk7 V c 2 t) k1_pay1 := by
  have e : pt7 0 = t := by rw [← h]; exact pt7_val t
  rw [h]; show k1_pay4 (iblk7 V c 0 (pt7 0)) (iblk7 V c 1 (pt7 0)) (iblk7 V c 2 (pt7 0)) k1_pay1 = _
  rw [e]

theorem accS7_later (c : Dev nD) (t : Fin cfg7.N) (h : t.val ≠ 0) :
    accS7 V c t.val = k1_pay4 (iblk7 V c 0 t) (iblk7 V c 1 t) (iblk7 V c 2 t) (accS7 V c (t.val - 1)) := by
  obtain ⟨n, hn⟩ : ∃ n, t.val = n + 1 := ⟨t.val - 1, by omega⟩
  have e : pt7 (n + 1) = t := by rw [← hn]; exact pt7_val t
  rw [hn]; show k1_pay4 (iblk7 V c 0 (pt7 (n + 1))) (iblk7 V c 1 (pt7 (n + 1))) (iblk7 V c 2 (pt7 (n + 1))) (accS7 V c n) = _
  rw [e]; rfl

theorem accQ7_first (c : Dev nD) (t : Fin cfg7.N) (h : t.val = 0) :
    accQ7 V c t.val = k1_pay5 (iblk7 V c 0 t) (iblk7 V c 1 t) (iblk7 V c 2 t) k1_pay2 := by
  have e : pt7 0 = t := by rw [← h]; exact pt7_val t
  rw [h]; show k1_pay5 (iblk7 V c 0 (pt7 0)) (iblk7 V c 1 (pt7 0)) (iblk7 V c 2 (pt7 0)) k1_pay2 = _
  rw [e]

theorem accQ7_later (c : Dev nD) (t : Fin cfg7.N) (h : t.val ≠ 0) :
    accQ7 V c t.val = k1_pay5 (iblk7 V c 0 t) (iblk7 V c 1 t) (iblk7 V c 2 t) (accQ7 V c (t.val - 1)) := by
  obtain ⟨n, hn⟩ : ∃ n, t.val = n + 1 := ⟨t.val - 1, by omega⟩
  have e : pt7 (n + 1) = t := by rw [← hn]; exact pt7_val t
  rw [hn]; show k1_pay5 (iblk7 V c 0 (pt7 (n + 1))) (iblk7 V c 1 (pt7 (n + 1))) (iblk7 V c 2 (pt7 (n + 1))) (accQ7 V c n) = _
  rw [e]; rfl

abbrev scS7 : Memref sig .tc .vmem S1x128 .f32 := Memref.whole cc7_scratch0
abbrev scQ7 : Memref sig .tc .vmem S1x128 .f32 := Memref.whole cc7_scratch1

def Phi7 (c : Dev nD) : ℕ → sProp 𝕄
  | 0 => iprop((∃ r, prngReg c r) ∗ (∃ d, owns (c : Thread nD τ) scS7 fullShare d) ∗ (∃ d, owns (c : Thread nD τ) scQ7 fullShare d)
      ∗ Pipeline.scopedRestBut (Ix := Unit) (Name := ℕ) (U := UR sig nD τ) (Lvl := ℕ) (Val := Elt F) spec7 c [cc7_scratch0, cc7_scratch1])
  | n + 1 => iprop((∃ r, prngReg c r) ∗ owns (c : Thread nD τ) scS7 fullShare (accS7 V c n) ∗ owns (c : Thread nD τ) scQ7 fullShare (accQ7 V c n)
      ∗ Pipeline.scopedRestBut (Ix := Unit) (Name := ℕ) (U := UR sig nD τ) (Lvl := ℕ) (Val := Elt F) spec7 c [cc7_scratch0, cc7_scratch1])

theorem Phi7_first (c : Dev nD) (n : ℕ) (h : n = 0) :
    Phi7 V c n = iprop((∃ r, prngReg c r) ∗ (∃ d, owns (c : Thread nD τ) scS7 fullShare d) ∗ (∃ d, owns (c : Thread nD τ) scQ7 fullShare d)
      ∗ Pipeline.scopedRestBut (Ix := Unit) (Name := ℕ) (U := UR sig nD τ) (Lvl := ℕ) (Val := Elt F) spec7 c [cc7_scratch0, cc7_scratch1]) := by
  subst h; rfl

theorem Phi7_succ (c : Dev nD) (n : ℕ) :
    Phi7 V c (n + 1) = iprop((∃ r, prngReg c r) ∗ owns (c : Thread nD τ) scS7 fullShare (accS7 V c n) ∗ owns (c : Thread nD τ) scQ7 fullShare (accQ7 V c n)
      ∗ Pipeline.scopedRestBut (Ix := Unit) (Name := ℕ) (U := UR sig nD τ) (Lvl := ℕ) (Val := Elt F) spec7 c [cc7_scratch0, cc7_scratch1]) := rfl

theorem Phi7_later (c : Dev nD) (n : ℕ) (h : n ≠ 0) :
    Phi7 V c n = iprop((∃ r, prngReg c r) ∗ owns (c : Thread nD τ) scS7 fullShare (accS7 V c (n - 1)) ∗ owns (c : Thread nD τ) scQ7 fullShare (accQ7 V c (n - 1))
      ∗ Pipeline.scopedRestBut (Ix := Unit) (Name := ℕ) (U := UR sig nD τ) (Lvl := ℕ) (Val := Elt F) spec7 c [cc7_scratch0, cc7_scratch1]) := by
  cases n with
  | zero => exact absurd rfl h
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => View.canon [(⟨rBig7, pre7 V c t⟩ : View.Piece (Elt F) S5000x128 .f32)]
    | ⟨4, _⟩ => View.canon [(⟨rRow7, accS7 V c t.val⟩ : View.Piece (Elt F) S1x128 .f32)]
    | ⟨5, _⟩ => View.canon [(⟨rRow7, accQ7 V c t.val⟩ : View.Piece (Elt F) S1x128 .f32)]
  Φ t := Phi7 V c t.val
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]

theorem after7_3 (c : Dev nD) (t : Fin cfg7.N) :
    (dat7 V c).after 3 t = View.canon [(⟨rBig7, pre7 V c t⟩ : View.Piece (Elt F) S5000x128 .f32)] := by dsimp only [dat7]

theorem after7_4 (c : Dev nD) (t : Fin cfg7.N) (h : t.val = 19) :
    (dat7 V c).after 4 t = View.canon [(⟨rRow7, accS7 V c 19⟩ : View.Piece (Elt F) S1x128 .f32)] := by dsimp only [dat7]; rw [h]

theorem after7_5 (c : Dev nD) (t : Fin cfg7.N) (h : t.val = 19) :
    (dat7 V c).after 5 t = View.canon [(⟨rRow7, accQ7 V c 19⟩ : View.Piece (Elt F) S1x128 .f32)] := by dsimp only [dat7]; rw [h]

theorem after7_4_any (c : Dev nD) (t : Fin cfg7.N) :
    (dat7 V c).after 4 t = View.canon [(⟨rRow7, accS7 V c t.val⟩ : View.Piece (Elt F) S1x128 .f32)] := by dsimp only [dat7]
theorem after7_5_any (c : Dev nD) (t : Fin cfg7.N) :
    (dat7 V c).after 5 t = View.canon [(⟨rRow7, accQ7 V c t.val⟩ : View.Piece (Elt F) S1x128 .f32)] := by dsimp only [dat7]

theorem after7_3_val (c : Dev nD) (t : Fin cfg7.N) : (dat7 V c).after 3 t = pre7 V c t :=
  (after7_3 V c t).trans (View.canon_unit_zero hzero _ _)
theorem after7_4_val (c : Dev nD) (t : Fin cfg7.N) (h : t.val = 19) : (dat7 V c).after 4 t = accS7 V c 19 :=
  (after7_4 V c t h).trans (View.canon_unit_zero hzero _ _)
theorem after7_5_val (c : Dev nD) (t : Fin cfg7.N) (h : t.val = 19) : (dat7 V c).after 5 t = accQ7 V c 19 :=
  (after7_5 V c t h).trans (View.canon_unit_zero hzero _ _)

theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)

abbrev ms7_0 (t : Fin cfg7.N) : Memref sig .tc .vmem S5000x128 .f32 := win7_0.stage (cfg7.slots t 0)
abbrev ms7_1 (t : Fin cfg7.N) : Memref sig .tc .vmem S5000x128 .f32 := win7_1.stage (cfg7.slots t 1)
abbrev ms7_2 (t : Fin cfg7.N) : Memref sig .tc .vmem S1x128 .f32 := win7_2.stage (cfg7.slots t 2)
abbrev ms7_3 (t : Fin cfg7.N) : Memref sig .tc .vmem S5000x128 .f32 := win7_3.stage (cfg7.slots t 3)
abbrev ms7_4 (t : Fin cfg7.N) : Memref sig .tc .vmem S1x128 .f32 := win7_4.stage (cfg7.slots t 4)
abbrev ms7_5 (t : Fin cfg7.N) : Memref sig .tc .vmem S1x128 .f32 := win7_5.stage (cfg7.slots t 5)

theorem liveAt7_0 : ∀ t : Fin cfg7.N, cfg7.idle 0 (grid7.coords t) = false := fun _ => rfl
theorem liveAt7_1 : ∀ t : Fin cfg7.N, cfg7.idle 1 (grid7.coords t) = false := fun _ => rfl
theorem liveAt7_2 : ∀ t : Fin cfg7.N, cfg7.idle 2 (grid7.coords t) = false := fun _ => rfl
theorem liveAt7_3 : ∀ t : Fin cfg7.N, cfg7.idle 3 (grid7.coords t) = false := fun _ => rfl

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [cc7_eq]
  simp only [before7_0, before7_1, before7_2]
  rw [show (dat7 V c).owesAt () t.succ = (dat7 V c).owesAt () t.castSucc from rfl]
  rw [show (dat7 V c).Φ t.succ = Phi7 V c (t.val + 1) from rfl, Phi7_succ]
  rw [show (dat7 V c).Φ t.castSucc = Phi7 V c t.val from rfl]
  have hN : t.val < 20 := lt_of_lt_of_eq t.isLt N_7
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  rw [show (dat7 V c).leavesExact 3 t = owns (c : Thread nD τ) (ms7_3 t) fullShare ((dat7 V c).after 3 t) from by
    unfold Dat.leavesExact; rw [liveAt7_3 t]]
  by_cases hF : t.val = 0
  · have hL : ¬t.val = 19 := by omega
    have hcF : condF7 (grid7.coords t) := (hcondF7 t).mpr hF
    have hcL : ¬condL7 (grid7.coords t) := fun h => hL ((hcondL7 t).mp h)
    rw [Dat.leavesExact_idle (dat7 V c) 4 t (idleAt7_4 t hcL) (noFlush7_4 t hcL), Dat.leavesExact_idle (dat7 V c) 5 t (idleAt7_5 t hcL) (noFlush7_5 t hcL)]
    rw [Phi7_first V c _ hF, accS7_first V c t hF, accQ7_first V c t hF, after7_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_A c (grid7.coords t) _ _ _ _ _ _ _ _ _ _ _ _ _ _ _ _ hcF hcL (iblk7 V c 0 t) (iblk7 V c 1 t) (iblk7 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]; · iexists _; iexact H4
    iexists _; iexact H5

  by_cases hL : t.val = 19
  · have hcF : ¬condF7 (grid7.coords t) := fun h => hF ((hcondF7 t).mp h)
    have hcL : condL7 (grid7.coords t) := (hcondL7 t).mpr hL
    rw [show (dat7 V c).leavesExact 4 t = owns (c : Thread nD τ) (ms7_4 t) fullShare ((dat7 V c).after 4 t) from by
      unfold Dat.leavesExact; rw [liveAt7_4 t hcL], after7_4_any]
    rw [show (dat7 V c).leavesExact 5 t = owns (c : Thread nD τ) (ms7_5 t) fullShare ((dat7 V c).after 5 t) from by
      unfold Dat.leavesExact; rw [liveAt7_5 t hcL], after7_5_any]
    rw [Phi7_later V c _ hF, accS7_later V c t hF, accQ7_later V c t hF, after7_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_C c (grid7.coords t) _ _ _ _ _ _ _ _ _ _ _ _ _ _ _ _ hcF hcL (iblk7 V c 0 t) (iblk7 V c 1 t) (iblk7 V c 2 t) (accS7 V c (t.val - 1)) (accQ7 V c (t.val - 1)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, ⟨%e3, H3⟩, ⟨%e4, H4⟩, ⟨%e5, H5⟩, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]
    · unfold owns; iexists _; isplitr
      swap; · iexact H4
      ipureintro; exact read_writes_canon _ _ hzero _ _
    unfold owns; iexists _; isplitr
    swap; · iexact H5
    ipureintro; exact read_writes_canon _ _ hzero _ _

  · have hcF : ¬condF7 (grid7.coords t) := fun h => hF ((hcondF7 t).mp h)
    have hcL : ¬condL7 (grid7.coords t) := fun h => hL ((hcondL7 t).mp h)
    rw [Dat.leavesExact_idle (dat7 V c) 4 t (idleAt7_4 t hcL) (noFlush7_4 t hcL), Dat.leavesExact_idle (dat7 V c) 5 t (idleAt7_5 t hcL) (noFlush7_5 t hcL)]
    rw [Phi7_later V c _ hF, accS7_later V c t hF, accQ7_later V c t hF, after7_3]
    iintro ⟨⟨Hg, HS0, HS1, Hrest⟩, Ho, ⟨%d0, H0⟩, ⟨%d1, H1⟩, ⟨%d2, H2⟩, ⟨%d3, H3⟩, ⟨%d4, H4⟩, ⟨%d5, H5⟩⟩
    iapply (run1_B c (grid7.coords t) _ _ _ _ _ _ _ _ _ _ _ _ _ _ _ _ hcF hcL (iblk7 V c 0 t) (iblk7 V c 1 t) (iblk7 V c 2 t) _ _ (accS7 V c (t.val - 1)) (accQ7 V c (t.val - 1)) Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, ⟨%e3, H3⟩, H4, H5, ⟨%es0, HS0⟩, ⟨%es1, HS1⟩⟩
    isplitl [Hg HS0 HS1 Hrest]
    · isplitl [Hg]; · iexact Hg
      isplitl [HS0]
      · unfold owns; iexists _; isplitr
        swap; · iexact HS0
        ipureintro; exact read_writes_whole _ _ hzero _ _ _
      isplitl [HS1]
      · unfold owns; iexists _; isplitr
        swap; · iexact HS1
        ipureintro; exact read_writes_whole _ _ hzero _ _ _
      iexact Hrest
    isplitl [Ho]; · iexact Ho
    isplitl [H0]; · iexact H0
    isplitl [H1]; · iexact H1
    isplitl [H2]; · iexact H2
    isplitl [H3]
    · unfold owns; iexists _; isplitr
      swap; · iexact H3
      ipureintro; exact read_writes_canon _ _ hzero _ _
    isplitl [H4]; · iexists _; iexact H4
    iexists _; iexact H5

theorem body_obligation7 (c : Dev nD) : BodyObligation (dat7 (F := F) V c) (defs₀ (F := F)) Variants.none () Set.univ := fun t => by
  rw [bigSep_W7, bigSep_W7]
  exact sound_body7 V c t

theorem hin7 (c : Dev nD) : (iprop((∃ r, prngReg c r) ∗ Pipeline.prefHeld (pcfgs (F := F) 7).pre c (fun _ => fullShare) (adm (F := F) 7).1 ∗ Pipeline.scopedRest spec7 c) : sProp 𝕄) ⊢ (dat7 V c).Φ 0 := by
  rw [show (dat7 V c).Φ 0 = Phi7 V c 0 from rfl, Phi7_first V c 0 rfl, scopedRest7_split]
  simp only [scS7, scQ7, owns_whole]
  iintro ⟨Hp, -, ⟨HS0, HS1⟩, Hr⟩
  isplitl [Hp]; · iexact Hp
  isplitl [HS0]; · iexact HS0
  isplitl [HS1]; · iexact HS1
  iexact Hr

theorem hout7 (c : Dev nD) : (dat7 V c).Φ (Fin.last cfg7.N) ⊢ (iprop((∃ r, prngReg c r) ∗ Pipeline.ownSems0 (fun k : PEmpty => k.elim) c ∗ Pipeline.scopedRest spec7 c) : sProp 𝕄) := by
  have e : (Fin.last cfg7.N).val = 19 + 1 := by rw [Fin.val_last]; exact N_7
  rw [Pipeline.ownSems0_none, show (dat7 V c).Φ (Fin.last cfg7.N) = Phi7 V c (Fin.last cfg7.N).val from rfl, e, Phi7_succ, scopedRest7_split]
  simp only [scS7, scQ7, owns_whole]
  iintro ⟨Hp, HS0, HS1, Hr⟩
  isplitl [Hp]; · iexact Hp
  isplitr; · iempintro
  isplitr [Hr]
  · isplitl [HS0]; · iexists _; iexact HS0
    iexists _; iexact HS1
  iexact Hr

end Cert.KernelIdeal.Hand

end
-- ==== Proof.KI.Run.lean ====
import proofs.«113696_j26852135535044_1_alg».proof.Proof.Gen.KernelIdeal.Launch
import proofs.«113696_j26852135535044_1_alg».proof.Proof.Gen.KernelIdeal.Skeleton
import proofs.«113696_j26852135535044_1_alg».proof.Proof.Gen.KernelIdeal.Points
import proofs.«113696_j26852135535044_1_alg».proof.Proof.Gen.KernelIdeal.Regions
import proofs.«113696_j26852135535044_1_alg».proof.Proof.KI.RegM0
import proofs.«113696_j26852135535044_1_alg».proof.Proof.KI.RegM3
import proofs.«113696_j26852135535044_1_alg».proof.Proof.KI.RegM6
import proofs.«113696_j26852135535044_1_alg».proof.Proof.KI.RegM9
import proofs.«113696_j26852135535044_1_alg».proof.Proof.KI.RegB2
import proofs.«113696_j26852135535044_1_alg».proof.Proof.KI.RegB5
import proofs.«113696_j26852135535044_1_alg».proof.Proof.KI.RegB8
import proofs.«113696_j26852135535044_1_alg».proof.Proof.KI.RegC1
import proofs.«113696_j26852135535044_1_alg».proof.Proof.KI.RegC4
import proofs.«113696_j26852135535044_1_alg».proof.Proof.KI.RegC7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev B0 : (c : Dev nD) → (b : Ref sig .tc) → Buf (Elt F) ((c : Thread nD τ).loc b) := fun c b => W0 m ρ c b

abbrev W1 : Dev nD → Valuation τ sig (Elt F) := fun c => StableHlo.after hostOps0 (W0 m ρ c)
abbrev B1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

theorem withArrays_keep {cfg : Cfg sig Λ₀} (hinj : Function.Injective (Pipeline.arrRef cfg.spec)) (c : Dev nD)
    (dat : Dat τ (Elt F) Unit ℕ (UR sig nD τ) ℕ cfg c) (Wa : Valuation τ sig (Elt F))
    (hA : ∀ w, dat.A w = Wa (Proc.devRef .tc (Pipeline.arrRef cfg.spec w)))
    (r : Ref sig .tc) (h : ∀ w : Fin cfg.W, (cfg.win w).isOut = true → Pipeline.arrRef cfg.spec w ≠ r) :
    Pipeline.withArrays cfg.spec c Wa (fun w => dat.arrAt w cfg.N) (Proc.devRef .tc r) = Wa (Proc.devRef .tc r) := by
  by_cases hr : ∃ w, Pipeline.arrRef cfg.spec w = r
  · obtain ⟨w, rfl⟩ := hr
    have hin : (cfg.win w).isOut = false := by
      cases hh : (cfg.win w).isOut
      · rfl
      · exact absurd rfl (h w hh)
    exact (Pipeline.withArrays_arr cfg.spec hinj c _ _ w).trans ((dat.arrAt_in w hin _).trans (hA w))
  · exact Pipeline.withArrays_of_ne cfg.spec c _ _ r fun w e => hr ⟨w, e⟩

def W2 (c : Dev nD) : Valuation τ sig (Elt F) :=
  Pipeline.withArrays spec0 c (W1 m ρ c) fun w => (dat0 (B1 m ρ) c).arrAt w cfg0.N
theorem W2_arr (c : Dev nD) (w : Fin cfg0.W) :
    W2 m ρ c (Proc.devRef .tc (Pipeline.arrRef spec0 w)) = (dat0 (B1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev B2 : (c : Dev nD) → (b : Ref sig .tc) → Buf (Elt F) ((c : Thread nD τ).loc b) := fun c b => W2 m ρ c b
theorem hF0 (c : Dev nD) (w : Fin cfg0.W) : (dat0 (B1 m ρ) c).arrAt w cfg0.N = B2 m ρ c (Pipeline.arrRef spec0 w) :=
  (W2_arr m ρ c w).symm
theorem hrest0 (c : Dev nD) : ∀ b, b ∉ Finset.univ.image (Pipeline.arrRef spec0) → B2 m ρ c b = B1 m ρ c b :=
  fun b hb => W2_of_ne m ρ c b fun w e => hb (Finset.mem_image.mpr ⟨w, Finset.mem_univ _, e⟩)

theorem W2_of (c : Dev nD) (r : Ref sig .tc) (h : ∀ w : Fin cfg0.W, (cfg0.win w).isOut = true → Pipeline.arrRef spec0 w ≠ r) :
    W2 m ρ c (Proc.devRef .tc r) = W1 m ρ c (Proc.devRef .tc r) :=
  withArrays_keep launch0.win.arr_inj c (dat0 (B1 m ρ) c) (W1 m ρ c) (A_eq0 (B1 m ρ) c) r h

abbrev W3 : Dev nD → Valuation τ sig (Elt F) := fun c => StableHlo.after hostOps1 (W2 m ρ c)
abbrev B3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h

def W4 (c : Dev nD) : Valuation τ sig (Elt F) :=
  Pipeline.withArrays spec1 c (W3 m ρ c) fun w => (dat1 (B3 m ρ) c).arrAt w cfg1.N
theorem W4_arr (c : Dev nD) (w : Fin cfg1.W) :
    W4 m ρ c (Proc.devRef .tc (Pipeline.arrRef spec1 w)) = (dat1 (B3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev B4 : (c : Dev nD) → (b : Ref sig .tc) → Buf (Elt F) ((c : Thread nD τ).loc b) := fun c b => W4 m ρ c b
theorem hF1 (c : Dev nD) (w : Fin cfg1.W) : (dat1 (B3 m ρ) c).arrAt w cfg1.N = B4 m ρ c (Pipeline.arrRef spec1 w) :=
  (W4_arr m ρ c w).symm
theorem hrest1 (c : Dev nD) : ∀ b, b ∉ Finset.univ.image (Pipeline.arrRef spec1) → B4 m ρ c b = B3 m ρ c b :=
  fun b hb => W4_of_ne m ρ c b fun w e => hb (Finset.mem_image.mpr ⟨w, Finset.mem_univ _, e⟩)

theorem W4_of (c : Dev nD) (r : Ref sig .tc) (h : ∀ w : Fin cfg1.W, (cfg1.win w).isOut = true → Pipeline.arrRef spec1 w ≠ r) :
    W4 m ρ c (Proc.devRef .tc r) = W3 m ρ c (Proc.devRef .tc r) :=
  withArrays_keep launch1.win.arr_inj c (dat1 (B3 m ρ) c) (W3 m ρ c) (A_eq1 (B3 m ρ) c) r h

abbrev W5 : Dev nD → Valuation τ sig (Elt F) := fun c => StableHlo.after hostOps2 (W4 m ρ c)
abbrev B5 : (c : Dev nD) → (b : Ref sig .tc) → Buf (Elt F) ((c : Thread nD τ).loc b) := fun c b => W5 m ρ c b
theorem W5_of (c : Dev nD) (r : Ref sig .tc) (h : r ∉ hostOps2_W) : W5 m ρ c r = W4 m ρ c r :=
  StableHlo.after_of_writes_sub hostOps2 _ hostOps2_writes h

def W6 (c : Dev nD) : Valuation τ sig (Elt F) :=
  Pipeline.withArrays spec2 c (W5 m ρ c) fun w => (dat2 (B5 m ρ) c).arrAt w cfg2.N
theorem W6_arr (c : Dev nD) (w : Fin cfg2.W) :
    W6 m ρ c (Proc.devRef .tc (Pipeline.arrRef spec2 w)) = (dat2 (B5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev B6 : (c : Dev nD) → (b : Ref sig .tc) → Buf (Elt F) ((c : Thread nD τ).loc b) := fun c b => W6 m ρ c b
theorem hF2 (c : Dev nD) (w : Fin cfg2.W) : (dat2 (B5 m ρ) c).arrAt w cfg2.N = B6 m ρ c (Pipeline.arrRef spec2 w) :=
  (W6_arr m ρ c w).symm
theorem hrest2 (c : Dev nD) : ∀ b, b ∉ Finset.univ.image (Pipeline.arrRef spec2) → B6 m ρ c b = B5 m ρ c b :=
  fun b hb => W6_of_ne m ρ c b fun w e => hb (Finset.mem_image.mpr ⟨w, Finset.mem_univ _, e⟩)

theorem W6_of (c : Dev nD) (r : Ref sig .tc) (h : ∀ w : Fin cfg2.W, (cfg2.win w).isOut = true → Pipeline.arrRef spec2 w ≠ r) :
    W6 m ρ c (Proc.devRef .tc r) = W5 m ρ c (Proc.devRef .tc r) :=
  withArrays_keep launch2.win.arr_inj c (dat2 (B5 m ρ) c) (W5 m ρ c) (A_eq2 (B5 m ρ) c) r h

def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
abbrev B7 : (c : Dev nD) → (b : Ref sig .tc) → Buf (Elt F) ((c : Thread nD τ).loc b) := fun c b => W7 m ρ c b
theorem hF3 (c : Dev nD) (w : Fin cfg3.W) : (dat3 (B6 m ρ) c).arrAt w cfg3.N = B7 m ρ c (Pipeline.arrRef spec3 w) :=
  (W7_arr m ρ c w).symm
theorem hrest3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)

theorem W7_of (c : Dev nD) (r : Ref sig .tc) (h : ∀ w : Fin cfg3.W, (cfg3.win w).isOut = true → Pipeline.arrRef spec3 w ≠ r) :
    W7 m ρ c (Proc.devRef .tc r) = W6 m ρ c (Proc.devRef .tc r) :=
  withArrays_keep launch3.win.arr_inj c (dat3 (B6 m ρ) c) (W6 m ρ c) (A_eq3 (B6 m ρ) c) r h

abbrev W8 : Dev nD → Valuation τ sig (Elt F) := fun c => StableHlo.after hostOps4 (W7 m ρ c)
abbrev B8 : (c : Dev nD) → (b : Ref sig .tc) → Buf (Elt F) ((c : Thread nD τ).loc b) := fun c b => W8 m ρ c b
theorem W8_of (c : Dev nD) (r : Ref sig .tc) (h : r ∉ hostOps4_W) : W8 m ρ c r = W7 m ρ c r :=
  StableHlo.after_of_writes_sub hostOps4 _ hostOps4_writes h

def W9 (c : Dev nD) : Valuation τ sig (Elt F) :=
  Pipeline.withArrays spec4 c (W8 m ρ c) fun w => (dat4 (B8 m ρ) c).arrAt w cfg4.N
theorem W9_arr (c : Dev nD) (w : Fin cfg4.W) :
    W9 m ρ c (Proc.devRef .tc (Pipeline.arrRef spec4 w)) = (dat4 (B8 m ρ) c).arrAt w cfg4.N := by
  unfold W9; exact Pipeline.withArrays_arr spec4 launch4.win.arr_inj c _ _ w
theorem W9_of_ne (c : Dev nD) (b : Ref sig .tc) (hb : ∀ w, Pipeline.arrRef spec4 w ≠ b) :
    W9 m ρ c (Proc.devRef .tc b) = W8 m ρ c (Proc.devRef .tc b) := by
  unfold W9; exact Pipeline.withArrays_of_ne spec4 c _ _ b hb
abbrev B9 : (c : Dev nD) → (b : Ref sig .tc) → Buf (Elt F) ((c : Thread nD τ).loc b) := fun c b => W9 m ρ c b
theorem hF4 (c : Dev nD) (w : Fin cfg4.W) : (dat4 (B8 m ρ) c).arrAt w cfg4.N = B9 m ρ c (Pipeline.arrRef spec4 w) :=
  (W9_arr m ρ c w).symm
theorem hrest4 (c : Dev nD) : ∀ b, b ∉ Finset.univ.image (Pipeline.arrRef spec4) → B9 m ρ c b = B8 m ρ c b :=
  fun b hb => W9_of_ne m ρ c b fun w e => hb (Finset.mem_image.mpr ⟨w, Finset.mem_univ _, e⟩)

theorem W9_of (c : Dev nD) (r : Ref sig .tc) (h : ∀ w : Fin cfg4.W, (cfg4.win w).isOut = true → Pipeline.arrRef spec4 w ≠ r) :
    W9 m ρ c (Proc.devRef .tc r) = W8 m ρ c (Proc.devRef .tc r) :=
  withArrays_keep launch4.win.arr_inj c (dat4 (B8 m ρ) c) (W8 m ρ c) (A_eq4 (B8 m ρ) c) r h

abbrev W10 : Dev nD → Valuation τ sig (Elt F) := fun c => StableHlo.after hostOps5 (W9 m ρ c)
abbrev B10 : (c : Dev nD) → (b : Ref sig .tc) → Buf (Elt F) ((c : Thread nD τ).loc b) := fun c b => W10 m ρ c b
theorem W10_of (c : Dev nD) (r : Ref sig .tc) (h : r ∉ hostOps5_W) : W10 m ρ c r = W9 m ρ c r :=
  StableHlo.after_of_writes_sub hostOps5 _ hostOps5_writes h

def W11 (c : Dev nD) : Valuation τ sig (Elt F) :=
  Pipeline.withArrays spec5 c (W10 m ρ c) fun w => (dat5 (B10 m ρ) c).arrAt w cfg5.N
theorem W11_arr (c : Dev nD) (w : Fin cfg5.W) :
    W11 m ρ c (Proc.devRef .tc (Pipeline.arrRef spec5 w)) = (dat5 (B10 m ρ) c).arrAt w cfg5.N := by
  unfold W11; exact Pipeline.withArrays_arr spec5 launch5.win.arr_inj c _ _ w
theorem W11_of_ne (c : Dev nD) (b : Ref sig .tc) (hb : ∀ w, Pipeline.arrRef spec5 w ≠ b) :
    W11 m ρ c (Proc.devRef .tc b) = W10 m ρ c (Proc.devRef .tc b) := by
  unfold W11; exact Pipeline.withArrays_of_ne spec5 c _ _ b hb
abbrev B11 : (c : Dev nD) → (b : Ref sig .tc) → Buf (Elt F) ((c : Thread nD τ).loc b) := fun c b => W11 m ρ c b
theorem hF5 (c : Dev nD) (w : Fin cfg5.W) : (dat5 (B10 m ρ) c).arrAt w cfg5.N = B11 m ρ c (Pipeline.arrRef spec5 w) :=
  (W11_arr m ρ c w).symm
theorem hrest5 (c : Dev nD) : ∀ b, b ∉ Finset.univ.image (Pipeline.arrRef spec5) → B11 m ρ c b = B10 m ρ c b :=
  fun b hb => W11_of_ne m ρ c b fun w e => hb (Finset.mem_image.mpr ⟨w, Finset.mem_univ _, e⟩)

theorem W11_of (c : Dev nD) (r : Ref sig .tc) (h : ∀ w : Fin cfg5.W, (cfg5.win w).isOut = true → Pipeline.arrRef spec5 w ≠ r) :
    W11 m ρ c (Proc.devRef .tc r) = W10 m ρ c (Proc.devRef .tc r) :=
  withArrays_keep launch5.win.arr_inj c (dat5 (B10 m ρ) c) (W10 m ρ c) (A_eq5 (B10 m ρ) c) r h

def W12 (c : Dev nD) : Valuation τ sig (Elt F) :=
  Pipeline.withArrays spec6 c (W11 m ρ c) fun w => (dat6 (B11 m ρ) c).arrAt w cfg6.N
theorem W12_arr (c : Dev nD) (w : Fin cfg6.W) :
    W12 m ρ c (Proc.devRef .tc (Pipeline.arrRef spec6 w)) = (dat6 (B11 m ρ) c).arrAt w cfg6.N := by
  unfold W12; exact Pipeline.withArrays_arr spec6 launch6.win.arr_inj c _ _ w
theorem W12_of_ne (c : Dev nD) (b : Ref sig .tc) (hb : ∀ w, Pipeline.arrRef spec6 w ≠ b) :
    W12 m ρ c (Proc.devRef .tc b) = W11 m ρ c (Proc.devRef .tc b) := by
  unfold W12; exact Pipeline.withArrays_of_ne spec6 c _ _ b hb
abbrev B12 : (c : Dev nD) → (b : Ref sig .tc) → Buf (Elt F) ((c : Thread nD τ).loc b) := fun c b => W12 m ρ c b
theorem hF6 (c : Dev nD) (w : Fin cfg6.W) : (dat6 (B11 m ρ) c).arrAt w cfg6.N = B12 m ρ c (Pipeline.arrRef spec6 w) :=
  (W12_arr m ρ c w).symm
theorem hrest6 (c : Dev nD) : ∀ b, b ∉ Finset.univ.image (Pipeline.arrRef spec6) → B12 m ρ c b = B11 m ρ c b :=
  fun b hb => W12_of_ne m ρ c b fun w e => hb (Finset.mem_image.mpr ⟨w, Finset.mem_univ _, e⟩)

theorem W12_of (c : Dev nD) (r : Ref sig .tc) (h : ∀ w : Fin cfg6.W, (cfg6.win w).isOut = true → Pipeline.arrRef spec6 w ≠ r) :
    W12 m ρ c (Proc.devRef .tc r) = W11 m ρ c (Proc.devRef .tc r) :=
  withArrays_keep launch6.win.arr_inj c (dat6 (B11 m ρ) c) (W11 m ρ c) (A_eq6 (B11 m ρ) c) r h

abbrev W13 : Dev nD → Valuation τ sig (Elt F) := fun c => StableHlo.after hostOps7 (W12 m ρ c)
abbrev B13 : (c : Dev nD) → (b : Ref sig .tc) → Buf (Elt F) ((c : Thread nD τ).loc b) := fun c b => W13 m ρ c b
theorem W13_of (c : Dev nD) (r : Ref sig .tc) (h : r ∉ hostOps7_W) : W13 m ρ c r = W12 m ρ c r :=
  StableHlo.after_of_writes_sub hostOps7 _ hostOps7_writes h

def W14 (c : Dev nD) : Valuation τ sig (Elt F) :=
  Pipeline.withArrays spec7 c (W13 m ρ c) fun w => (dat7 (B13 m ρ) c).arrAt w cfg7.N
theorem W14_arr (c : Dev nD) (w : Fin cfg7.W) :
    W14 m ρ c (Proc.devRef .tc (Pipeline.arrRef spec7 w)) = (dat7 (B13 m ρ) c).arrAt w cfg7.N := by
  unfold W14; exact Pipeline.withArrays_arr spec7 launch7.win.arr_inj c _ _ w
theorem W14_of_ne (c : Dev nD) (b : Ref sig .tc) (hb : ∀ w, Pipeline.arrRef spec7 w ≠ b) :
    W14 m ρ c (Proc.devRef .tc b) = W13 m ρ c (Proc.devRef .tc b) := by
  unfold W14; exact Pipeline.withArrays_of_ne spec7 c _ _ b hb
abbrev B14 : (c : Dev nD) → (b : Ref sig .tc) → Buf (Elt F) ((c : Thread nD τ).loc b) := fun c b => W14 m ρ c b
theorem hF7 (c : Dev nD) (w : Fin cfg7.W) : (dat7 (B13 m ρ) c).arrAt w cfg7.N = B14 m ρ c (Pipeline.arrRef spec7 w) :=
  (W14_arr m ρ c w).symm
theorem hrest7 (c : Dev nD) : ∀ b, b ∉ Finset.univ.image (Pipeline.arrRef spec7) → B14 m ρ c b = B13 m ρ c b :=
  fun b hb => W14_of_ne m ρ c b fun w e => hb (Finset.mem_image.mpr ⟨w, Finset.mem_univ _, e⟩)

theorem W14_of (c : Dev nD) (r : Ref sig .tc) (h : ∀ w : Fin cfg7.W, (cfg7.win w).isOut = true → Pipeline.arrRef spec7 w ≠ r) :
    W14 m ρ c (Proc.devRef .tc r) = W13 m ρ c (Proc.devRef .tc r) :=
  withArrays_keep launch7.win.arr_inj c (dat7 (B13 m ρ) c) (W13 m ρ c) (A_eq7 (B13 m ρ) c) r h

abbrev W15 : Dev nD → Valuation τ sig (Elt F) := fun c => StableHlo.after hostOps8 (W14 m ρ c)
abbrev B15 : (c : Dev nD) → (b : Ref sig .tc) → Buf (Elt F) ((c : Thread nD τ).loc b) := fun c b => W15 m ρ c b
theorem W15_of (c : Dev nD) (r : Ref sig .tc) (h : r ∉ hostOps8_W) : W15 m ρ c r = W14 m ρ c r :=
  StableHlo.after_of_writes_sub hostOps8 _ hostOps8_writes h

def W16 (c : Dev nD) : Valuation τ sig (Elt F) :=
  Pipeline.withArrays spec8 c (W15 m ρ c) fun w => (dat8 (B15 m ρ) c).arrAt w cfg8.N
theorem W16_arr (c : Dev nD) (w : Fin cfg8.W) :
    W16 m ρ c (Proc.devRef .tc (Pipeline.arrRef spec8 w)) = (dat8 (B15 m ρ) c).arrAt w cfg8.N := by
  unfold W16; exact Pipeline.withArrays_arr spec8 launch8.win.arr_inj c _ _ w
theorem W16_of_ne (c : Dev nD) (b : Ref sig .tc) (hb : ∀ w, Pipeline.arrRef spec8 w ≠ b) :
    W16 m ρ c (Proc.devRef .tc b) = W15 m ρ c (Proc.devRef .tc b) := by
  unfold W16; exact Pipeline.withArrays_of_ne spec8 c _ _ b hb
abbrev B16 : (c : Dev nD) → (b : Ref sig .tc) → Buf (Elt F) ((c : Thread nD τ).loc b) := fun c b => W16 m ρ c b
theorem hF8 (c : Dev nD) (w : Fin cfg8.W) : (dat8 (B15 m ρ) c).arrAt w cfg8.N = B16 m ρ c (Pipeline.arrRef spec8 w) :=
  (W16_arr m ρ c w).symm
theorem hrest8 (c : Dev nD) : ∀ b, b ∉ Finset.univ.image (Pipeline.arrRef spec8) → B16 m ρ c b = B15 m ρ c b :=
  fun b hb => W16_of_ne m ρ c b fun w e => hb (Finset.mem_image.mpr ⟨w, Finset.mem_univ _, e⟩)

theorem W16_of (c : Dev nD) (r : Ref sig .tc) (h : ∀ w : Fin cfg8.W, (cfg8.win w).isOut = true → Pipeline.arrRef spec8 w ≠ r) :
    W16 m ρ c (Proc.devRef .tc r) = W15 m ρ c (Proc.devRef .tc r) :=
  withArrays_keep launch8.win.arr_inj c (dat8 (B15 m ρ) c) (W15 m ρ c) (A_eq8 (B15 m ρ) c) r h

def W17 (c : Dev nD) : Valuation τ sig (Elt F) :=
  Pipeline.withArrays spec9 c (W16 m ρ c) fun w => (dat9 (B16 m ρ) c).arrAt w cfg9.N
theorem W17_arr (c : Dev nD) (w : Fin cfg9.W) :
    W17 m ρ c (Proc.devRef .tc (Pipeline.arrRef spec9 w)) = (dat9 (B16 m ρ) c).arrAt w cfg9.N := by
  unfold W17; exact Pipeline.withArrays_arr spec9 launch9.win.arr_inj c _ _ w
theorem W17_of_ne (c : Dev nD) (b : Ref sig .tc) (hb : ∀ w, Pipeline.arrRef spec9 w ≠ b) :
    W17 m ρ c (Proc.devRef .tc b) = W16 m ρ c (Proc.devRef .tc b) := by
  unfold W17; exact Pipeline.withArrays_of_ne spec9 c _ _ b hb
abbrev B17 : (c : Dev nD) → (b : Ref sig .tc) → Buf (Elt F) ((c : Thread nD τ).loc b) := fun c b => W17 m ρ c b
theorem hF9 (c : Dev nD) (w : Fin cfg9.W) : (dat9 (B16 m ρ) c).arrAt w cfg9.N = B17 m ρ c (Pipeline.arrRef spec9 w) :=
  (W17_arr m ρ c w).symm
theorem hrest9 (c : Dev nD) : ∀ b, b ∉ Finset.univ.image (Pipeline.arrRef spec9) → B17 m ρ c b = B16 m ρ c b :=
  fun b hb => W17_of_ne m ρ c b fun w e => hb (Finset.mem_image.mpr ⟨w, Finset.mem_univ _, e⟩)

theorem W17_of (c : Dev nD) (r : Ref sig .tc) (h : ∀ w : Fin cfg9.W, (cfg9.win w).isOut = true → Pipeline.arrRef spec9 w ≠ r) :
    W17 m ρ c (Proc.devRef .tc r) = W16 m ρ c (Proc.devRef .tc r) :=
  withArrays_keep launch9.win.arr_inj c (dat9 (B16 m ρ) c) (W16 m ρ c) (A_eq9 (B16 m ρ) c) r h

abbrev W18 : Dev nD → Valuation τ sig (Elt F) := fun c => StableHlo.after hostOps10 (W17 m ρ c)
abbrev B18 : (c : Dev nD) → (b : Ref sig .tc) → Buf (Elt F) ((c : Thread nD τ).loc b) := fun c b => W18 m ρ c b
theorem W18_of (c : Dev nD) (r : Ref sig .tc) (h : r ∉ hostOps10_W) : W18 m ρ c r = W17 m ρ c r :=
  StableHlo.after_of_writes_sub hostOps10 _ hostOps10_writes h

abbrev Untouched (r : Ref sig .tc) : Prop :=
  r ∉ hostOps0_W
  ∧ (∀ w : Fin cfg0.W, (cfg0.win w).isOut = true → Pipeline.arrRef spec0 w ≠ r)
  ∧ r ∉ hostOps1_W
  ∧ (∀ w : Fin cfg1.W, (cfg1.win w).isOut = true → Pipeline.arrRef spec1 w ≠ r)
  ∧ r ∉ hostOps2_W
  ∧ (∀ w : Fin cfg2.W, (cfg2.win w).isOut = true → Pipeline.arrRef spec2 w ≠ r)
  ∧ (∀ w : Fin cfg3.W, (cfg3.win w).isOut = true → Pipeline.arrRef spec3 w ≠ r)
  ∧ r ∉ hostOps4_W
  ∧ (∀ w : Fin cfg4.W, (cfg4.win w).isOut = true → Pipeline.arrRef spec4 w ≠ r)
  ∧ r ∉ hostOps5_W
  ∧ (∀ w : Fin cfg5.W, (cfg5.win w).isOut = true → Pipeline.arrRef spec5 w ≠ r)
  ∧ (∀ w : Fin cfg6.W, (cfg6.win w).isOut = true → Pipeline.arrRef spec6 w ≠ r)
  ∧ r ∉ hostOps7_W
  ∧ (∀ w : Fin cfg7.W, (cfg7.win w).isOut = true → Pipeline.arrRef spec7 w ≠ r)
  ∧ r ∉ hostOps8_W
  ∧ (∀ w : Fin cfg8.W, (cfg8.win w).isOut = true → Pipeline.arrRef spec8 w ≠ r)
  ∧ (∀ w : Fin cfg9.W, (cfg9.win w).isOut = true → Pipeline.arrRef spec9 w ≠ r)
  ∧ r ∉ hostOps10_W

theorem W18_untouched (c : Dev nD) (r : Ref sig .tc) (h : Untouched r) : W18 m ρ c (Proc.devRef .tc r) = m ((c : Thread nD τ).loc r) := by
  obtain ⟨h0, h1, h2, h3, h4, h5, h6, h7, h8, h9, h10, h11, h12, h13, h14, h15, h16, h17⟩ := h
  calc W18 m ρ c (Proc.devRef .tc r)
    _ = W17 m ρ c (Proc.devRef .tc r) := W18_of m ρ c r h17
    _ = W16 m ρ c (Proc.devRef .tc r) := W17_of m ρ c r h16
    _ = W15 m ρ c (Proc.devRef .tc r) := W16_of m ρ c r h15
    _ = W14 m ρ c (Proc.devRef .tc r) := W15_of m ρ c r h14
    _ = W13 m ρ c (Proc.devRef .tc r) := W14_of m ρ c r h13
    _ = W12 m ρ c (Proc.devRef .tc r) := W13_of m ρ c r h12
    _ = W11 m ρ c (Proc.devRef .tc r) := W12_of m ρ c r h11
    _ = W10 m ρ c (Proc.devRef .tc r) := W11_of m ρ c r h10
    _ = W9 m ρ c (Proc.devRef .tc r) := W10_of m ρ c r h9
    _ = W8 m ρ c (Proc.devRef .tc r) := W9_of m ρ c r h8
    _ = W7 m ρ c (Proc.devRef .tc r) := W8_of m ρ c r h7
    _ = W6 m ρ c (Proc.devRef .tc r) := W7_of m ρ c r h6
    _ = W5 m ρ c (Proc.devRef .tc r) := W6_of m ρ c r h5
    _ = W4 m ρ c (Proc.devRef .tc r) := W5_of m ρ c r h4
    _ = W3 m ρ c (Proc.devRef .tc r) := W4_of m ρ c r h3
    _ = W2 m ρ c (Proc.devRef .tc r) := W3_of m ρ c r h2
    _ = W1 m ρ c (Proc.devRef .tc r) := W2_of m ρ c r h1
    _ = W0 m ρ c (Proc.devRef .tc r) := W1_of m ρ c r h0
    _ = m ((c : Thread nD τ).loc r) := rfl

def pdats : (p : Fin 10) → (c : Dev nD) → Dat τ (Elt F) Unit ℕ (UR sig nD τ) ℕ (Pipeline.pin (pcfgs (F := F)) adm p) c
  | ⟨0, _⟩ => fun c => dat0 (B1 m ρ) c
  | ⟨1, _⟩ => fun c => dat1 (B3 m ρ) c
  | ⟨2, _⟩ => fun c => dat2 (B5 m ρ) c
  | ⟨3, _⟩ => fun c => dat3 (B6 m ρ) c
  | ⟨4, _⟩ => fun c => dat4 (B8 m ρ) c
  | ⟨5, _⟩ => fun c => dat5 (B10 m ρ) c
  | ⟨6, _⟩ => fun c => dat6 (B11 m ρ) c
  | ⟨7, _⟩ => fun c => dat7 (B13 m ρ) c
  | ⟨8, _⟩ => fun c => dat8 (B15 m ρ) c
  | ⟨9, _⟩ => fun c => dat9 (B16 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W18 m ρ c) ∗ ∃ r, prngReg c r)

abbrev Bof (W : Dev nD → Valuation τ sig (Elt F)) : (c : Dev nD) → (b : Ref sig .tc) → Buf (Elt F) ((c : Thread nD τ).loc b) := fun c b => W c b

theorem hinA (p : Fin 10) (c : Dev nD) (h : (pdats m ρ p c).Φ 0 = Pipeline.ΦA (cfgs p).spec c) :
    (iprop((∃ r, prngReg c r) ∗ Pipeline.prefHeld (pcfgs (F := F) p).pre c (fun _ => fullShare) (adm (F := F) p).1 ∗ Pipeline.scopedRest (cfgs p).spec c) : sProp 𝕄) ⊢ (pdats m ρ p c).Φ 0 := by
  rw [h]; unfold Pipeline.ΦA
  iintro ⟨Hp, -, Hr⟩
  isplitl [Hr]; · iexact Hr
  iexact Hp

theorem houtA (p : Fin 10) (c : Dev nD) (h : (pdats m ρ p c).Φ (Fin.last (cfgs p).N) = Pipeline.ΦA (cfgs p).spec c) :
    (pdats m ρ p c).Φ (Fin.last (cfgs p).N) ⊢ (iprop((∃ r, prngReg c r) ∗ Pipeline.ownSems0 (fun k : PEmpty => k.elim) c ∗ Pipeline.scopedRest (cfgs p).spec c) : sProp 𝕄) := by
  rw [Pipeline.ownSems0_none, h]; unfold Pipeline.ΦA
  iintro ⟨Hr, Hp⟩
  isplitl [Hp]; · iexact Hp
  isplitr; · iempintro
  iexact Hr

set_option backward.isDefEq.respectTransparency.types false in
def regOf (p : Fin 10) (lf : Pipeline.LaunchFacts (nD := nD) (τ := τ) cfgs p) (Wa Wb : Dev nD → Valuation τ sig (Elt F))
    (hbody : ∀ c, Pipeline.BodyObligationLoose (pdats m ρ p c) (defs₀ (F := F)) 𝒱₀ () Set.univ)
    (howed : ∀ c t, (pdats m ρ p c).owed t = 0) (hrec : ∀ c t, (pdats m ρ p c).recorded t = Set.univ)
    (hshare : ∀ c w, (pdats m ρ p c).share w = fullShare)
    (hA : ∀ c w, (pdats m ρ p c).A w = Bof Wa c (Pipeline.arrRef (cfgs p).spec w))
    (hF : ∀ c w, (pdats m ρ p c).arrAt w (cfgs p).N = Bof Wb c (Pipeline.arrRef (cfgs p).spec w))
    (hrest : ∀ c b, b ∉ Finset.univ.image (Pipeline.arrRef (cfgs p).spec) → Bof Wb c b = Bof Wa c b)
    (hin : ∀ c, (iprop((∃ r, prngReg c r) ∗ Pipeline.prefHeld (pcfgs (F := F) p).pre c (fun _ => fullShare) (adm (F := F) p).1 ∗ Pipeline.scopedRest (cfgs p).spec c) : sProp 𝕄) ⊢ (pdats m ρ p c).Φ 0)
    (hout : ∀ c, (pdats m ρ p c).Φ (Fin.last (cfgs p).N) ⊢ (iprop((∃ r, prngReg c r) ∗ Pipeline.ownSems0 (fun k : PEmpty => k.elim) c ∗ Pipeline.scopedRest (cfgs p).spec c) : sProp 𝕄)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wa c) ∗ R c)
  post c := iprop(StableHlo.held (c : Thread nD τ) (Pipeline.ucRefs τ sig) (Wb c) ∗ R c)
  X c := iprop(∃ r, prngReg c r)
  Y c := iprop(∃ r, prngReg c r)
  Z c := Pipeline.unscopedRest (Ix := Unit) (Name := ℕ) (U := UR sig nD τ) (Lvl := ℕ) (cfgs p).spec c (Bof Wa c)
  hentry c := by
    rw [Pipeline.ownSems0_none]
    have hsplit := Pipeline.arrays_of_unscopedBufs (p := p) (pcfgs (F := F)) adm (pdats m ρ) lf.win lf.arr_whole c
      (hshare c) (Bof Wa c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (by rw [hrec c]; exact Set.mem_univ x)
      iexact HO
    isplitl [Hp]; · iexact Hp
    iexact Hrest
  hin := hin
  hout := hout
  hexit c := by
    have hjoin := Pipeline.unscopedBufs_of_arrays (p := p) (pcfgs (F := F)) adm (Ix := Unit) (Name := ℕ) (U := UR sig nD τ) (Lvl := ℕ)
      lf.win lf.arr_whole c (pdats m ρ) (hshare c)
      (Bof Wa c) (Bof Wb c) ((pdats m ρ p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

def reg0 : Pipeline.RegionSeg (pcfgs (F := F)) adm (pdats m ρ) () defs₀ 𝒱₀ L lv 0 :=
  regOf m ρ 0 launch0 (W1 m ρ) (W2 m ρ) (fun c => (body_obligation0 (B1 m ρ) c).loose) (fun _ _ => rfl) (fun _ _ => rfl)
    (fun c => (pdats m ρ 0 c).share_full fun _ => rfl) (fun _ _ => rfl) (hF0 m ρ) (hrest0 m ρ) (fun c => hinA m ρ 0 c rfl) (fun c => houtA m ρ 0 c rfl)

def reg1 : Pipeline.RegionSeg (pcfgs (F := F)) adm (pdats m ρ) () defs₀ 𝒱₀ L lv 1 :=
  regOf m ρ 1 launch1 (W3 m ρ) (W4 m ρ) (fun c => (body_obligation1 (B3 m ρ) c).loose) (fun _ _ => rfl) (fun _ _ => rfl)
    (fun c => (pdats m ρ 1 c).share_full fun _ => rfl) (fun _ _ => rfl) (hF1 m ρ) (hrest1 m ρ) (hin1 (B3 m ρ)) (hout1 (B3 m ρ))

def reg2 : Pipeline.RegionSeg (pcfgs (F := F)) adm (pdats m ρ) () defs₀ 𝒱₀ L lv 2 :=
  regOf m ρ 2 launch2 (W5 m ρ) (W6 m ρ) (fun c => (body_obligation2 (B5 m ρ) c).loose) (fun _ _ => rfl) (fun _ _ => rfl)
    (fun c => (pdats m ρ 2 c).share_full fun _ => rfl) (fun _ _ => rfl) (hF2 m ρ) (hrest2 m ρ) (fun c => hinA m ρ 2 c rfl) (fun c => houtA m ρ 2 c rfl)

def reg3 : Pipeline.RegionSeg (pcfgs (F := F)) adm (pdats m ρ) () defs₀ 𝒱₀ L lv 3 :=
  regOf m ρ 3 launch3 (W6 m ρ) (W7 m ρ) (fun c => (body_obligation3 (B6 m ρ) c).loose) (fun _ _ => rfl) (fun _ _ => rfl)
    (fun c => (pdats m ρ 3 c).share_full fun _ => rfl) (fun _ _ => rfl) (hF3 m ρ) (hrest3 m ρ) (fun c => hinA m ρ 3 c rfl) (fun c => houtA m ρ 3 c rfl)

def reg4 : Pipeline.RegionSeg (pcfgs (F := F)) adm (pdats m ρ) () defs₀ 𝒱₀ L lv 4 :=
  regOf m ρ 4 launch4 (W8 m ρ) (W9 m ρ) (fun c => (body_obligation4 (B8 m ρ) c).loose) (fun _ _ => rfl) (fun _ _ => rfl)
    (fun c => (pdats m ρ 4 c).share_full fun _ => rfl) (fun _ _ => rfl) (hF4 m ρ) (hrest4 m ρ) (hin4 (B8 m ρ)) (hout4 (B8 m ρ))

def reg5 : Pipeline.RegionSeg (pcfgs (F := F)) adm (pdats m ρ) () defs₀ 𝒱₀ L lv 5 :=
  regOf m ρ 5 launch5 (W10 m ρ) (W11 m ρ) (fun c => (body_obligation5 (B10 m ρ) c).loose) (fun _ _ => rfl) (fun _ _ => rfl)
    (fun c => (pdats m ρ 5 c).share_full fun _ => rfl) (fun _ _ => rfl) (hF5 m ρ) (hrest5 m ρ) (fun c => hinA m ρ 5 c rfl) (fun c => houtA m ρ 5 c rfl)

def reg6 : Pipeline.RegionSeg (pcfgs (F := F)) adm (pdats m ρ) () defs₀ 𝒱₀ L lv 6 :=
  regOf m ρ 6 launch6 (W11 m ρ) (W12 m ρ) (fun c => (body_obligation6 (B11 m ρ) c).loose) (fun _ _ => rfl) (fun _ _ => rfl)
    (fun c => (pdats m ρ 6 c).share_full fun _ => rfl) (fun _ _ => rfl) (hF6 m ρ) (hrest6 m ρ) (fun c => hinA m ρ 6 c rfl) (fun c => houtA m ρ 6 c rfl)

def reg7 : Pipeline.RegionSeg (pcfgs (F := F)) adm (pdats m ρ) () defs₀ 𝒱₀ L lv 7 :=
  regOf m ρ 7 launch7 (W13 m ρ) (W14 m ρ) (fun c => (body_obligation7 (B13 m ρ) c).loose) (fun _ _ => rfl) (fun _ _ => rfl)
    (fun c => (pdats m ρ 7 c).share_full fun _ => rfl) (fun _ _ => rfl) (hF7 m ρ) (hrest7 m ρ) (hin7 (B13 m ρ)) (hout7 (B13 m ρ))

def reg8 : Pipeline.RegionSeg (pcfgs (F := F)) adm (pdats m ρ) () defs₀ 𝒱₀ L lv 8 :=
  regOf m ρ 8 launch8 (W15 m ρ) (W16 m ρ) (fun c => (body_obligation8 (B15 m ρ) c).loose) (fun _ _ => rfl) (fun _ _ => rfl)
    (fun c => (pdats m ρ 8 c).share_full fun _ => rfl) (fun _ _ => rfl) (hF8 m ρ) (hrest8 m ρ) (fun c => hinA m ρ 8 c rfl) (fun c => houtA m ρ 8 c rfl)

def reg9 : Pipeline.RegionSeg (pcfgs (F := F)) adm (pdats m ρ) () defs₀ 𝒱₀ L lv 9 :=
  regOf m ρ 9 launch9 (W16 m ρ) (W17 m ρ) (fun c => (body_obligation9 (B16 m ρ) c).loose) (fun _ _ => rfl) (fun _ _ => rfl)
    (fun c => (pdats m ρ 9 c).share_full fun _ => rfl) (fun _ _ => rfl) (hF9 m ρ) (hrest9 m ρ) (fun c => hinA m ρ 9 c rfl) (fun c => houtA m ρ 9 c rfl)

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .region (reg3 m ρ),
    .host (hseg hostOps4 hostOps4_sub hostOps4_fresh (W7 m ρ)),
    .region (reg4 m ρ),
    .host (hseg hostOps5 hostOps5_sub hostOps5_fresh (W9 m ρ)),
    .region (reg5 m ρ),
    .region (reg6 m ρ),
    .host (hseg hostOps7 hostOps7_sub hostOps7_fresh (W12 m ρ)),
    .region (reg7 m ρ),
    .host (hseg hostOps8 hostOps8_sub hostOps8_fresh (W14 m ρ)),
    .region (reg8 m ρ),
    .region (reg9 m ρ),
    .host (hseg hostOps10 hostOps10_sub hostOps10_fresh (W17 m ρ)) ]

theorem main_run (c : Dev nD) : main (F := F) c = Pipeline.Seg.run (segs m ρ) := by
  rw [main_chain c, Pipeline.Seg.run_eq_chain]
  rfl

set_option backward.isDefEq.respectTransparency.types false in

theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W18 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show (iprop(StableHlo.held (c : Thread nD τ) (Pipeline.ucRefs τ sig) (W18 m ρ c) ∗ R c) : sProp 𝕄)
          ⊢ iprop(Tₙ m ρ c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c b hb => h c _ (mem_uc b hb))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c main_arg0 (by decide)).trans (W18_untouched m ρ c main_arg0 (by decide)),
    (h c main_arg1 (by decide)).trans (W18_untouched m ρ c main_arg1 (by decide)),
    (h c main_arg2 (by decide)).trans (W18_untouched m ρ c main_arg2 (by decide)),
    (h c main_arg3 (by decide)).trans (W18_untouched m ρ c main_arg3 (by decide)),
    (h c main_arg4 (by decide)).trans (W18_untouched m ρ c main_arg4 (by decide)),
    (h c main_arg5 (by decide)).trans (W18_untouched m ρ c main_arg5 (by decide)),
    (h c main_arg6 (by decide)).trans (W18_untouched m ρ c main_arg6 (by decide)),
    (h c main_arg7 (by decide)).trans (W18_untouched m ρ c main_arg7 (by decide)),
    (h c main_arg8 (by decide)).trans (W18_untouched m ρ c main_arg8 (by decide)),
    (h c main_arg9 (by decide)).trans (W18_untouched m ρ c main_arg9 (by decide)),
    (h c main_arg10 (by decide)).trans (W18_untouched m ρ c main_arg10 (by decide)),
    (h c main_arg11 (by decide)).trans (W18_untouched m ρ c main_arg11 (by decide)),
    (h c main_arg12 (by decide)).trans (W18_untouched m ρ c main_arg12 (by decide)),
    (h c main_arg13 (by decide)).trans (W18_untouched m ρ c main_arg13 (by decide)),
    (h c main_arg14 (by decide)).trans (W18_untouched m ρ c main_arg14 (by decide)),
    (h c main_arg15 (by decide)).trans (W18_untouched m ρ c main_arg15 (by decide)),
    (h c main_arg16 (by decide)).trans (W18_untouched m ρ c main_arg16 (by decide))⟩) (run_all m ρ)

end Cert.KernelIdeal.Hand

end
-- ==== Proof.Ref.Fns.lean ====
import proofs.«113696_j26852135535044_1_alg».proof.ReferenceIdeal
import proofs.«113696_j26852135535044_1_alg».proof.Proof.Gen.ReferenceIdeal

noncomputable section

namespace Cert.ReferenceIdeal.Hand

open Cert.ReferenceIdeal Idealize.ShloMosaic Idealize.SL.Sem
open Cert.ReferenceIdeal.Facts₀ Cert.ReferenceIdeal.Facts

variable {F : FTy → Type} [FloatOps F]

abbrev zeroS : FVec F S_ .f32 := constant S_ .f32 0x00000000#32

abbrev oneS : FVec F S_ .f32 := constant S_ .f32 0x3F800000#32

abbrev rowsS : FVec F S_ .f32 := constant S_ .f32 0x47C35000#32

abbrev epsS : FVec F S_ .f32 := constant S_ .f32 0x3727C5AC#32

abbrev nanS : FVec F S_ .f32 := constant S_ .f32 0x7FC00000#32

def fixIdx (i : IVec S800000 32) : IVec S800000 32 :=
  select (cmpi .slt i (broadcastInDim S800000 ![] bcast_S_S800000 (constantI S_ 32 0#32)))
    (addi i (broadcastInDim S800000 ![] bcast_S_S800000 (constantI S_ 32 100000#32))) i
theorem fixIdx_def (i : IVec S800000 32) : fixIdx i =
  select (cmpi .slt i (broadcastInDim S800000 ![] bcast_S_S800000 (constantI S_ 32 0#32)))
    (addi i (broadcastInDim S800000 ![] bcast_S_S800000 (constantI S_ 32 100000#32))) i := rfl

def idxCol (i : IVec S800000 32) : IVec S800000x1 32 := broadcastInDim S800000x1 ![0] bcast_S800000_S800000x1_0 i
theorem idxCol_def (i : IVec S800000 32) : idxCol i = broadcastInDim S800000x1 ![0] bcast_S800000_S800000x1_0 i := rfl

def rowB (v : FVec F S128 .f32) : FVec F S100000x128 .f32 :=
  broadcastInDim S100000x128 ![0, 1] bcast_S1x128_S100000x128_0_1 (broadcastInDim S1x128 ![1] bcast_S128_S1x128_1 v)
theorem rowB_def (v : FVec F S128 .f32) : rowB v =
  broadcastInDim S100000x128 ![0, 1] bcast_S1x128_S100000x128_0_1 (broadcastInDim S1x128 ![1] bcast_S128_S1x128_1 v) := rfl

def colB (v : FVec F S100000 .f32) : FVec F S100000x128 .f32 :=
  broadcastInDim S100000x128 ![0, 1] bcast_S100000x1_S100000x128_0_1 (broadcastInDim S100000x1 ![0] bcast_S100000_S100000x1_0 v)
theorem colB_def (v : FVec F S100000 .f32) : colB v =
  broadcastInDim S100000x128 ![0, 1] bcast_S100000x1_S100000x128_0_1 (broadcastInDim S100000x1 ![0] bcast_S100000_S100000x1_0 v) := rfl

def edgeB (v : FVec F S800000 .f32) : FVec F S800000x128 .f32 :=
  broadcastInDim S800000x128 ![0, 1] bcast_S800000x1_S800000x128_0_1 (broadcastInDim S800000x1 ![0] bcast_S800000_S800000x1_0 v)
theorem edgeB_def (v : FVec F S800000 .f32) : edgeB v =
  broadcastInDim S800000x128 ![0, 1] bcast_S800000x1_S800000x128_0_1 (broadcastInDim S800000x1 ![0] bcast_S800000_S800000x1_0 v) := rfl

def refDis (dst : IVec S800000 32) : FVec F S100000 .f32 :=
  Host.rsqrt (addf
    (Host.scatterAdd scatter_S100000_S800000x1_S800000_n_0_0_1 (broadcastInDim S100000 ![] bcast_S_S100000 zeroS) (idxCol dst)
      (broadcastInDim S800000 ![] bcast_S_S800000 oneS))
    (broadcastInDim S100000 ![] bcast_S_S100000 oneS))
theorem refDis_def (dst : IVec S800000 32) : refDis (F := F) dst =
  Host.rsqrt (addf
    (Host.scatterAdd scatter_S100000_S800000x1_S800000_n_0_0_1 (broadcastInDim S100000 ![] bcast_S_S100000 zeroS) (idxCol dst)
      (broadcastInDim S800000 ![] bcast_S_S800000 oneS))
    (broadcastInDim S100000 ![] bcast_S_S100000 oneS)) := rfl

def refNorm (dis : FVec F S100000 .f32) (src dst : IVec S800000 32) : FVec F S800000 .f32 :=
  mulf (Host.gather gather_S100000_S800000x1_S800000_n_0_n_n_0_1_1 dis (idxCol (fixIdx src)))
    (Host.gather gather_S100000_S800000x1_S800000_n_0_n_n_0_1_1 dis (idxCol (fixIdx dst)))
theorem refNorm_def (dis : FVec F S100000 .f32) (src dst : IVec S800000 32) : refNorm dis src dst =
  mulf (Host.gather gather_S100000_S800000x1_S800000_n_0_n_n_0_1_1 dis (idxCol (fixIdx src)))
    (Host.gather gather_S100000_S800000x1_S800000_n_0_n_n_0_1_1 dis (idxCol (fixIdx dst))) := rfl

def refAgg (xw : FVec F S100000x128 .f32) (dis : FVec F S100000 .f32) (b : FVec F S128 .f32) (src dst : IVec S800000 32) :
    FVec F S100000x128 .f32 :=
  addf (addf
    (Host.scatterAdd scatter_S100000x128_S800000x1_S800000x128_1_0_0_1 (broadcastInDim S100000x128 ![] bcast_S_S100000x128 zeroS)
      (idxCol dst)
      (mulf (Host.gather gather_S100000x128_S800000x1_S800000x128_1_0_n_n_0_1_1128 xw (idxCol (fixIdx src)))
        (edgeB (refNorm dis src dst))))
    (mulf xw (colB (mulf dis dis))))
    (rowB b)
theorem refAgg_def (xw : FVec F S100000x128 .f32) (dis : FVec F S100000 .f32) (b : FVec F S128 .f32) (src dst : IVec S800000 32) :
    refAgg xw dis b src dst =
  addf (addf
    (Host.scatterAdd scatter_S100000x128_S800000x1_S800000x128_1_0_0_1 (broadcastInDim S100000x128 ![] bcast_S_S100000x128 zeroS)
      (idxCol dst)
      (mulf (Host.gather gather_S100000x128_S800000x1_S800000x128_1_0_n_n_0_1_1128 xw (idxCol (fixIdx src)))
        (edgeB (refNorm dis src dst))))
    (mulf xw (colB (mulf dis dis))))
    (rowB b) := rfl

def refConv1 (h : FVec F S100000x256 .f32) (W : FVec F S256x128 .f32) (b : FVec F S128 .f32) (src dst : IVec S800000 32) :
    FVec F S100000x128 .f32 :=
  refAgg (Host.dotGeneral dot_S100000x256_S256x128_S100000x128_1_0_0_1_n_n none h W) (refDis dst) b src dst
theorem refConv1_def (h : FVec F S100000x256 .f32) (W : FVec F S256x128 .f32) (b : FVec F S128 .f32) (src dst : IVec S800000 32) :
    refConv1 h W b src dst =
  refAgg (Host.dotGeneral dot_S100000x256_S256x128_S100000x128_1_0_0_1_n_n none h W) (refDis dst) b src dst := rfl

def refConv (h : FVec F S100000x128 .f32) (W : FVec F S128x128 .f32) (b : FVec F S128 .f32) (src dst : IVec S800000 32) :
    FVec F S100000x128 .f32 :=
  refAgg (Host.dotGeneral dot_S100000x128_S128x128_S100000x128_1_0_0_1_n_n none h W) (refDis dst) b src dst
theorem refConv_def (h : FVec F S100000x128 .f32) (W : FVec F S128x128 .f32) (b : FVec F S128 .f32) (src dst : IVec S800000 32) :
    refConv h W b src dst =
  refAgg (Host.dotGeneral dot_S100000x128_S128x128_S100000x128_1_0_0_1_n_n none h W) (refDis dst) b src dst := rfl

def colSum (x : FVec F S100000x128 .f32) : FVec F S128 .f32 := Host.reduceAdd x zeroS reducesTo_S100000x128_S128_d0 h_S_
theorem colSum_def (x : FVec F S100000x128 .f32) : colSum x = Host.reduceAdd x zeroS reducesTo_S100000x128_S128_d0 h_S_ := rfl

def refMean (x : FVec F S100000x128 .f32) : FVec F S128 .f32 :=
  Host.divf (colSum x) (broadcastInDim S128 ![] bcast_S_S128 rowsS)
theorem refMean_def (x : FVec F S100000x128 .f32) : refMean x = Host.divf (colSum x) (broadcastInDim S128 ![] bcast_S_S128 rowsS) := rfl

def varDiv (ddof : IVec S_ 32) : FVec F S_ .f32 := subf rowsS (sitofp .f32 ddof)
theorem varDiv_def (ddof : IVec S_ 32) : varDiv (F := F) ddof = subf rowsS (sitofp .f32 ddof) := rfl

def varCen (x : FVec F S100000x128 .f32) : FVec F S100000x128 .f32 :=
  subf x (broadcastInDim S100000x128 ![0, 1] bcast_S1x128_S100000x128_0_1
    (Host.divf (broadcastInDim S1x128 ![1] bcast_S128_S1x128_1 (colSum x)) (broadcastInDim S1x128 ![] bcast_S_S1x128 rowsS)))
theorem varCen_def (x : FVec F S100000x128 .f32) : varCen x =
  subf x (broadcastInDim S100000x128 ![0, 1] bcast_S1x128_S100000x128_0_1
    (Host.divf (broadcastInDim S1x128 ![1] bcast_S128_S1x128_1 (colSum x)) (broadcastInDim S1x128 ![] bcast_S_S1x128 rowsS))) := rfl

def refVar (x : FVec F S100000x128 .f32) (ddof : IVec S_ 32) : FVec F S128 .f32 :=
  select (broadcastInDim S128 ![] bcast_S_S128 (cmpf .ogt (varDiv (F := F) ddof) zeroS))
    (Host.divf (colSum (mulf (varCen x) (varCen x))) (broadcastInDim S128 ![] bcast_S_S128 (varDiv ddof)))
    (broadcastInDim S128 ![] bcast_S_S128 nanS)
theorem refVar_def (x : FVec F S100000x128 .f32) (ddof : IVec S_ 32) : refVar x ddof =
  select (broadcastInDim S128 ![] bcast_S_S128 (cmpf .ogt (varDiv (F := F) ddof) zeroS))
    (Host.divf (colSum (mulf (varCen x) (varCen x))) (broadcastInDim S128 ![] bcast_S_S128 (varDiv ddof)))
    (broadcastInDim S128 ![] bcast_S_S128 nanS) := rfl

def refScale (pre : FVec F S100000x128 .f32) (g : FVec F S128 .f32) : FVec F S128 .f32 :=
  Host.divf g (Host.sqrt (addf (refVar pre (constantI S_ 32 0#32)) (broadcastInDim S128 ![] bcast_S_S128 epsS)))
theorem refScale_def (pre : FVec F S100000x128 .f32) (g : FVec F S128 .f32) : refScale pre g =
  Host.divf g (Host.sqrt (addf (refVar pre (constantI S_ 32 0#32)) (broadcastInDim S128 ![] bcast_S_S128 epsS))) := rfl

def refBn (pre : FVec F S100000x128 .f32) (g be : FVec F S128 .f32) : FVec F S100000x128 .f32 :=
  maximumf (addf (mulf (subf pre (rowB (refMean pre))) (rowB (refScale pre g))) (rowB be))
    (broadcastInDim S100000x128 ![] bcast_S_S100000x128 zeroS)
theorem refBn_def (pre : FVec F S100000x128 .f32) (g be : FVec F S128 .f32) : refBn pre g be =
  maximumf (addf (mulf (subf pre (rowB (refMean pre))) (rowB (refScale pre g))) (rowB be))
    (broadcastInDim S100000x128 ![] bcast_S_S100000x128 zeroS) := rfl

def refLin (h : FVec F S100000x128 .f32) (Wf : FVec F S128x1 .f32) (bf : FVec F S1 .f32) : FVec F S100000x1 .f32 :=
  addf (Host.dotGeneral dot_S100000x128_S128x1_S100000x1_1_0_0_1_n_n none h Wf)
    (broadcastInDim S100000x1 ![0, 1] bcast_S1x1_S100000x1_0_1 (broadcastInDim S1x1 ![1] bcast_S1_S1x1_1 bf))
theorem refLin_def (h : FVec F S100000x128 .f32) (Wf : FVec F S128x1 .f32) (bf : FVec F S1 .f32) : refLin h Wf bf =
  addf (Host.dotGeneral dot_S100000x128_S128x1_S100000x1_1_0_0_1_n_n none h Wf)
    (broadcastInDim S100000x1 ![0, 1] bcast_S1x1_S100000x1_0_1 (broadcastInDim S1x1 ![1] bcast_S1_S1x1_1 bf)) := rfl

def refH1 (x : FVec F S100000x256 .f32) (src dst : IVec S800000 32) (W1 : FVec F S256x128 .f32) (b1 g1 be1 : FVec F S128 .f32) :
    FVec F S100000x128 .f32 := refBn (refConv1 x W1 b1 src dst) g1 be1
theorem refH1_def (x : FVec F S100000x256 .f32) (src dst : IVec S800000 32) (W1 : FVec F S256x128 .f32) (b1 g1 be1 : FVec F S128 .f32) :
    refH1 x src dst W1 b1 g1 be1 = refBn (refConv1 x W1 b1 src dst) g1 be1 := rfl

def refH (h : FVec F S100000x128 .f32) (src dst : IVec S800000 32) (W : FVec F S128x128 .f32) (b g be : FVec F S128 .f32) :
    FVec F S100000x128 .f32 := refBn (refConv h W b src dst) g be
theorem refH_def (h : FVec F S100000x128 .f32) (src dst : IVec S800000 32) (W : FVec F S128x128 .f32) (b g be : FVec F S128 .f32) :
    refH h src dst W b g be = refBn (refConv h W b src dst) g be := rfl

def refOut (x : FVec F S100000x256 .f32) (src dst : IVec S800000 32)
    (W1 : FVec F S256x128 .f32) (b1 g1 be1 : FVec F S128 .f32)
    (W2 : FVec F S128x128 .f32) (b2 g2 be2 : FVec F S128 .f32)
    (W3 : FVec F S128x128 .f32) (b3 g3 be3 : FVec F S128 .f32)
    (Wf : FVec F S128x1 .f32) (bf : FVec F S1 .f32) : FVec F S100000x1 .f32 :=
  refLin (refH (refH (refH1 x src dst W1 b1 g1 be1) src dst W2 b2 g2 be2) src dst W3 b3 g3 be3) Wf bf
theorem refOut_def (x : FVec F S100000x256 .f32) (src dst : IVec S800000 32)
    (W1 : FVec F S256x128 .f32) (b1 g1 be1 : FVec F S128 .f32)
    (W2 : FVec F S128x128 .f32) (b2 g2 be2 : FVec F S128 .f32)
    (W3 : FVec F S128x128 .f32) (b3 g3 be3 : FVec F S128 .f32)
    (Wf : FVec F S128x1 .f32) (bf : FVec F S1 .f32) :
    refOut x src dst W1 b1 g1 be1 W2 b2 g2 be2 W3 b3 g3 be3 Wf bf =
  refLin (refH (refH (refH1 x src dst W1 b1 g1 be1) src dst W2 b2 g2 be2) src dst W3 b3 g3 be3) Wf bf := rfl

end Cert.ReferenceIdeal.Hand

end
-- ==== Proof.KI.ValM0.lean ====
import proofs.«113696_j26852135535044_1_alg».proof.Proof.KI.RegM0
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0] : Fin 2 → Nat) = fun _ => 0 := funext fun a => by fin_cases a <;> rfl

theorem lhs_blk0_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl

theorem lhs_blk0_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q

theorem rhs_blk0_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q

theorem rhs_blk0_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

theorem pay0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  simp only [matmul]
  rw [Ideal.matmul_constant_zero_apply, ← Equiv.sum_comp (contrEquiv1 dot_S5000x256_S256x128_S5000x128_1_0_0_1_n_n 256 rfl rfl).symm]
  refine Finset.sum_congr rfl fun k _ => ?_
  have hk := contrEquiv1_symm_val dot_S5000x256_S256x128_S5000x128_1_0_0_1_n_n 256 rfl rfl k
  have el : dot_S5000x256_S256x128_S5000x128_1_0_0_1_n_n.lhsIdx (ix2 p q) ((contrEquiv1 dot_S5000x256_S256x128_S5000x128_1_0_0_1_n_n 256 rfl rfl).symm k) = ix2 p k := funext fun a => Fin.ext (by
    match a with
    | ⟨0, _⟩ => exact lhs_blk0_0 _ _
    | ⟨1, _⟩ => exact (lhs_blk0_1 _ _).trans hk)
  have er : dot_S5000x256_S256x128_S5000x128_1_0_0_1_n_n.rhsIdx (ix2 p q) ((contrEquiv1 dot_S5000x256_S256x128_S5000x128_1_0_0_1_n_n 256 rfl rfl).symm k) = ix2 k q := funext fun a => Fin.ext (by
    match a with
    | ⟨0, _⟩ => exact (rhs_blk0_0 _ _).trans hk
    | ⟨1, _⟩ => exact rhs_blk0_1 _ _)
  rw [truncf_apply, truncf_apply, el, er]
  try simp only [shapeCast_self]

theorem lhs_all0_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 0).val = (i 0).val := by
  unfold DotDims.lhsIdx
  rw [dif_neg (show ¬(0 : Fin Cert.ReferenceIdeal.S100000x256.rank) ∈ Cert.ReferenceIdeal.dot_S100000x256_S256x128_S100000x128_1_0_0_1_n_n.lhsBatch by decide), dif_pos (show (0 : Fin Cert.ReferenceIdeal.S100000x256.rank) ∈ Cert.ReferenceIdeal.dot_S100000x256_S256x128_S100000x128_1_0_0_1_n_n.lhsNonContracting by decide)]
  rfl

theorem lhs_all0_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.lhsIdx i q 1).val = (q ⟨0, by decide⟩).val :=
  Cert.ReferenceIdeal.dot_S100000x256_S256x128_S100000x128_1_0_0_1_n_n.lhsIdx_val_of_single rfl i q

theorem rhs_all0_0 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 0).val = (q ⟨0, by decide⟩).val :=
  Cert.ReferenceIdeal.dot_S100000x256_S256x128_S100000x128_1_0_0_1_n_n.rhsIdx_val_of_single rfl i q

theorem rhs_all0_1 (i : Cert.ReferenceIdeal.S100000x128.Idx) (q : Cert.ReferenceIdeal.dot_S100000x256_S256x128_S100000x128_1_0_0_1_n_n.contr.Idx) :
    (Cert.ReferenceIdeal.dot_S100000x256_S256x128_S100000x128_1_0_0_1_n_n.rhsIdx i q 1).val = (i 1).val := by
  unfold DotDims.rhsIdx
  rw [dif_neg (show ¬(1 : Fin Cert.ReferenceIdeal.S256x128.rank) ∈ Cert.ReferenceIdeal.dot_S100000x256_S256x128_S100000x128_1_0_0_1_n_n.rhsBatch by decide), dif_pos (show (1 : Fin Cert.ReferenceIdeal.S256x128.rank) ∈ Cert.ReferenceIdeal.dot_S100000x256_S256x128_S100000x128_1_0_0_1_n_n.rhsNonContracting by decide)]
  rfl

theorem all0_apply (X : FVec Ideal S100000x256 .f32) (W : FVec Ideal S256x128 .f32) (r : Fin 100000) (q : Fin 128) :
    Host.dotGeneral (F := Ideal) (φ₁ := .f32) (φ₂ := .f32) Cert.ReferenceIdeal.dot_S100000x256_S256x128_S100000x128_1_0_0_1_n_n none X W (ix2 r q)
      = ∑ k : Fin 256, X (ix2 r k) * W (ix2 k q) := by
  simp only [Host.dotGeneral]
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  have hk := contrEquiv1_symm_val Cert.ReferenceIdeal.dot_S100000x256_S256x128_S100000x128_1_0_0_1_n_n 256 rfl rfl k
  have el : Cert.ReferenceIdeal.dot_S100000x256_S256x128_S100000x128_1_0_0_1_n_n.lhsIdx (ix2 r q) ((contrEquiv1 Cert.ReferenceIdeal.dot_S100000x256_S256x128_S100000x128_1_0_0_1_n_n 256 rfl rfl).symm k) = ix2 r k := funext fun a => Fin.ext (by
    match a with
    | ⟨0, _⟩ => exact lhs_all0_0 _ _
    | ⟨1, _⟩ => exact (lhs_all0_1 _ _).trans hk)
  have er : Cert.ReferenceIdeal.dot_S100000x256_S256x128_S100000x128_1_0_0_1_n_n.rhsIdx (ix2 r q) ((contrEquiv1 Cert.ReferenceIdeal.dot_S100000x256_S256x128_S100000x128_1_0_0_1_n_n 256 rfl rfl).symm k) = ix2 k q := funext fun a => Fin.ext (by
    match a with
    | ⟨0, _⟩ => exact (rhs_all0_0 _ _).trans hk
    | ⟨1, _⟩ => exact rhs_all0_1 _ _)
  rw [el, er]

theorem blk0_eq (X : FVec Ideal S100000x256 .f32) (W : FVec Ideal S256x128 .f32)
    (x0 : Vec Ideal S5000x256 .f32) (x1 : Vec Ideal S256x128 .f32) (n : ℕ)
    (hx0 : ∀ (p : Fin 5000) (k : Fin 256) (r : Fin 100000), r.val = 5000 * n + p.val → x0 (ix2 p k) = X (ix2 r k))
    (hx1 : ∀ (k : Fin 256) (q : Fin 128), x1 (ix2 k q) = W (ix2 k q))
    (y : S5000x128.Idx) (i : S100000x128.Idx) (hi0 : (i 0).val = 5000 * n + (y 0).val) (hi1 : (i 1).val = (y 1).val) :
    k0_pay1 x0 x1 y
      = Host.dotGeneral (F := Ideal) (φ₁ := .f32) (φ₂ := .f32) Cert.ReferenceIdeal.dot_S100000x256_S256x128_S100000x128_1_0_0_1_n_n none X W i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  rw [pay0_apply, all0_apply]
  exact Finset.sum_congr rfl fun k _ => by rw [hx0 p k r hi0, hx1]

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

abbrev G0_2 (c : Dev nD) : FVec Ideal S100000x128 .f32 :=
  Host.dotGeneral (F := Ideal) (φ₁ := .f32) (φ₂ := .f32) Cert.ReferenceIdeal.dot_S100000x256_S256x128_S100000x128_1_0_0_1_n_n none
    (V c (Pipeline.arrRef spec0 0) : FVec Ideal S100000x256 .f32) (V c (Pipeline.arrRef spec0 1) : FVec Ideal S256x128 .f32)

theorem flushed0_2_eq (c : Dev nD) (t : Fin cfg0.N) :
    (dat0 (F := Ideal) V c).flushed 2 t = ((cfg0.win 2).blk t).view.read (Elt Ideal) (G0_2 V c) := by
  show (cfg0.win 2).cut (grid0.coords t) ((dat0 (F := Ideal) V c).after 2 t) = _
  rw [after0_2]
  unfold out0_2
  rw [View.canon_unit_zero hz0]
  simp only [View.ld_unit_zero (S := S5000x256) hz0, View.ld_unit_zero (S := S256x128) hz0]
  obtain ⟨e0, e1, e2, e3, e4, e5⟩ := idx_facts0 t
  funext j
  show k0_pay1 (iblk0 V c 0 t) (iblk0 V c 1 t) j = G0_2 V c (((cfg0.win 2).blk t).view.emb j)
  refine blk0_eq _ _ _ _ t.val ?_ ?_ j _ ?_ ?_
  · intro p k r hr
    show V c (Pipeline.arrRef spec0 0) (((cfg0.win 0).blk t).view.emb (ix2 p k)) = V c (Pipeline.arrRef spec0 0) (ix2 r k)
    refine congrArg _ (funext fun a => Fin.ext ?_)
    match a with
    | ⟨0, _⟩ => show win0_0.index t (0 : Fin 2) * 5000 + 1 * p.val = r.val; omega
    | ⟨1, _⟩ => show win0_0.index t (1 : Fin 2) * 256 + 1 * k.val = k.val; omega
  · intro k q
    show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show win0_2.index t (0 : Fin 2) * 5000 + 1 * (j 0).val = 5000 * t.val + (j 0).val; omega
  · show win0_2.index t (1 : Fin 2) * 128 + 1 * (j 1).val = (j 1).val; omega

theorem mem_blk0_2 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v24).slice (win0_2.rect t)).set ↔ _
  rw [View.set_slice_whole, Rect.mem_set_unit]
  exact Iff.rfl

theorem cover0_2_arr (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  have ht : t.val = (i 0).val / 5000 := rfl
  obtain ⟨e0, e1, e2, e3, e4, e5⟩ := idx_facts0 t
  refine ⟨t, flush0_2 t, ?_⟩
  rw [mem_blk0_2]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem arrAt0_2 (c : Dev nD) :
    ((dat0 (F := Ideal) V c).arrAt 2 cfg0.N : FVec Ideal S100000x128 .f32)
      = Host.dotGeneral (F := Ideal) (φ₁ := .f32) (φ₂ := .f32) Cert.ReferenceIdeal.dot_S100000x256_S256x128_S100000x128_1_0_0_1_n_n none
          (V c (Pipeline.arrRef spec0 0) : FVec Ideal S100000x256 .f32) (V c (Pipeline.arrRef spec0 1) : FVec Ideal S256x128 .f32) :=
  (dat0 (F := Ideal) V c).arrAt_eq_of_cover 2 (G0_2 V c) (fun t _ => flushed0_2_eq V c t) cover0_2_arr

end Cert.KernelIdeal.Hand

end
-- ==== Proof.KI.ValB2.lean ====
import proofs.«113696_j26852135535044_1_alg».proof.Proof.KI.RegB2
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

abbrev b01 (v : FVec Ideal S1x128 .f32) : FVec Ideal S100000x128 .f32 :=
  broadcastInDim S100000x128 ![0, 1] Cert.ReferenceIdeal.Facts₀.bcast_S1x128_S100000x128_0_1 v

variable (V : (c : Dev nD) → (b : Ref sig .tc) → Buf (Elt Ideal) ((c : Thread nD τ).loc b))

theorem hz2 : (![0, 0] : Fin 2 → Nat) = fun _ => 0 := funext fun a => by fin_cases a <;> rfl

theorem pay2_apply (x0 : Vec Ideal S5000x128 .f32) (x1 x2 x3 : Vec Ideal S1x128 .f32) (p : Fin 5000) (q : Fin 128) :
    k2_pay1 x0 x1 x2 x3 (ix2 p q)
      = max ((x0 (ix2 p q) - x1 (ix2 (0 : Fin 1) q)) * x2 (ix2 (0 : Fin 1) q) + x3 (ix2 (0 : Fin 1) q)) (Ideal.ofBits .f32 0x00000000#32) := by
  unfold k2_pay1
  simp only [shapeCast_self]
  rw [maximumf_apply, addf_apply, mulf_apply, subf_apply, broadcastTo_1b_ab_apply, broadcastTo_1b_ab_apply, broadcastTo_1b_ab_apply]
  rfl

theorem all2_apply (X : FVec Ideal S100000x128 .f32) (m s b : FVec Ideal S1x128 .f32) (r : Fin 100000) (q : Fin 128) :
    (maximumf (addf (mulf (subf X (b01 m)) (b01 s)) (b01 b))
        (broadcastInDim S100000x128 ![] Cert.ReferenceIdeal.Facts₀.bcast_S_S100000x128 (constant (F := Ideal) S_ .f32 0x00000000#32)) : FVec Ideal S100000x128 .f32) (ix2 r q)
      = max ((X (ix2 r q) - m (ix2 (0 : Fin 1) q)) * s (ix2 (0 : Fin 1) q) + b (ix2 (0 : Fin 1) q)) (Ideal.ofBits .f32 0x00000000#32) := by
  unfold b01
  rw [maximumf_apply, addf_apply, mulf_apply, subf_apply, broadcastInDim_oneRow_apply, broadcastInDim_oneRow_apply, broadcastInDim_oneRow_apply,
    broadcastInDim_scalar_apply]
  rfl

theorem blk2_eq (X : FVec Ideal S100000x128 .f32) (m s b : FVec Ideal S1x128 .f32) (x0 : Vec Ideal S5000x128 .f32) (n : ℕ)
    (hx0 : ∀ (p : Fin 5000) (q : Fin 128) (r : Fin 100000), r.val = 5000 * n + p.val → x0 (ix2 p q) = X (ix2 r q))
    (y : S5000x128.Idx) (i : S100000x128.Idx) (hi0 : (i 0).val = 5000 * n + (y 0).val) (hi1 : (i 1).val = (y 1).val) :
    k2_pay1 x0 m s b y
      = (maximumf (addf (mulf (subf X (b01 m)) (b01 s)) (b01 b))
          (broadcastInDim S100000x128 ![] Cert.ReferenceIdeal.Facts₀.bcast_S_S100000x128 (constant (F := Ideal) S_ .f32 0x00000000#32)) : FVec Ideal S100000x128 .f32) i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext hi1
  rw [pay2_apply, all2_apply, hq, hx0 p q r hi0]

theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

abbrev G2_4 (c : Dev nD) : FVec Ideal S100000x128 .f32 :=
  maximumf (addf (mulf (subf (V c (Pipeline.arrRef spec2 0) : FVec Ideal S100000x128 .f32) (b01 (V c (Pipeline.arrRef spec2 1))))
      (b01 (V c (Pipeline.arrRef spec2 2)))) (b01 (V c (Pipeline.arrRef spec2 3))))
    (broadcastInDim S100000x128 ![] Cert.ReferenceIdeal.Facts₀.bcast_S_S100000x128 (constant (F := Ideal) S_ .f32 0x00000000#32))

theorem iblk2_1_eq (c : Dev nD) (t : Fin cfg2.N) : (iblk2 V c 1 t : Vec Ideal S1x128 .f32) = V c (Pipeline.arrRef spec2 1) := by
  obtain ⟨e0, e1, e2, e3, e4, e5, e6, e7, e8, e9⟩ := idx_facts2 t
  funext y
  show V c (Pipeline.arrRef spec2 1) (((cfg2.win 1).blk t).view.emb y) = V c (Pipeline.arrRef spec2 1) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

theorem iblk2_2_eq (c : Dev nD) (t : Fin cfg2.N) : (iblk2 V c 2 t : Vec Ideal S1x128 .f32) = V c (Pipeline.arrRef spec2 2) := by
  obtain ⟨e0, e1, e2, e3, e4, e5, e6, e7, e8, e9⟩ := idx_facts2 t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

theorem iblk2_3_eq (c : Dev nD) (t : Fin cfg2.N) : (iblk2 V c 3 t : Vec Ideal S1x128 .f32) = V c (Pipeline.arrRef spec2 3) := by
  obtain ⟨e0, e1, e2, e3, e4, e5, e6, e7, e8, e9⟩ := idx_facts2 t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

theorem flushed2_4_eq (c : Dev nD) (t : Fin cfg2.N) :
    (dat2 (F := Ideal) V c).flushed 4 t = ((cfg2.win 4).blk t).view.read (Elt Ideal) (G2_4 V c) := by
  show (cfg2.win 4).cut (grid2.coords t) ((dat2 (F := Ideal) V c).after 4 t) = _
  rw [after2_4]
  unfold out2_4
  rw [View.canon_unit_zero hz2]
  simp only [View.ld_unit_zero (S := S5000x128) hz2, View.ld_unit_zero (S := S1x128) hz2]
  rw [iblk2_1_eq, iblk2_2_eq, iblk2_3_eq]
  obtain ⟨e0, e1, e2, e3, e4, e5, e6, e7, e8, e9⟩ := idx_facts2 t
  funext j
  show k2_pay1 (iblk2 V c 0 t) (V c (Pipeline.arrRef spec2 1)) (V c (Pipeline.arrRef spec2 2)) (V c (Pipeline.arrRef spec2 3)) j
    = G2_4 V c (((cfg2.win 4).blk t).view.emb j)
  refine blk2_eq _ _ _ _ _ t.val ?_ j _ ?_ ?_
  · intro p q r hr
    show V c (Pipeline.arrRef spec2 0) (((cfg2.win 0).blk t).view.emb (ix2 p q)) = V c (Pipeline.arrRef spec2 0) (ix2 r q)
    refine congrArg _ (funext fun a => Fin.ext ?_)
    match a with
    | ⟨0, _⟩ => show win2_0.index t (0 : Fin 2) * 5000 + 1 * p.val = r.val; omega
    | ⟨1, _⟩ => show win2_0.index t (1 : Fin 2) * 128 + 1 * q.val = q.val; omega
  · show win2_4.index t (0 : Fin 2) * 5000 + 1 * (j 0).val = 5000 * t.val + (j 0).val; omega
  · show win2_4.index t (1 : Fin 2) * 128 + 1 * (j 1).val = (j 1).val; omega

theorem mem_blk2_4 (t : Fin cfg2.N) (i : S100000x128.Idx) :
    i ∈ ((cfg2.win 4).blk t).view.set ↔ ∀ a : Fin 2, win2_4.index t a * S5000x128.size a ≤ (i a).val ∧ (i a).val < win2_4.index t a * S5000x128.size a + S5000x128.size a := by
  show i ∈ ((View.whole main_v54).slice (win2_4.rect t)).set ↔ _
  rw [View.set_slice_whole, Rect.mem_set_unit]
  exact Iff.rfl

theorem cover2_4_arr (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  have ht : t.val = (i 0).val / 5000 := rfl
  obtain ⟨e0, e1, e2, e3, e4, e5, e6, e7, e8, e9⟩ := idx_facts2 t
  refine ⟨t, flush2_4 t, ?_⟩
  rw [mem_blk2_4]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 128 ≤ (i 1).val ∧ (i 1).val < win2_4.index t (1 : Fin 2) * 128 + 128; omega

theorem arrAt2_4 (c : Dev nD) :
    ((dat2 (F := Ideal) V c).arrAt 4 cfg2.N : FVec Ideal S100000x128 .f32)
      = maximumf (addf (mulf (subf (V c (Pipeline.arrRef spec2 0) : FVec Ideal S100000x128 .f32) (b01 (V c (Pipeline.arrRef spec2 1))))
            (b01 (V c (Pipeline.arrRef spec2 2)))) (b01 (V c (Pipeline.arrRef spec2 3))))
          (broadcastInDim S100000x128 ![] Cert.ReferenceIdeal.Facts₀.bcast_S_S100000x128 (constant (F := Ideal) S_ .f32 0x00000000#32)) :=
  (dat2 (F := Ideal) V c).arrAt_eq_of_cover 4 (G2_4 V c) (fun t _ => flushed2_4_eq V c t) cover2_4_arr

end Cert.KernelIdeal.Hand

end
-- ==== Proof.KI.ValM3.lean ====
import proofs.«113696_j26852135535044_1_alg».proof.Proof.KI.RegM3
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz3 : (![0, 0] : Fin 2 → Nat) = fun _ => 0 := funext fun a => by fin_cases a <;> rfl

theorem lhs_blk3_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_blk3_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q

theorem rhs_blk3_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q

theorem rhs_blk3_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem pay3_apply (x0 : Vec Ideal S5000x128 .f32) (x1 : Vec Ideal S128x128 .f32) (p : Fin 5000) (q : Fin 128) :
    k3_pay1 x0 x1 (ix2 p q) = ∑ k : Fin 128, x0 (ix2 p k) * x1 (ix2 k q) := by
  unfold k3_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blk3_0 _ _
    | ⟨1, _⟩ => exact (lhs_blk3_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blk3_0 _ _).trans hk
    | ⟨1, _⟩ => exact rhs_blk3_1 _ _)
  rw [truncf_apply, truncf_apply, el, er]
  try simp only [shapeCast_self]

theorem lhs_all3_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl

theorem lhs_all3_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q

theorem rhs_all3_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q

theorem rhs_all3_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

theorem all3_apply (X : FVec Ideal S100000x128 .f32) (W : FVec Ideal S128x128 .f32) (r : Fin 100000) (q : Fin 128) :
    Host.dotGeneral (F := Ideal) (φ₁ := .f32) (φ₂ := .f32) Cert.ReferenceIdeal.dot_S100000x128_S128x128_S100000x128_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact lhs_all3_0 _ _
    | ⟨1, _⟩ => exact (lhs_all3_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rhs_all3_0 _ _).trans hk
    | ⟨1, _⟩ => exact rhs_all3_1 _ _)
  rw [el, er]

theorem blk3_eq (X : FVec Ideal S100000x128 .f32) (W : FVec Ideal S128x128 .f32)
    (x0 : Vec Ideal S5000x128 .f32) (x1 : Vec Ideal S128x128 .f32) (n : ℕ)
    (hx0 : ∀ (p : Fin 5000) (k : Fin 128) (r : Fin 100000), r.val = 5000 * n + p.val → x0 (ix2 p k) = X (ix2 r k))
    (hx1 : ∀ (k : Fin 128) (q : Fin 128), x1 (ix2 k q) = W (ix2 k q))
    (y : S5000x128.Idx) (i : S100000x128.Idx) (hi0 : (i 0).val = 5000 * n + (y 0).val) (hi1 : (i 1).val = (y 1).val) :
    k3_pay1 x0 x1 y
      = Host.dotGeneral (F := Ideal) (φ₁ := .f32) (φ₂ := .f32) Cert.ReferenceIdeal.dot_S100000x128_S128x128_S100000x128_1_0_0_1_n_n none X W i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  rw [pay3_apply, all3_apply]
  exact Finset.sum_congr rfl fun k _ => by rw [hx0 p k r hi0, hx1]

theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

abbrev G3_2 (c : Dev nD) : FVec Ideal S100000x128 .f32 :=
  Host.dotGeneral (F := Ideal) (φ₁ := .f32) (φ₂ := .f32) Cert.ReferenceIdeal.dot_S100000x128_S128x128_S100000x128_1_0_0_1_n_n none
    (V c (Pipeline.arrRef spec3 0) : FVec Ideal S100000x128 .f32) (V c (Pipeline.arrRef spec3 1) : FVec Ideal S128x128 .f32)

theorem flushed3_2_eq (c : Dev nD) (t : Fin cfg3.N) :
    (dat3 (F := Ideal) V c).flushed 2 t = ((cfg3.win 2).blk t).view.read (Elt Ideal) (G3_2 V c) := by
  show (cfg3.win 2).cut (grid3.coords t) ((dat3 (F := Ideal) V c).after 2 t) = _
  rw [after3_2]
  unfold out3_2
  rw [View.canon_unit_zero hz3]
  simp only [View.ld_unit_zero (S := S5000x128) hz3, View.ld_unit_zero (S := S128x128) hz3]
  obtain ⟨e0, e1, e2, e3, e4, e5⟩ := idx_facts3 t
  funext j
  show k3_pay1 (iblk3 V c 0 t) (iblk3 V c 1 t) j = G3_2 V c (((cfg3.win 2).blk t).view.emb j)
  refine blk3_eq _ _ _ _ t.val ?_ ?_ j _ ?_ ?_
  · intro p k r hr
    show V c (Pipeline.arrRef spec3 0) (((cfg3.win 0).blk t).view.emb (ix2 p k)) = V c (Pipeline.arrRef spec3 0) (ix2 r k)
    refine congrArg _ (funext fun a => Fin.ext ?_)
    match a with
    | ⟨0, _⟩ => show win3_0.index t (0 : Fin 2) * 5000 + 1 * p.val = r.val; omega
    | ⟨1, _⟩ => show win3_0.index t (1 : Fin 2) * 128 + 1 * k.val = k.val; omega
  · intro k q
    show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  · show win3_2.index t (0 : Fin 2) * 5000 + 1 * (j 0).val = 5000 * t.val + (j 0).val; omega
  · show win3_2.index t (1 : Fin 2) * 128 + 1 * (j 1).val = (j 1).val; omega

theorem mem_blk3_2 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v55).slice (win3_2.rect t)).set ↔ _
  rw [View.set_slice_whole, Rect.mem_set_unit]
  exact Iff.rfl

theorem cover3_2_arr (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  let t : Fin cfg3.N := ⟨(i 0).val / 5000, by rw [hN]; omega⟩
  have ht : t.val = (i 0).val / 5000 := rfl
  obtain ⟨e0, e1, e2, e3, e4, e5⟩ := idx_facts3 t
  refine ⟨t, flush3_2 t, ?_⟩
  rw [mem_blk3_2]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

theorem arrAt3_2 (c : Dev nD) :
    ((dat3 (F := Ideal) V c).arrAt 2 cfg3.N : FVec Ideal S100000x128 .f32)
      = Host.dotGeneral (F := Ideal) (φ₁ := .f32) (φ₂ := .f32) Cert.ReferenceIdeal.dot_S100000x128_S128x128_S100000x128_1_0_0_1_n_n none
          (V c (Pipeline.arrRef spec3 0) : FVec Ideal S100000x128 .f32) (V c (Pipeline.arrRef spec3 1) : FVec Ideal S128x128 .f32) :=
  (dat3 (F := Ideal) V c).arrAt_eq_of_cover 2 (G3_2 V c) (fun t _ => flushed3_2_eq V c t) cover3_2_arr

end Cert.KernelIdeal.Hand

end
-- ==== Proof.KI.ValM6.lean ====
import proofs.«113696_j26852135535044_1_alg».proof.Proof.KI.ValM3
import proofs.«113696_j26852135535044_1_alg».proof.Proof.KI.RegM6
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

abbrev G6_2 (c : Dev nD) : FVec Ideal S100000x128 .f32 :=
  Host.dotGeneral (F := Ideal) (φ₁ := .f32) (φ₂ := .f32) Cert.ReferenceIdeal.dot_S100000x128_S128x128_S100000x128_1_0_0_1_n_n none
    (V c (Pipeline.arrRef spec6 0) : FVec Ideal S100000x128 .f32) (V c (Pipeline.arrRef spec6 1) : FVec Ideal S128x128 .f32)

theorem flushed6_2_eq (c : Dev nD) (t : Fin cfg6.N) :
    (dat6 (F := Ideal) V c).flushed 2 t = ((cfg6.win 2).blk t).view.read (Elt Ideal) (G6_2 V c) := by
  show (cfg6.win 2).cut (grid6.coords t) ((dat6 (F := Ideal) V c).after 2 t) = _
  rw [after6_2]
  unfold out6_2
  rw [View.canon_unit_zero hz3]
  simp only [View.ld_unit_zero (S := S5000x128) hz3, View.ld_unit_zero (S := S128x128) hz3]
  obtain ⟨e0, e1, e2, e3, e4, e5⟩ := idx_facts6 t
  funext j
  show k3_pay1 (iblk6 V c 0 t) (iblk6 V c 1 t) j = G6_2 V c (((cfg6.win 2).blk t).view.emb j)
  refine blk3_eq _ _ _ _ t.val ?_ ?_ j _ ?_ ?_
  · intro p k r hr
    show V c (Pipeline.arrRef spec6 0) (((cfg6.win 0).blk t).view.emb (ix2 p k)) = V c (Pipeline.arrRef spec6 0) (ix2 r k)
    refine congrArg _ (funext fun a => Fin.ext ?_)
    match a with
    | ⟨0, _⟩ => show win6_0.index t (0 : Fin 2) * 5000 + 1 * p.val = r.val; omega
    | ⟨1, _⟩ => show win6_0.index t (1 : Fin 2) * 128 + 1 * k.val = k.val; omega
  · intro k q
    show V c (Pipeline.arrRef spec6 1) (((cfg6.win 1).blk t).view.emb (ix2 k q)) = V c (Pipeline.arrRef spec6 1) (ix2 k q)
    refine congrArg _ (funext fun a => Fin.ext ?_)
    match a with
    | ⟨0, _⟩ => show win6_1.index t (0 : Fin 2) * 128 + 1 * k.val = k.val; omega
    | ⟨1, _⟩ => show win6_1.index t (1 : Fin 2) * 128 + 1 * q.val = q.val; omega
  · show win6_2.index t (0 : Fin 2) * 5000 + 1 * (j 0).val = 5000 * t.val + (j 0).val; omega
  · show win6_2.index t (1 : Fin 2) * 128 + 1 * (j 1).val = (j 1).val; omega

theorem mem_blk6_2 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v86).slice (win6_2.rect t)).set ↔ _
  rw [View.set_slice_whole, Rect.mem_set_unit]
  exact Iff.rfl

theorem cover6_2_arr (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  have hN : cfg6.N = 20 := N_6
  let t : Fin cfg6.N := ⟨(i 0).val / 5000, by rw [hN]; omega⟩
  have ht : t.val = (i 0).val / 5000 := rfl
  obtain ⟨e0, e1, e2, e3, e4, e5⟩ := idx_facts6 t
  refine ⟨t, flush6_2 t, ?_⟩
  rw [mem_blk6_2]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

theorem arrAt6_2 (c : Dev nD) :
    ((dat6 (F := Ideal) V c).arrAt 2 cfg6.N : FVec Ideal S100000x128 .f32)
      = Host.dotGeneral (F := Ideal) (φ₁ := .f32) (φ₂ := .f32) Cert.ReferenceIdeal.dot_S100000x128_S128x128_S100000x128_1_0_0_1_n_n none
          (V c (Pipeline.arrRef spec6 0) : FVec Ideal S100000x128 .f32) (V c (Pipeline.arrRef spec6 1) : FVec Ideal S128x128 .f32) :=
  (dat6 (F := Ideal) V c).arrAt_eq_of_cover 2 (G6_2 V c) (fun t _ => flushed6_2_eq V c t) cover6_2_arr

end Cert.KernelIdeal.Hand

end
-- ==== Proof.KI.ValM9.lean ====
import proofs.«113696_j26852135535044_1_alg».proof.Proof.KI.RegM9
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz9 : (![0, 0] : Fin 2 → Nat) = fun _ => 0 := funext fun a => by fin_cases a <;> rfl

theorem lhs_blk9_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl

theorem lhs_blk9_1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q

theorem rhs_blk9_0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q

theorem rhs_blk9_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

theorem pay9_apply (x0 : Vec Ideal S5000x128 .f32) (x1 : Vec Ideal S128x1 .f32) (p : Fin 5000) (q : Fin 1) :
    k9_pay1 x0 x1 (ix2 p q) = ∑ k : Fin 128, x0 (ix2 p k) * x1 (ix2 k q) := by
  unfold k9_pay1
  simp only [matmul]
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 p q) ((contrEquiv1 dot_S5000x128_S128x1_S5000x1_1_0_0_1_n_n 128 rfl rfl).symm k) = ix2 p k := funext fun a => Fin.ext (by
    match a with
    | ⟨0, _⟩ => exact lhs_blk9_0 _ _
    | ⟨1, _⟩ => exact (lhs_blk9_1 _ _).trans hk)
  have er : dot_S5000x128_S128x1_S5000x1_1_0_0_1_n_n.rhsIdx (ix2 p q) ((contrEquiv1 dot_S5000x128_S128x1_S5000x1_1_0_0_1_n_n 128 rfl rfl).symm k) = ix2 k q := funext fun a => Fin.ext (by
    match a with
    | ⟨0, _⟩ => exact (rhs_blk9_0 _ _).trans hk
    | ⟨1, _⟩ => exact rhs_blk9_1 _ _)
  rw [truncf_apply, truncf_apply, el, er]
  try simp only [shapeCast_self]

theorem lhs_all9_0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x1_S100000x1_1_0_0_1_n_n.lhsBatch by decide), dif_pos (show (0 : Fin Cert.ReferenceIdeal.S100000x128.rank) ∈ Cert.ReferenceIdeal.dot_S100000x128_S128x1_S100000x1_1_0_0_1_n_n.lhsNonContracting by decide)]
  rfl

theorem lhs_all9_1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.lhsIdx i q 1).val = (q ⟨0, by decide⟩).val :=
  Cert.ReferenceIdeal.dot_S100000x128_S128x1_S100000x1_1_0_0_1_n_n.lhsIdx_val_of_single rfl i q

theorem rhs_all9_0 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 0).val = (q ⟨0, by decide⟩).val :=
  Cert.ReferenceIdeal.dot_S100000x128_S128x1_S100000x1_1_0_0_1_n_n.rhsIdx_val_of_single rfl i q

theorem rhs_all9_1 (i : Cert.ReferenceIdeal.S100000x1.Idx) (q : Cert.ReferenceIdeal.dot_S100000x128_S128x1_S100000x1_1_0_0_1_n_n.contr.Idx) :
    (Cert.ReferenceIdeal.dot_S100000x128_S128x1_S100000x1_1_0_0_1_n_n.rhsIdx i q 1).val = (i 1).val := by
  unfold DotDims.rhsIdx
  rw [dif_neg (show ¬(1 : Fin Cert.ReferenceIdeal.S128x1.rank) ∈ Cert.ReferenceIdeal.dot_S100000x128_S128x1_S100000x1_1_0_0_1_n_n.rhsBatch by decide), dif_pos (show (1 : Fin Cert.ReferenceIdeal.S128x1.rank) ∈ Cert.ReferenceIdeal.dot_S100000x128_S128x1_S100000x1_1_0_0_1_n_n.rhsNonContracting by decide)]
  rfl

theorem all9_apply (X : FVec Ideal S100000x128 .f32) (W : FVec Ideal S128x1 .f32) (r : Fin 100000) (q : Fin 1) :
    Host.dotGeneral (F := Ideal) (φ₁ := .f32) (φ₂ := .f32) Cert.ReferenceIdeal.dot_S100000x128_S128x1_S100000x1_1_0_0_1_n_n none X W (ix2 r q)
      = ∑ k : Fin 128, X (ix2 r k) * W (ix2 k q) := by
  simp only [Host.dotGeneral]
  rw [Ideal.dotGeneral_apply, ← Equiv.sum_comp (contrEquiv1 Cert.ReferenceIdeal.dot_S100000x128_S128x1_S100000x1_1_0_0_1_n_n 128 rfl rfl).symm]
  refine Finset.sum_congr rfl fun k _ => ?_
  have hk := contrEquiv1_symm_val Cert.ReferenceIdeal.dot_S100000x128_S128x1_S100000x1_1_0_0_1_n_n 128 rfl rfl k
  have el : Cert.ReferenceIdeal.dot_S100000x128_S128x1_S100000x1_1_0_0_1_n_n.lhsIdx (ix2 r q) ((contrEquiv1 Cert.ReferenceIdeal.dot_S100000x128_S128x1_S100000x1_1_0_0_1_n_n 128 rfl rfl).symm k) = ix2 r k := funext fun a => Fin.ext (by
    match a with
    | ⟨0, _⟩ => exact lhs_all9_0 _ _
    | ⟨1, _⟩ => exact (lhs_all9_1 _ _).trans hk)
  have er : Cert.ReferenceIdeal.dot_S100000x128_S128x1_S100000x1_1_0_0_1_n_n.rhsIdx (ix2 r q) ((contrEquiv1 Cert.ReferenceIdeal.dot_S100000x128_S128x1_S100000x1_1_0_0_1_n_n 128 rfl rfl).symm k) = ix2 k q := funext fun a => Fin.ext (by
    match a with
    | ⟨0, _⟩ => exact (rhs_all9_0 _ _).trans hk
    | ⟨1, _⟩ => exact rhs_all9_1 _ _)
  rw [el, er]

theorem blk9_eq (X : FVec Ideal S100000x128 .f32) (W : FVec Ideal S128x1 .f32)
    (x0 : Vec Ideal S5000x128 .f32) (x1 : Vec Ideal S128x1 .f32) (n : ℕ)
    (hx0 : ∀ (p : Fin 5000) (k : Fin 128) (r : Fin 100000), r.val = 5000 * n + p.val → x0 (ix2 p k) = X (ix2 r k))
    (hx1 : ∀ (k : Fin 128) (q : Fin 1), x1 (ix2 k q) = W (ix2 k q))
    (y : S5000x1.Idx) (i : S100000x1.Idx) (hi0 : (i 0).val = 5000 * n + (y 0).val) (hi1 : (i 1).val = (y 1).val) :
    k9_pay1 x0 x1 y
      = Host.dotGeneral (F := Ideal) (φ₁ := .f32) (φ₂ := .f32) Cert.ReferenceIdeal.dot_S100000x128_S128x1_S100000x1_1_0_0_1_n_n none X W i := by
  obtain ⟨p, q, rfl⟩ : ∃ (p : Fin 5000) (q : Fin 1), y = ix2 p q := ⟨y 0, y 1, eq_ix2 y⟩
  obtain ⟨r, q', rfl⟩ : ∃ (r : Fin 100000) (q' : Fin 1), i = ix2 r q' := ⟨i 0, i 1, eq_ix2 i⟩
  obtain rfl : q' = q := Fin.ext hi1
  rw [pay9_apply, all9_apply]
  exact Finset.sum_congr rfl fun k _ => by rw [hx0 p k r hi0, hx1]

theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

abbrev G9_2 (c : Dev nD) : FVec Ideal S100000x1 .f32 :=
  Host.dotGeneral (F := Ideal) (φ₁ := .f32) (φ₂ := .f32) Cert.ReferenceIdeal.dot_S100000x128_S128x1_S100000x1_1_0_0_1_n_n none
    (V c (Pipeline.arrRef spec9 0) : FVec Ideal S100000x128 .f32) (V c (Pipeline.arrRef spec9 1) : FVec Ideal S128x1 .f32)

theorem flushed9_2_eq (c : Dev nD) (t : Fin cfg9.N) :
    (dat9 (F := Ideal) V c).flushed 2 t = ((cfg9.win 2).blk t).view.read (Elt Ideal) (G9_2 V c) := by
  show (cfg9.win 2).cut (grid9.coords t) ((dat9 (F := Ideal) V c).after 2 t) = _
  rw [after9_2]
  unfold out9_2
  rw [View.canon_unit_zero hz9]
  simp only [View.ld_unit_zero (S := S5000x128) hz9, View.ld_unit_zero (S := S128x1) hz9]
  obtain ⟨e0, e1, e2, e3, e4, e5⟩ := idx_facts9 t
  funext j
  show k9_pay1 (iblk9 V c 0 t) (iblk9 V c 1 t) j = G9_2 V c (((cfg9.win 2).blk t).view.emb j)
  refine blk9_eq _ _ _ _ t.val ?_ ?_ j _ ?_ ?_
  · intro p k r hr
    show V c (Pipeline.arrRef spec9 0) (((cfg9.win 0).blk t).view.emb (ix2 p k)) = V c (Pipeline.arrRef spec9 0) (ix2 r k)
    refine congrArg _ (funext fun a => Fin.ext ?_)
    match a with
    | ⟨0, _⟩ => show win9_0.index t (0 : Fin 2) * 5000 + 1 * p.val = r.val; omega
    | ⟨1, _⟩ => show win9_0.index t (1 : Fin 2) * 128 + 1 * k.val = k.val; omega
  · intro k q
    show V c (Pipeline.arrRef spec9 1) (((cfg9.win 1).blk t).view.emb (ix2 k q)) = V c (Pipeline.arrRef spec9 1) (ix2 k q)
    refine congrArg _ (funext fun a => Fin.ext ?_)
    match a with
    | ⟨0, _⟩ => show win9_1.index t (0 : Fin 2) * 128 + 1 * k.val = k.val; omega
    | ⟨1, _⟩ => show win9_1.index t (1 : Fin 2) * 1 + 1 * q.val = q.val; omega
  · show win9_2.index t (0 : Fin 2) * 5000 + 1 * (j 0).val = 5000 * t.val + (j 0).val; omega
  · show win9_2.index t (1 : Fin 2) * 1 + 1 * (j 1).val = (j 1).val; omega

theorem mem_blk9_2 (t : Fin cfg9.N) (i : S100000x1.Idx) :
    i ∈ ((cfg9.win 2).blk t).view.set ↔ ∀ a : Fin 2, win9_2.index t a * S5000x1.size a ≤ (i a).val ∧ (i a).val < win9_2.index t a * S5000x1.size a + S5000x1.size a := by
  show i ∈ ((View.whole main_v117).slice (win9_2.rect t)).set ↔ _
  rw [View.set_slice_whole, Rect.mem_set_unit]
  exact Iff.rfl

theorem cover9_2_arr (i : S100000x1.Idx) : ∃ t : Fin cfg9.N, (cfg9.win 2).flush t = true ∧ i ∈ ((cfg9.win 2).blk t).view.set := by
  have hi0 : (i 0).val < 100000 := (i 0).isLt
  have hi1 : (i 1).val < 1 := (i 1).isLt
  have hN : cfg9.N = 20 := N_9
  let t : Fin cfg9.N := ⟨(i 0).val / 5000, by rw [hN]; omega⟩
  have ht : t.val = (i 0).val / 5000 := rfl
  obtain ⟨e0, e1, e2, e3, e4, e5⟩ := idx_facts9 t
  refine ⟨t, flush9_2 t, ?_⟩
  rw [mem_blk9_2]
  intro a
  match a with
  | ⟨0, _⟩ => show win9_2.index t (0 : Fin 2) * 5000 ≤ (i 0).val ∧ (i 0).val < win9_2.index t (0 : Fin 2) * 5000 + 5000; omega
  | ⟨1, _⟩ => show win9_2.index t (1 : Fin 2) * 1 ≤ (i 1).val ∧ (i 1).val < win9_2.index t (1 : Fin 2) * 1 + 1; omega

theorem arrAt9_2 (c : Dev nD) :
    ((dat9 (F := Ideal) V c).arrAt 2 cfg9.N : FVec Ideal S100000x1 .f32)
      = Host.dotGeneral (F := Ideal) (φ₁ := .f32) (φ₂ := .f32) Cert.ReferenceIdeal.dot_S100000x128_S128x1_S100000x1_1_0_0_1_n_n none
          (V c (Pipeline.arrRef spec9 0) : FVec Ideal S100000x128 .f32) (V c (Pipeline.arrRef spec9 1) : FVec Ideal S128x1 .f32) :=
  (dat9 (F := Ideal) V c).arrAt_eq_of_cover 2 (G9_2 V c) (fun t _ => flushed9_2_eq V c t) cover9_2_arr

end Cert.KernelIdeal.Hand

end
-- ==== Proof.KI.ValB5.lean ====
import proofs.«113696_j26852135535044_1_alg».proof.Proof.KI.RegB5
import proofs.«113696_j26852135535044_1_alg».proof.Proof.KI.ValB2
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

abbrev G5_4 (c : Dev nD) : FVec Ideal S100000x128 .f32 :=
  maximumf (addf (mulf (subf (V c (Pipeline.arrRef spec5 0) : FVec Ideal S100000x128 .f32) (b01 (V c (Pipeline.arrRef spec5 1))))
      (b01 (V c (Pipeline.arrRef spec5 2)))) (b01 (V c (Pipeline.arrRef spec5 3))))
    (broadcastInDim S100000x128 ![] Cert.ReferenceIdeal.Facts₀.bcast_S_S100000x128 (constant (F := Ideal) S_ .f32 0x00000000#32))

theorem iblk5_1_eq (c : Dev nD) (t : Fin cfg5.N) : (iblk5 V c 1 t : Vec Ideal S1x128 .f32) = V c (Pipeline.arrRef spec5 1) := by
  obtain ⟨e0, e1, e2, e3, e4, e5, e6, e7, e8, e9⟩ := idx_facts5 t
  funext y
  show V c (Pipeline.arrRef spec5 1) (((cfg5.win 1).blk t).view.emb y) = V c (Pipeline.arrRef spec5 1) y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

theorem iblk5_2_eq (c : Dev nD) (t : Fin cfg5.N) : (iblk5 V c 2 t : Vec Ideal S1x128 .f32) = V c (Pipeline.arrRef spec5 2) := by
  obtain ⟨e0, e1, e2, e3, e4, e5, e6, e7, e8, e9⟩ := idx_facts5 t
  funext y
  show V c (Pipeline.arrRef spec5 2) (((cfg5.win 2).blk t).view.emb y) = V c (Pipeline.arrRef spec5 2) y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

theorem iblk5_3_eq (c : Dev nD) (t : Fin cfg5.N) : (iblk5 V c 3 t : Vec Ideal S1x128 .f32) = V c (Pipeline.arrRef spec5 3) := by
  obtain ⟨e0, e1, e2, e3, e4, e5, e6, e7, e8, e9⟩ := idx_facts5 t
  funext y
  show V c (Pipeline.arrRef spec5 3) (((cfg5.win 3).blk t).view.emb y) = V c (Pipeline.arrRef spec5 3) y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

theorem flushed5_4_eq (c : Dev nD) (t : Fin cfg5.N) :
    (dat5 (F := Ideal) V c).flushed 4 t = ((cfg5.win 4).blk t).view.read (Elt Ideal) (G5_4 V c) := by
  show (cfg5.win 4).cut (grid5.coords t) ((dat5 (F := Ideal) V c).after 4 t) = _
  rw [after5_4]
  unfold out5_4
  rw [View.canon_unit_zero hz2]
  simp only [View.ld_unit_zero (S := S5000x128) hz2, View.ld_unit_zero (S := S1x128) hz2]
  rw [iblk5_1_eq, iblk5_2_eq, iblk5_3_eq]
  obtain ⟨e0, e1, e2, e3, e4, e5, e6, e7, e8, e9⟩ := idx_facts5 t
  funext j
  show k2_pay1 (iblk5 V c 0 t) (V c (Pipeline.arrRef spec5 1)) (V c (Pipeline.arrRef spec5 2)) (V c (Pipeline.arrRef spec5 3)) j
    = G5_4 V c (((cfg5.win 4).blk t).view.emb j)
  refine blk2_eq _ _ _ _ _ t.val ?_ j _ ?_ ?_
  · intro p q r hr
    show V c (Pipeline.arrRef spec5 0) (((cfg5.win 0).blk t).view.emb (ix2 p q)) = V c (Pipeline.arrRef spec5 0) (ix2 r q)
    refine congrArg _ (funext fun a => Fin.ext ?_)
    match a with
    | ⟨0, _⟩ => show win5_0.index t (0 : Fin 2) * 5000 + 1 * p.val = r.val; omega
    | ⟨1, _⟩ => show win5_0.index t (1 : Fin 2) * 128 + 1 * q.val = q.val; omega
  · show win5_4.index t (0 : Fin 2) * 5000 + 1 * (j 0).val = 5000 * t.val + (j 0).val; omega
  · show win5_4.index t (1 : Fin 2) * 128 + 1 * (j 1).val = (j 1).val; omega

theorem mem_blk5_4 (t : Fin cfg5.N) (i : S100000x128.Idx) :
    i ∈ ((cfg5.win 4).blk t).view.set ↔ ∀ a : Fin 2, win5_4.index t a * S5000x128.size a ≤ (i a).val ∧ (i a).val < win5_4.index t a * S5000x128.size a + S5000x128.size a := by
  show i ∈ ((View.whole main_v85).slice (win5_4.rect t)).set ↔ _
  rw [View.set_slice_whole, Rect.mem_set_unit]
  exact Iff.rfl

theorem cover5_4_arr (i : S100000x128.Idx) : ∃ t : Fin cfg5.N, (cfg5.win 4).flush t = true ∧ i ∈ ((cfg5.win 4).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  have ht : t.val = (i 0).val / 5000 := rfl
  obtain ⟨e0, e1, e2, e3, e4, e5, e6, e7, e8, e9⟩ := idx_facts5 t
  refine ⟨t, flush5_4 t, ?_⟩
  rw [mem_blk5_4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 128 ≤ (i 1).val ∧ (i 1).val < win5_4.index t (1 : Fin 2) * 128 + 128; omega

theorem arrAt5_4 (c : Dev nD) :
    ((dat5 (F := Ideal) V c).arrAt 4 cfg5.N : FVec Ideal S100000x128 .f32)
      = maximumf (addf (mulf (subf (V c (Pipeline.arrRef spec5 0) : FVec Ideal S100000x128 .f32) (b01 (V c (Pipeline.arrRef spec5 1))))
            (b01 (V c (Pipeline.arrRef spec5 2)))) (b01 (V c (Pipeline.arrRef spec5 3))))
          (broadcastInDim S100000x128 ![] Cert.ReferenceIdeal.Facts₀.bcast_S_S100000x128 (constant (F := Ideal) S_ .f32 0x00000000#32)) :=
  (dat5 (F := Ideal) V c).arrAt_eq_of_cover 4 (G5_4 V c) (fun t _ => flushed5_4_eq V c t) cover5_4_arr

end Cert.KernelIdeal.Hand

end
-- ==== Proof.KI.ValB8.lean ====
import proofs.«113696_j26852135535044_1_alg».proof.Proof.KI.RegB8
import proofs.«113696_j26852135535044_1_alg».proof.Proof.KI.ValB2
import proofs.«113696_j26852135535044_1_alg».proof.ReferenceIdeal
import proofs.«113696_j26852135535044_1_alg».proof.Proof.Gen.ReferenceIdeal
import proofs.«113696_j26852135535044_1_alg».proof.Proof.Ref.Fns
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem idx_facts8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0 :=
  (by decide +kernel : ∀ t : Fin grid8.N, _)

abbrev G8_4 (c : Dev nD) : FVec Ideal S100000x128 .f32 :=
  maximumf (addf (mulf (subf (V c (Pipeline.arrRef spec8 0) : FVec Ideal S100000x128 .f32) (b01 (V c (Pipeline.arrRef spec8 1))))
      (b01 (V c (Pipeline.arrRef spec8 2)))) (b01 (V c (Pipeline.arrRef spec8 3))))
    (broadcastInDim S100000x128 ![] Cert.ReferenceIdeal.Facts₀.bcast_S_S100000x128 (constant (F := Ideal) S_ .f32 0x00000000#32))

theorem iblk8_1_eq (c : Dev nD) (t : Fin cfg8.N) : (iblk8 V c 1 t : Vec Ideal S1x128 .f32) = V c (Pipeline.arrRef spec8 1) := by
  obtain ⟨e0, e1, e2, e3, e4, e5, e6, e7, e8, e9⟩ := idx_facts8 t
  funext y
  show V c (Pipeline.arrRef spec8 1) (((cfg8.win 1).blk t).view.emb y) = V c (Pipeline.arrRef spec8 1) y
  refine congrArg _ (funext fun a => Fin.ext ?_)
  match a with
  | ⟨0, _⟩ => show win8_1.index t (0 : Fin 2) * 1 + 1 * (y 0).val = (y 0).val; omega
  | ⟨1, _⟩ => show win8_1.index t (1 : Fin 2) * 128 + 1 * (y 1).val = (y 1).val; omega

theorem iblk8_2_eq (c : Dev nD) (t : Fin cfg8.N) : (iblk8 V c 2 t : Vec Ideal S1x128 .f32) = V c (Pipeline.arrRef spec8 2) := by
  obtain ⟨e0, e1, e2, e3, e4, e5, e6, e7, e8, e9⟩ := idx_facts8 t
  funext y
  show V c (Pipeline.arrRef spec8 2) (((cfg8.win 2).blk t).view.emb y) = V c (Pipeline.arrRef spec8 2) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 128 + 1 * (y 1).val = (y 1).val; omega

theorem iblk8_3_eq (c : Dev nD) (t : Fin cfg8.N) : (iblk8 V c 3 t : Vec Ideal S1x128 .f32) = V c (Pipeline.arrRef spec8 3) := by
  obtain ⟨e0, e1, e2, e3, e4, e5, e6, e7, e8, e9⟩ := idx_facts8 t
  funext y
  show V c (Pipeline.arrRef spec8 3) (((cfg8.win 3).blk t).view.emb y) = V c (Pipeline.arrRef spec8 3) y
  refine congrArg _ (funext fun a => Fin.ext ?_)
  match a with
  | ⟨0, _⟩ => show win8_3.index t (0 : Fin 2) * 1 + 1 * (y 0).val = (y 0).val; omega
  | ⟨1, _⟩ => show win8_3.index t (1 : Fin 2) * 128 + 1 * (y 1).val = (y 1).val; omega

theorem flushed8_4_eq (c : Dev nD) (t : Fin cfg8.N) :
    (dat8 (F := Ideal) V c).flushed 4 t = ((cfg8.win 4).blk t).view.read (Elt Ideal) (G8_4 V c) := by
  show (cfg8.win 4).cut (grid8.coords t) ((dat8 (F := Ideal) V c).after 4 t) = _
  rw [after8_4]
  unfold out8_4
  rw [View.canon_unit_zero hz2]
  simp only [View.ld_unit_zero (S := S5000x128) hz2, View.ld_unit_zero (S := S1x128) hz2]
  rw [iblk8_1_eq, iblk8_2_eq, iblk8_3_eq]
  obtain ⟨e0, e1, e2, e3, e4, e5, e6, e7, e8, e9⟩ := idx_facts8 t
  funext j
  show k2_pay1 (iblk8 V c 0 t) (V c (Pipeline.arrRef spec8 1)) (V c (Pipeline.arrRef spec8 2)) (V c (Pipeline.arrRef spec8 3)) j
    = G8_4 V c (((cfg8.win 4).blk t).view.emb j)
  refine blk2_eq _ _ _ _ _ t.val ?_ j _ ?_ ?_
  · intro p q r hr
    show V c (Pipeline.arrRef spec8 0) (((cfg8.win 0).blk t).view.emb (ix2 p q)) = V c (Pipeline.arrRef spec8 0) (ix2 r q)
    refine congrArg _ (funext fun a => Fin.ext ?_)
    match a with
    | ⟨0, _⟩ => show win8_0.index t (0 : Fin 2) * 5000 + 1 * p.val = r.val; omega
    | ⟨1, _⟩ => show win8_0.index t (1 : Fin 2) * 128 + 1 * q.val = q.val; omega
  · show win8_4.index t (0 : Fin 2) * 5000 + 1 * (j 0).val = 5000 * t.val + (j 0).val; omega
  · show win8_4.index t (1 : Fin 2) * 128 + 1 * (j 1).val = (j 1).val; omega

theorem mem_blk8_4 (t : Fin cfg8.N) (i : S100000x128.Idx) :
    i ∈ ((cfg8.win 4).blk t).view.set ↔ ∀ a : Fin 2, win8_4.index t a * S5000x128.size a ≤ (i a).val ∧ (i a).val < win8_4.index t a * S5000x128.size a + S5000x128.size a := by
  show i ∈ ((View.whole main_v116).slice (win8_4.rect t)).set ↔ _
  rw [View.set_slice_whole, Rect.mem_set_unit]
  exact Iff.rfl

theorem cover8_4_arr (i : S100000x128.Idx) : ∃ t : Fin cfg8.N, (cfg8.win 4).flush t = true ∧ i ∈ ((cfg8.win 4).blk t).view.set := by
  have hi0 : (i 0).val < 100000 := (i 0).isLt
  have hi1 : (i 1).val < 128 := (i 1).isLt
  have hN : cfg8.N = 20 := N_8
  let t : Fin cfg8.N := ⟨(i 0).val / 5000, by rw [hN]; omega⟩
  have ht : t.val = (i 0).val / 5000 := rfl
  obtain ⟨e0, e1, e2, e3, e4, e5, e6, e7, e8, e9⟩ := idx_facts8 t
  refine ⟨t, flush8_4 t, ?_⟩
  rw [mem_blk8_4]
  intro a
  match a with
  | ⟨0, _⟩ => show win8_4.index t (0 : Fin 2) * 5000 ≤ (i 0).val ∧ (i 0).val < win8_4.index t (0 : Fin 2) * 5000 + 5000; omega
  | ⟨1, _⟩ => show win8_4.index t (1 : Fin 2) * 128 ≤ (i 1).val ∧ (i 1).val < win8_4.index t (1 : Fin 2) * 128 + 128; omega

theorem arrAt8_4 (c : Dev nD) :
    ((dat8 (F := Ideal) V c).arrAt 4 cfg8.N : FVec Ideal S100000x128 .f32)
      = maximumf (addf (mulf (subf (V c (Pipeline.arrRef spec8 0) : FVec Ideal S100000x128 .f32) (b01 (V c (Pipeline.arrRef spec8 1))))
            (b01 (V c (Pipeline.arrRef spec8 2)))) (b01 (V c (Pipeline.arrRef spec8 3))))
          (broadcastInDim S100000x128 ![] Cert.ReferenceIdeal.Facts₀.bcast_S_S100000x128 (constant (F := Ideal) S_ .f32 0x00000000#32)) :=
  (dat8 (F := Ideal) V c).arrAt_eq_of_cover 4 (G8_4 V c) (fun t _ => flushed8_4_eq V c t) cover8_4_arr

end Cert.KernelIdeal.Hand

end
-- ==== Proof.LibTile.lean ====
import Mathlib.Algebra.BigOperators.Fin
import Mathlib.Algebra.BigOperators.Intervals
import Mathlib.Logic.Equiv.Fin.Basic

namespace Cert.Hand.LibTile

variable {M : Type*} [AddCommMonoid M]

theorem tile_lt {m n N : ℕ} (h : m * n = N) {t p : ℕ} (ht : t < m) (hp : p < n) : n * t + p < N := by
  subst h
  calc n * t + p < n * t + n := Nat.add_lt_add_left hp _
    _ = n * (t + 1) := (Nat.mul_succ n t).symm
    _ ≤ n * m := Nat.mul_le_mul_left n ht
    _ = m * n := Nat.mul_comm n m

theorem sum_tiles {m n N : ℕ} (h : m * n = N) (f : Fin N → M) :
    ∑ t : Fin m, ∑ p : Fin n, f ⟨n * t.val + p.val, tile_lt h t.isLt p.isLt⟩ = ∑ r : Fin N, f r := by
  subst h
  rw [← Fintype.sum_prod_type (f := fun x : Fin m × Fin n => f ⟨n * x.1.val + x.2.val, tile_lt rfl x.1.isLt x.2.isLt⟩),
    ← Equiv.sum_comp finProdFinEquiv f]
  refine Finset.sum_congr rfl fun x _ => congrArg f (Fin.ext ?_)
  show n * x.1.val + x.2.val = x.2.val + n * x.1.val
  exact Nat.add_comm _ _

theorem acc_eq_sum_range {n : ℕ} (a : ℕ → M) (g : ℕ → Fin n → M) (m : ℕ)
    (h0 : a 0 = 0 + ∑ p : Fin n, g 0 p) (hs : ∀ k, k + 1 < m → a (k + 1) = a k + ∑ p : Fin n, g (k + 1) p) :
    ∀ k, k < m → a k = ∑ t ∈ Finset.range (k + 1), ∑ p : Fin n, g t p
  | 0, _ => by rw [h0, zero_add, Finset.sum_range_one]
  | k + 1, hk => by
    rw [hs k hk, acc_eq_sum_range a g m h0 hs k (Nat.lt_of_succ_lt hk), Finset.sum_range_succ _ (k + 1)]

theorem acc_last_eq_sum_fin {n : ℕ} (a : ℕ → M) (g : ℕ → Fin n → M) (m : ℕ) (hm : 0 < m)
    (h0 : a 0 = 0 + ∑ p : Fin n, g 0 p) (hs : ∀ k, k + 1 < m → a (k + 1) = a k + ∑ p : Fin n, g (k + 1) p) :
    a (m - 1) = ∑ t : Fin m, ∑ p : Fin n, g t.val p := by
  rw [acc_eq_sum_range a g m h0 hs (m - 1) (Nat.sub_lt hm Nat.one_pos), Nat.sub_add_cancel hm,
    Finset.sum_range fun t => ∑ p : Fin n, g t p]

theorem acc_last_eq_sum {m n N : ℕ} (h : m * n = N) (hm : 0 < m) (f : Fin N → M) (a : ℕ → M) (g : ℕ → Fin n → M)
    (hg : ∀ (t : ℕ) (ht : t < m) (p : Fin n), g t p = f ⟨n * t + p.val, tile_lt h ht p.isLt⟩)
    (h0 : a 0 = 0 + ∑ p : Fin n, g 0 p) (hs : ∀ k, k + 1 < m → a (k + 1) = a k + ∑ p : Fin n, g (k + 1) p) :
    a (m - 1) = ∑ r : Fin N, f r := by
  rw [acc_last_eq_sum_fin a g m hm h0 hs, ← sum_tiles h f]
  exact Finset.sum_congr rfl fun t _ => Finset.sum_congr rfl fun p _ => hg t.val t.isLt p

theorem row_lt {t p : ℕ} (ht : t < 20) (hp : p < 5000) : 5000 * t + p < 100000 := tile_lt (m := 20) (n := 5000) rfl ht hp

theorem sum_blocks (f : Fin 100000 → M) :
    ∑ t : Fin 20, ∑ p : Fin 5000, f ⟨5000 * t.val + p.val, row_lt t.isLt p.isLt⟩ = ∑ r : Fin 100000, f r :=
  sum_tiles (m := 20) (n := 5000) rfl f

theorem acc_blocks (f : Fin 100000 → M) (a : ℕ → M) (g : ℕ → Fin 5000 → M)
    (hg : ∀ (t : ℕ) (ht : t < 20) (p : Fin 5000), g t p = f ⟨5000 * t + p.val, row_lt ht p.isLt⟩)
    (h0 : a 0 = 0 + ∑ p : Fin 5000, g 0 p) (hs : ∀ k, k + 1 < 20 → a (k + 1) = a k + ∑ p : Fin 5000, g (k + 1) p) :
    a 19 = ∑ r : Fin 100000, f r :=
  acc_last_eq_sum (m := 20) (n := 5000) rfl (by decide) f a g hg h0 hs

end Cert.Hand.LibTile
-- ==== Proof.KI.ValC1.lean ====
import proofs.«113696_j26852135535044_1_alg».proof.Proof.KI.RegC1
import proofs.«113696_j26852135535044_1_alg».proof.ReferenceIdeal
import proofs.«113696_j26852135535044_1_alg».proof.Proof.Gen.ReferenceIdeal
import proofs.«113696_j26852135535044_1_alg».proof.Proof.Ref.Fns
import proofs.«113696_j26852135535044_1_alg».proof.Proof.LibTile
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

abbrev cb01 (v : FVec Ideal S1x128 .f32) : FVec Ideal S100000x128 .f32 :=
  broadcastInDim S100000x128 ![0, 1] Cert.ReferenceIdeal.Facts₀.bcast_S1x128_S100000x128_0_1 v

abbrev crow1 (v : FVec Ideal S128 .f32) : FVec Ideal S1x128 .f32 :=
  broadcastInDim S1x128 ![1] Cert.ReferenceIdeal.Facts₀.bcast_S128_S1x128_1 v

variable (V : (c : Dev nD) → (b : Ref sig .tc) → Buf (Elt Ideal) ((c : Thread nD τ).loc b))

def pre1All (c : Dev nD) : FVec Ideal S100000x128 .f32 :=
  addf (addf (V c (Pipeline.arrRef spec1 0)) (V c (Pipeline.arrRef spec1 1))) (cb01 (V c (Pipeline.arrRef spec1 2)))

theorem pay1_3_apply (x0 x1 : Vec Ideal S5000x128 .f32) (x2 : Vec Ideal S1x128 .f32) (p : Fin 5000) (q : Fin 128) :
    k1_pay3 x0 x1 x2 (ix2 p q) = (x0 (ix2 p q) + x1 (ix2 p q)) + x2 (ix2 (0 : Fin 1) q) := by
  unfold k1_pay3
  simp only [shapeCast_self]
  rw [addf_apply, addf_apply, broadcastTo_1b_ab_apply]

theorem all1_3_apply (X Y : FVec Ideal S100000x128 .f32) (B : FVec Ideal S1x128 .f32) (r : Fin 100000) (q : Fin 128) :
    (addf (addf X Y) (cb01 B) : FVec Ideal S100000x128 .f32) (ix2 r q) = (X (ix2 r q) + Y (ix2 r q)) + B (ix2 (0 : Fin 1) q) := by
  unfold cb01
  rw [addf_apply, addf_apply, broadcastInDim_oneRow_apply]

theorem colsum_blk1 (src : FVec Ideal S5000x128 .f32) (hφ : FKind.Formats .f32)
    (hacc : (0x00000000#32 : BitVec FTy.f32.bits) = FKind.add.neutral .f32 hφ) (q : Fin 128) :
    multiReduction .add [0] S128 src 0x00000000#32 reduces_S5000x128_S128 hφ hacc (ix1 q) = ∑ p : Fin 5000, src (ix2 p q) := by
  refine (Ideal.multiReduction_add_single src 0x00000000#32 reduces_S5000x128_S128 hφ hacc (ix1 q)).trans ?_
  refine Finset.sum_congr rfl fun p _ => congrArg src (funext fun a => Fin.ext ?_)
  match a with
  | ⟨0, _⟩ => rfl
  | ⟨1, _⟩ => rfl

theorem cast_row1 (v : FVec Ideal S128 .f32) (q : Fin 128) :
    shapeCast S1x128 v shapeCasts_S128_S1x128 (ix2 (0 : Fin 1) q) = v (ix1 q) := by
  refine shapeCast_apply v shapeCasts_S128_S1x128 (ix2 (0 : Fin 1) q) (ix1 q) ?_
  rw [Shape.rowMajor_val_one, Shape.rowMajor_val_two]
  show q.val = 0 * 128 + q.val
  omega

theorem pay1_1_apply (q : Fin 128) : (k1_pay1 (F := Ideal)) (ix2 (0 : Fin 1) q) = 0 := by
  unfold k1_pay1
  simp only [shapeCast_self]
  show Ideal.ofBits .f32 0x00000000#32 = 0
  exact Ideal.ofBits_zero_f32
theorem pay1_2_apply (q : Fin 128) : (k1_pay2 (F := Ideal)) (ix2 (0 : Fin 1) q) = 0 := by
  unfold k1_pay2
  simp only [shapeCast_self]
  show Ideal.ofBits .f32 0x00000000#32 = 0
  exact Ideal.ofBits_zero_f32

theorem pay1_4_apply (x0 x1 : Vec Ideal S5000x128 .f32) (x2 acc : Vec Ideal S1x128 .f32) (q : Fin 128) :
    k1_pay4 x0 x1 x2 acc (ix2 (0 : Fin 1) q) = acc (ix2 (0 : Fin 1) q) + ∑ p : Fin 5000, k1_pay3 x0 x1 x2 (ix2 p q) := by
  unfold k1_pay4
  simp only [shapeCast_self]
  rw [addf_apply, cast_row1]
  exact congrArg (acc (ix2 (0 : Fin 1) q) + ·) (colsum_blk1 _ _ _ q)

theorem pay1_5_apply (x0 x1 : Vec Ideal S5000x128 .f32) (x2 acc : Vec Ideal S1x128 .f32) (q : Fin 128) :
    k1_pay5 x0 x1 x2 acc (ix2 (0 : Fin 1) q)
      = acc (ix2 (0 : Fin 1) q) + ∑ p : Fin 5000, k1_pay3 x0 x1 x2 (ix2 p q) * k1_pay3 x0 x1 x2 (ix2 p q) := by
  unfold k1_pay5
  simp only [shapeCast_self]
  rw [addf_apply, cast_row1]
  exact congrArg (acc (ix2 (0 : Fin 1) q) + ·) (colsum_blk1 _ _ _ q)

theorem colSum_row_apply (X : FVec Ideal S100000x128 .f32) (q : Fin 128) :
    crow1 (Cert.ReferenceIdeal.Hand.colSum X) (ix2 (0 : Fin 1) q) = ∑ r : Fin 100000, X (ix2 r q) := by
  have hred : Cert.ReferenceIdeal.S100000x128.Reduces [0] Cert.ReferenceIdeal.S128 := by decide
  unfold crow1
  rw [broadcastInDim_apply ![1] _ _ (ix2 (0 : Fin 1) q) (ix1 q) (fun a => by
    match a with
    | ⟨0, _⟩ => show q.val = if (128 : ℕ) = 1 then 0 else q.val; rfl)]
  rw [Cert.ReferenceIdeal.Hand.colSum_def, hostReduceAdd_apply, Ideal.hostReduceAdd_single _ hred]
  show Ideal.ofBits .f32 0x00000000#32 + _ = _
  rw [Ideal.ofBits_zero_f32, zero_add]
  refine Finset.sum_congr rfl fun r _ => congrArg X (funext fun a => Fin.ext ?_)
  match a with
  | ⟨0, _⟩ => rfl
  | ⟨1, _⟩ => rfl

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem blk1_3_eq (X Y : FVec Ideal S100000x128 .f32) (B : FVec Ideal S1x128 .f32) (x0 x1 : Vec Ideal S5000x128 .f32)
    (x2 : Vec Ideal S1x128 .f32) (p : Fin 5000) (q : Fin 128) (r : Fin 100000)
    (h0 : x0 (ix2 p q) = X (ix2 r q)) (h1 : x1 (ix2 p q) = Y (ix2 r q)) (h2 : x2 (ix2 (0 : Fin 1) q) = B (ix2 (0 : Fin 1) q)) :
    k1_pay3 x0 x1 x2 (ix2 p q) = (addf (addf X Y) (cb01 B) : FVec Ideal S100000x128 .f32) (ix2 r q) := by
  rw [pay1_3_apply, all1_3_apply, h0, h1, h2]

theorem pre1_apply (c : Dev nD) (t : Fin cfg1.N) (p : Fin 5000) (q : Fin 128) (r : Fin 100000) (hr : r.val = 5000 * t.val + p.val) :
    (pre1 V c t : Vec Ideal S5000x128 .f32) (ix2 p q) = pre1All V c (ix2 r q) := by
  obtain ⟨e0, e1, e2, e3, e4, e5, e6, e7, e8, e9, e10, e11⟩ := idx_facts1 t
  show k1_pay3 (iblk1 V c 0 t) (iblk1 V c 1 t) (iblk1 V c 2 t) (ix2 p q)
    = (addf (addf (V c (Pipeline.arrRef spec1 0)) (V c (Pipeline.arrRef spec1 1))) (cb01 (V c (Pipeline.arrRef spec1 2))) : FVec Ideal S100000x128 .f32) (ix2 r q)
  refine blk1_3_eq _ _ _ _ _ _ p q r ?_ ?_ ?_
  · show V c (Pipeline.arrRef spec1 0) (((cfg1.win 0).blk t).view.emb (ix2 p q)) = V c (Pipeline.arrRef spec1 0) (ix2 r q)
    refine congrArg _ (funext fun a => Fin.ext ?_)
    match a with
    | ⟨0, _⟩ => show win1_0.index t (0 : Fin 2) * 5000 + 1 * p.val = r.val; omega
    | ⟨1, _⟩ => show win1_0.index t (1 : Fin 2) * 128 + 1 * q.val = q.val; omega
  · show V c (Pipeline.arrRef spec1 1) (((cfg1.win 1).blk t).view.emb (ix2 p q)) = V c (Pipeline.arrRef spec1 1) (ix2 r q)
    refine congrArg _ (funext fun a => Fin.ext ?_)
    match a with
    | ⟨0, _⟩ => show win1_1.index t (0 : Fin 2) * 5000 + 1 * p.val = r.val; omega
    | ⟨1, _⟩ => show win1_1.index t (1 : Fin 2) * 128 + 1 * q.val = q.val; omega
  · show V c (Pipeline.arrRef spec1 2) (((cfg1.win 2).blk t).view.emb (ix2 (0 : Fin 1) q)) = V c (Pipeline.arrRef spec1 2) (ix2 (0 : Fin 1) q)
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega

theorem pre1_idx (c : Dev nD) (t : Fin cfg1.N) (y : S5000x128.Idx) (i : S100000x128.Idx)
    (hi0 : (i 0).val = 5000 * t.val + (y 0).val) (hi1 : (i 1).val = (y 1).val) :
    (pre1 V c t : Vec Ideal S5000x128 .f32) y = pre1All V c i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext hi1
  rw [hq]
  exact pre1_apply V c t p q r hi0

theorem flushed1_3_eq (c : Dev nD) (t : Fin cfg1.N) :
    (dat1 (F := Ideal) V c).flushed 3 t = ((cfg1.win 3).blk t).view.read (Elt Ideal) (pre1All V c) := by
  show (cfg1.win 3).cut (grid1.coords t) ((dat1 (F := Ideal) V c).after 3 t) = _
  rw [after1_3_val]
  obtain ⟨e0, e1, e2, e3, e4, e5, e6, e7, e8, e9, e10, e11⟩ := idx_facts1 t
  funext j
  show pre1 V c t j = pre1All V c (((cfg1.win 3).blk t).view.emb j)
  refine pre1_idx V c t j _ ?_ ?_
  · show win1_3.index t (0 : Fin 2) * 5000 + 1 * (j 0).val = 5000 * t.val + (j 0).val; omega
  · show win1_3.index t (1 : Fin 2) * 128 + 1 * (j 1).val = (j 1).val; omega

theorem mem_blk1_3 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v41_0).slice (win1_3.rect t)).set ↔ _
  rw [View.set_slice_whole, Rect.mem_set_unit]
  exact Iff.rfl

theorem cover1_3_arr (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  have ht : t.val = (i 0).val / 5000 := rfl
  obtain ⟨e0, e1, e2, e3, e4, e5, e6, e7, e8, e9, e10, e11⟩ := idx_facts1 t
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

theorem arrAt1_3 (c : Dev nD) : ((dat1 (F := Ideal) V c).arrAt 3 cfg1.N : FVec Ideal S100000x128 .f32) = pre1All V c :=
  (dat1 (F := Ideal) V c).arrAt_eq_of_cover 3 (pre1All V c) (fun t _ => flushed1_3_eq V c t) cover1_3_arr

theorem accS1_last (c : Dev nD) (q : Fin 128) :
    (accS1 V c 19 : Vec Ideal S1x128 .f32) (ix2 (0 : Fin 1) q) = crow1 (Cert.ReferenceIdeal.Hand.colSum (pre1All V c)) (ix2 (0 : Fin 1) q) := by
  rw [colSum_row_apply]
  refine Cert.Hand.LibTile.acc_blocks (fun r => pre1All V c (ix2 r q)) (fun n => (accS1 V c n : Vec Ideal S1x128 .f32) (ix2 (0 : Fin 1) q))
    (fun n p => (pre1 V c (pt1 n) : Vec Ideal S5000x128 .f32) (ix2 p q)) ?_ ?_ ?_
  · intro t ht p
    exact pre1_apply V c (pt1 t) p q _ (by show 5000 * t + p.val = 5000 * (t % 20) + p.val; rw [Nat.mod_eq_of_lt ht])
  · refine (pay1_4_apply (iblk1 V c 0 (pt1 0)) (iblk1 V c 1 (pt1 0)) (iblk1 V c 2 (pt1 0)) (k1_pay1 (F := Ideal)) q).trans ?_
    rw [pay1_1_apply]; rfl
  · intro k hk
    exact pay1_4_apply (iblk1 V c 0 (pt1 (k + 1))) (iblk1 V c 1 (pt1 (k + 1))) (iblk1 V c 2 (pt1 (k + 1))) (accS1 V c k) q

theorem accQ1_last (c : Dev nD) (q : Fin 128) :
    (accQ1 V c 19 : Vec Ideal S1x128 .f32) (ix2 (0 : Fin 1) q)
      = crow1 (Cert.ReferenceIdeal.Hand.colSum (mulf (pre1All V c) (pre1All V c))) (ix2 (0 : Fin 1) q) := by
  rw [colSum_row_apply]
  refine Cert.Hand.LibTile.acc_blocks (fun r => pre1All V c (ix2 r q) * pre1All V c (ix2 r q)) (fun n => (accQ1 V c n : Vec Ideal S1x128 .f32) (ix2 (0 : Fin 1) q))
    (fun n p => (pre1 V c (pt1 n) : Vec Ideal S5000x128 .f32) (ix2 p q) * (pre1 V c (pt1 n) : Vec Ideal S5000x128 .f32) (ix2 p q)) ?_ ?_ ?_
  · intro t ht p
    have e := pre1_apply V c (pt1 t) p q ⟨5000 * t + p.val, Cert.Hand.LibTile.row_lt ht p.isLt⟩ (by show 5000 * t + p.val = 5000 * (t % 20) + p.val; rw [Nat.mod_eq_of_lt ht])
    show (pre1 V c (pt1 t) : Vec Ideal S5000x128 .f32) (ix2 p q) * (pre1 V c (pt1 t) : Vec Ideal S5000x128 .f32) (ix2 p q) = _
    rw [e]
  · refine (pay1_5_apply (iblk1 V c 0 (pt1 0)) (iblk1 V c 1 (pt1 0)) (iblk1 V c 2 (pt1 0)) (k1_pay2 (F := Ideal)) q).trans ?_
    rw [pay1_2_apply]; rfl
  · intro k hk
    exact pay1_5_apply (iblk1 V c 0 (pt1 (k + 1))) (iblk1 V c 1 (pt1 (k + 1))) (iblk1 V c 2 (pt1 (k + 1))) (accQ1 V c k) q

theorem row_idx1 (A B : Vec Ideal S1x128 .f32) (h : ∀ q : Fin 128, A (ix2 (0 : Fin 1) q) = B (ix2 (0 : Fin 1) q))
    (y i : S1x128.Idx) (hi0 : (i 0).val = (y 0).val) (hi1 : (i 1).val = (y 1).val) : A y = B i := by
  obtain ⟨z, q, rfl⟩ : ∃ (z : Fin 1) (q : Fin 128), y = ix2 z q := ⟨y 0, y 1, eq_ix2 y⟩
  obtain ⟨z', q', rfl⟩ : ∃ (z' : Fin 1) (q' : Fin 128), i = ix2 z' q' := ⟨i 0, i 1, eq_ix2 i⟩
  have hq : q' = q := Fin.ext hi1
  have hz : z = 0 := Fin.ext (by have := z.isLt; omega)
  have hz' : z' = 0 := Fin.ext (by have := z'.isLt; omega)
  rw [hq, hz, hz']
  exact h q

theorem flushed1_4_eq (c : Dev nD) (t : Fin cfg1.N) (hf : (cfg1.win 4).flush t = true) :
    (dat1 (F := Ideal) V c).flushed 4 t = ((cfg1.win 4).blk t).view.read (Elt Ideal) (crow1 (Cert.ReferenceIdeal.Hand.colSum (pre1All V c))) := by
  have hN : cfg1.N = 20 := N_1
  have h19 : t.val = 19 := by have := (flush1_4 t).mp hf; have := t.isLt; omega
  show (cfg1.win 4).cut (grid1.coords t) ((dat1 (F := Ideal) V c).after 4 t) = _
  rw [after1_4_val V c t h19]
  obtain ⟨e0, e1, e2, e3, e4, e5, e6, e7, e8, e9, e10, e11⟩ := idx_facts1 t
  funext j
  show accS1 V c 19 j = crow1 (Cert.ReferenceIdeal.Hand.colSum (pre1All V c)) (((cfg1.win 4).blk t).view.emb j)
  refine row_idx1 _ _ (accS1_last V c) j _ ?_ ?_
  · show win1_4.index t (0 : Fin 2) * 1 + 1 * (j 0).val = (j 0).val; omega
  · show win1_4.index t (1 : Fin 2) * 128 + 1 * (j 1).val = (j 1).val; omega

theorem flushed1_5_eq (c : Dev nD) (t : Fin cfg1.N) (hf : (cfg1.win 5).flush t = true) :
    (dat1 (F := Ideal) V c).flushed 5 t
      = ((cfg1.win 5).blk t).view.read (Elt Ideal) (crow1 (Cert.ReferenceIdeal.Hand.colSum (mulf (pre1All V c) (pre1All V c)))) := by
  have hN : cfg1.N = 20 := N_1
  have h19 : t.val = 19 := by have := (flush1_5 t).mp hf; have := t.isLt; omega
  show (cfg1.win 5).cut (grid1.coords t) ((dat1 (F := Ideal) V c).after 5 t) = _
  rw [after1_5_val V c t h19]
  obtain ⟨e0, e1, e2, e3, e4, e5, e6, e7, e8, e9, e10, e11⟩ := idx_facts1 t
  funext j
  show accQ1 V c 19 j = crow1 (Cert.ReferenceIdeal.Hand.colSum (mulf (pre1All V c) (pre1All V c))) (((cfg1.win 5).blk t).view.emb j)
  refine row_idx1 _ _ (accQ1_last V c) j _ ?_ ?_
  · show win1_5.index t (0 : Fin 2) * 1 + 1 * (j 0).val = (j 0).val; omega
  · show win1_5.index t (1 : Fin 2) * 128 + 1 * (j 1).val = (j 1).val; omega

def tLast1 : Fin cfg1.N := ⟨19, by rw [show cfg1.N = 20 from N_1]; decide⟩

theorem mem_blk1_4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v41_1).slice (win1_4.rect t)).set ↔ _
  rw [View.set_slice_whole, Rect.mem_set_unit]
  exact Iff.rfl
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v41_2).slice (win1_5.rect t)).set ↔ _
  rw [View.set_slice_whole, Rect.mem_set_unit]
  exact Iff.rfl

theorem cover1_4_arr (i : S1x128.Idx) : ∃ t : Fin cfg1.N, (cfg1.win 4).flush t = true ∧ i ∈ ((cfg1.win 4).blk t).view.set := by
  have hi0 : (i 0).val < 1 := (i 0).isLt
  have hi1 : (i 1).val < 128 := (i 1).isLt
  obtain ⟨e0, e1, e2, e3, e4, e5, e6, e7, e8, e9, e10, e11⟩ := idx_facts1 tLast1
  refine ⟨tLast1, (flush1_4 tLast1).mpr rfl, ?_⟩
  rw [mem_blk1_4]
  intro a
  match a with
  | ⟨0, _⟩ => show win1_4.index tLast1 (0 : Fin 2) * 1 ≤ (i 0).val ∧ (i 0).val < win1_4.index tLast1 (0 : Fin 2) * 1 + 1; omega
  | ⟨1, _⟩ => show win1_4.index tLast1 (1 : Fin 2) * 128 ≤ (i 1).val ∧ (i 1).val < win1_4.index tLast1 (1 : Fin 2) * 128 + 128; omega
theorem cover1_5_arr (i : S1x128.Idx) : ∃ t : Fin cfg1.N, (cfg1.win 5).flush t = true ∧ i ∈ ((cfg1.win 5).blk t).view.set := by
  have hi0 : (i 0).val < 1 := (i 0).isLt
  have hi1 : (i 1).val < 128 := (i 1).isLt
  obtain ⟨e0, e1, e2, e3, e4, e5, e6, e7, e8, e9, e10, e11⟩ := idx_facts1 tLast1
  refine ⟨tLast1, (flush1_5 tLast1).mpr rfl, ?_⟩
  rw [mem_blk1_5]
  intro a
  match a with
  | ⟨0, _⟩ => show win1_5.index tLast1 (0 : Fin 2) * 1 ≤ (i 0).val ∧ (i 0).val < win1_5.index tLast1 (0 : Fin 2) * 1 + 1; omega
  | ⟨1, _⟩ => show win1_5.index tLast1 (1 : Fin 2) * 128 ≤ (i 1).val ∧ (i 1).val < win1_5.index tLast1 (1 : Fin 2) * 128 + 128; omega

theorem arrAt1_4 (c : Dev nD) : ((dat1 (F := Ideal) V c).arrAt 4 cfg1.N : FVec Ideal S1x128 .f32) = crow1 (Cert.ReferenceIdeal.Hand.colSum (pre1All V c)) :=
  (dat1 (F := Ideal) V c).arrAt_eq_of_cover 4 (crow1 (Cert.ReferenceIdeal.Hand.colSum (pre1All V c))) (flushed1_4_eq V c) cover1_4_arr

theorem arrAt1_5 (c : Dev nD) : ((dat1 (F := Ideal) V c).arrAt 5 cfg1.N : FVec Ideal S1x128 .f32) = crow1 (Cert.ReferenceIdeal.Hand.colSum (mulf (pre1All V c) (pre1All V c))) :=
  (dat1 (F := Ideal) V c).arrAt_eq_of_cover 5 (crow1 (Cert.ReferenceIdeal.Hand.colSum (mulf (pre1All V c) (pre1All V c)))) (flushed1_5_eq V c) cover1_5_arr

end Cert.KernelIdeal.Hand

end
-- ==== Proof.KI.ValC4.lean ====
import proofs.«113696_j26852135535044_1_alg».proof.Proof.KI.RegC4
import proofs.«113696_j26852135535044_1_alg».proof.Proof.KI.ValC1
import proofs.«113696_j26852135535044_1_alg».proof.ReferenceIdeal
import proofs.«113696_j26852135535044_1_alg».proof.Proof.Gen.ReferenceIdeal
import proofs.«113696_j26852135535044_1_alg».proof.Proof.Ref.Fns
import proofs.«113696_j26852135535044_1_alg».proof.Proof.LibTile
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

def pre4All (c : Dev nD) : FVec Ideal S100000x128 .f32 :=
  addf (addf (V c (Pipeline.arrRef spec4 0)) (V c (Pipeline.arrRef spec4 1))) (cb01 (V c (Pipeline.arrRef spec4 2)))

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0 :=
  (by decide +kernel : ∀ t : Fin grid4.N, _)

theorem pre4_apply (c : Dev nD) (t : Fin cfg4.N) (p : Fin 5000) (q : Fin 128) (r : Fin 100000) (hr : r.val = 5000 * t.val + p.val) :
    (pre4 V c t : Vec Ideal S5000x128 .f32) (ix2 p q) = pre4All V c (ix2 r q) := by
  obtain ⟨e0, e1, e2, e3, e4, e5, e6, e7, e8, e9, e10, e11⟩ := idx_facts4 t
  show k1_pay3 (iblk4 V c 0 t) (iblk4 V c 1 t) (iblk4 V c 2 t) (ix2 p q)
    = (addf (addf (V c (Pipeline.arrRef spec4 0)) (V c (Pipeline.arrRef spec4 1))) (cb01 (V c (Pipeline.arrRef spec4 2))) : FVec Ideal S100000x128 .f32) (ix2 r q)
  refine blk1_3_eq _ _ _ _ _ _ p q r ?_ ?_ ?_
  · show V c (Pipeline.arrRef spec4 0) (((cfg4.win 0).blk t).view.emb (ix2 p q)) = V c (Pipeline.arrRef spec4 0) (ix2 r q)
    refine congrArg _ (funext fun a => Fin.ext ?_)
    match a with
    | ⟨0, _⟩ => show win4_0.index t (0 : Fin 2) * 5000 + 1 * p.val = r.val; omega
    | ⟨1, _⟩ => show win4_0.index t (1 : Fin 2) * 128 + 1 * q.val = q.val; omega
  · show V c (Pipeline.arrRef spec4 1) (((cfg4.win 1).blk t).view.emb (ix2 p q)) = V c (Pipeline.arrRef spec4 1) (ix2 r q)
    refine congrArg _ (funext fun a => Fin.ext ?_)
    match a with
    | ⟨0, _⟩ => show win4_1.index t (0 : Fin 2) * 5000 + 1 * p.val = r.val; omega
    | ⟨1, _⟩ => show win4_1.index t (1 : Fin 2) * 128 + 1 * q.val = q.val; omega
  · show V c (Pipeline.arrRef spec4 2) (((cfg4.win 2).blk t).view.emb (ix2 (0 : Fin 1) q)) = V c (Pipeline.arrRef spec4 2) (ix2 (0 : Fin 1) q)
    refine congrArg _ (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega

theorem pre4_idx (c : Dev nD) (t : Fin cfg4.N) (y : S5000x128.Idx) (i : S100000x128.Idx)
    (hi0 : (i 0).val = 5000 * t.val + (y 0).val) (hi1 : (i 1).val = (y 1).val) :
    (pre4 V c t : Vec Ideal S5000x128 .f32) y = pre4All V c i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext hi1
  rw [hq]
  exact pre4_apply V c t p q r hi0

theorem flushed4_3_eq (c : Dev nD) (t : Fin cfg4.N) :
    (dat4 (F := Ideal) V c).flushed 3 t = ((cfg4.win 3).blk t).view.read (Elt Ideal) (pre4All V c) := by
  show (cfg4.win 3).cut (grid4.coords t) ((dat4 (F := Ideal) V c).after 3 t) = _
  rw [after4_3_val]
  obtain ⟨e0, e1, e2, e3, e4, e5, e6, e7, e8, e9, e10, e11⟩ := idx_facts4 t
  funext j
  show pre4 V c t j = pre4All V c (((cfg4.win 3).blk t).view.emb j)
  refine pre4_idx V c t j _ ?_ ?_
  · show win4_3.index t (0 : Fin 2) * 5000 + 1 * (j 0).val = 5000 * t.val + (j 0).val; omega
  · show win4_3.index t (1 : Fin 2) * 128 + 1 * (j 1).val = (j 1).val; omega

theorem mem_blk4_3 (t : Fin cfg4.N) (i : S100000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v72_0).slice (win4_3.rect t)).set ↔ _
  rw [View.set_slice_whole, Rect.mem_set_unit]
  exact Iff.rfl

theorem cover4_3_arr (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  have ht : t.val = (i 0).val / 5000 := rfl
  obtain ⟨e0, e1, e2, e3, e4, e5, e6, e7, e8, e9, e10, e11⟩ := idx_facts4 t
  refine ⟨t, flush4_3 t, ?_⟩
  rw [mem_blk4_3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

theorem arrAt4_3 (c : Dev nD) : ((dat4 (F := Ideal) V c).arrAt 3 cfg4.N : FVec Ideal S100000x128 .f32) = pre4All V c :=
  (dat4 (F := Ideal) V c).arrAt_eq_of_cover 3 (pre4All V c) (fun t _ => flushed4_3_eq V c t) cover4_3_arr

theorem accS4_last (c : Dev nD) (q : Fin 128) :
    (accS4 V c 19 : Vec Ideal S1x128 .f32) (ix2 (0 : Fin 1) q) = crow1 (Cert.ReferenceIdeal.Hand.colSum (pre4All V c)) (ix2 (0 : Fin 1) q) := by
  rw [colSum_row_apply]
  refine Cert.Hand.LibTile.acc_blocks (fun r => pre4All V c (ix2 r q)) (fun n => (accS4 V c n : Vec Ideal S1x128 .f32) (ix2 (0 : Fin 1) q))
    (fun n p => (pre4 V c (pt4 n) : Vec Ideal S5000x128 .f32) (ix2 p q)) ?_ ?_ ?_
  · intro t ht p
    exact pre4_apply V c (pt4 t) p q _ (by show 5000 * t + p.val = 5000 * (t % 20) + p.val; rw [Nat.mod_eq_of_lt ht])
  · refine (pay1_4_apply (iblk4 V c 0 (pt4 0)) (iblk4 V c 1 (pt4 0)) (iblk4 V c 2 (pt4 0)) (k1_pay1 (F := Ideal)) q).trans ?_
    rw [pay1_1_apply]; rfl
  · intro k hk
    exact pay1_4_apply (iblk4 V c 0 (pt4 (k + 1))) (iblk4 V c 1 (pt4 (k + 1))) (iblk4 V c 2 (pt4 (k + 1))) (accS4 V c k) q

theorem accQ4_last (c : Dev nD) (q : Fin 128) :
    (accQ4 V c 19 : Vec Ideal S1x128 .f32) (ix2 (0 : Fin 1) q)
      = crow1 (Cert.ReferenceIdeal.Hand.colSum (mulf (pre4All V c) (pre4All V c))) (ix2 (0 : Fin 1) q) := by
  rw [colSum_row_apply]
  refine Cert.Hand.LibTile.acc_blocks (fun r => pre4All V c (ix2 r q) * pre4All V c (ix2 r q)) (fun n => (accQ4 V c n : Vec Ideal S1x128 .f32) (ix2 (0 : Fin 1) q))
    (fun n p => (pre4 V c (pt4 n) : Vec Ideal S5000x128 .f32) (ix2 p q) * (pre4 V c (pt4 n) : Vec Ideal S5000x128 .f32) (ix2 p q)) ?_ ?_ ?_
  · intro t ht p
    have e := pre4_apply V c (pt4 t) p q ⟨5000 * t + p.val, Cert.Hand.LibTile.row_lt ht p.isLt⟩ (by show 5000 * t + p.val = 5000 * (t % 20) + p.val; rw [Nat.mod_eq_of_lt ht])
    show (pre4 V c (pt4 t) : Vec Ideal S5000x128 .f32) (ix2 p q) * (pre4 V c (pt4 t) : Vec Ideal S5000x128 .f32) (ix2 p q) = _
    rw [e]
  · refine (pay1_5_apply (iblk4 V c 0 (pt4 0)) (iblk4 V c 1 (pt4 0)) (iblk4 V c 2 (pt4 0)) (k1_pay2 (F := Ideal)) q).trans ?_
    rw [pay1_2_apply]; rfl
  · intro k hk
    exact pay1_5_apply (iblk4 V c 0 (pt4 (k + 1))) (iblk4 V c 1 (pt4 (k + 1))) (iblk4 V c 2 (pt4 (k + 1))) (accQ4 V c k) q

theorem flushed4_4_eq (c : Dev nD) (t : Fin cfg4.N) (hf : (cfg4.win 4).flush t = true) :
    (dat4 (F := Ideal) V c).flushed 4 t = ((cfg4.win 4).blk t).view.read (Elt Ideal) (crow1 (Cert.ReferenceIdeal.Hand.colSum (pre4All V c))) := by
  have hN : cfg4.N = 20 := N_4
  have h19 : t.val = 19 := by have := (flush4_4 t).mp hf; have := t.isLt; omega
  show (cfg4.win 4).cut (grid4.coords t) ((dat4 (F := Ideal) V c).after 4 t) = _
  rw [after4_4_val V c t h19]
  obtain ⟨e0, e1, e2, e3, e4, e5, e6, e7, e8, e9, e10, e11⟩ := idx_facts4 t
  funext j
  show accS4 V c 19 j = crow1 (Cert.ReferenceIdeal.Hand.colSum (pre4All V c)) (((cfg4.win 4).blk t).view.emb j)
  refine row_idx1 _ _ (accS4_last V c) j _ ?_ ?_
  · show win4_4.index t (0 : Fin 2) * 1 + 1 * (j 0).val = (j 0).val; omega
  · show win4_4.index t (1 : Fin 2) * 128 + 1 * (j 1).val = (j 1).val; omega

theorem flushed4_5_eq (c : Dev nD) (t : Fin cfg4.N) (hf : (cfg4.win 5).flush t = true) :
    (dat4 (F := Ideal) V c).flushed 5 t
      = ((cfg4.win 5).blk t).view.read (Elt Ideal) (crow1 (Cert.ReferenceIdeal.Hand.colSum (mulf (pre4All V c) (pre4All V c)))) := by
  have hN : cfg4.N = 20 := N_4
  have h19 : t.val = 19 := by have := (flush4_5 t).mp hf; have := t.isLt; omega
  show (cfg4.win 5).cut (grid4.coords t) ((dat4 (F := Ideal) V c).after 5 t) = _
  rw [after4_5_val V c t h19]
  obtain ⟨e0, e1, e2, e3, e4, e5, e6, e7, e8, e9, e10, e11⟩ := idx_facts4 t
  funext j
  show accQ4 V c 19 j = crow1 (Cert.ReferenceIdeal.Hand.colSum (mulf (pre4All V c) (pre4All V c))) (((cfg4.win 5).blk t).view.emb j)
  refine row_idx1 _ _ (accQ4_last V c) j _ ?_ ?_
  · show win4_5.index t (0 : Fin 2) * 1 + 1 * (j 0).val = (j 0).val; omega
  · show win4_5.index t (1 : Fin 2) * 128 + 1 * (j 1).val = (j 1).val; omega

def tLast4 : Fin cfg4.N := ⟨19, by rw [show cfg4.N = 20 from N_4]; decide⟩

theorem mem_blk4_4 (t : Fin cfg4.N) (i : S1x128.Idx) :
    i ∈ ((cfg4.win 4).blk t).view.set ↔ ∀ a : Fin 2, win4_4.index t a * S1x128.size a ≤ (i a).val ∧ (i a).val < win4_4.index t a * S1x128.size a + S1x128.size a := by
  show i ∈ ((View.whole main_v72_1).slice (win4_4.rect t)).set ↔ _
  rw [View.set_slice_whole, Rect.mem_set_unit]
  exact Iff.rfl
theorem mem_blk4_5 (t : Fin cfg4.N) (i : S1x128.Idx) :
    i ∈ ((cfg4.win 5).blk t).view.set ↔ ∀ a : Fin 2, win4_5.index t a * S1x128.size a ≤ (i a).val ∧ (i a).val < win4_5.index t a * S1x128.size a + S1x128.size a := by
  show i ∈ ((View.whole main_v72_2).slice (win4_5.rect t)).set ↔ _
  rw [View.set_slice_whole, Rect.mem_set_unit]
  exact Iff.rfl

theorem cover4_4_arr (i : S1x128.Idx) : ∃ t : Fin cfg4.N, (cfg4.win 4).flush t = true ∧ i ∈ ((cfg4.win 4).blk t).view.set := by
  have hi0 : (i 0).val < 1 := (i 0).isLt
  have hi1 : (i 1).val < 128 := (i 1).isLt
  obtain ⟨e0, e1, e2, e3, e4, e5, e6, e7, e8, e9, e10, e11⟩ := idx_facts4 tLast4
  refine ⟨tLast4, (flush4_4 tLast4).mpr rfl, ?_⟩
  rw [mem_blk4_4]
  intro a
  match a with
  | ⟨0, _⟩ => show win4_4.index tLast4 (0 : Fin 2) * 1 ≤ (i 0).val ∧ (i 0).val < win4_4.index tLast4 (0 : Fin 2) * 1 + 1; omega
  | ⟨1, _⟩ => show win4_4.index tLast4 (1 : Fin 2) * 128 ≤ (i 1).val ∧ (i 1).val < win4_4.index tLast4 (1 : Fin 2) * 128 + 128; omega
theorem cover4_5_arr (i : S1x128.Idx) : ∃ t : Fin cfg4.N, (cfg4.win 5).flush t = true ∧ i ∈ ((cfg4.win 5).blk t).view.set := by
  have hi0 : (i 0).val < 1 := (i 0).isLt
  have hi1 : (i 1).val < 128 := (i 1).isLt
  obtain ⟨e0, e1, e2, e3, e4, e5, e6, e7, e8, e9, e10, e11⟩ := idx_facts4 tLast4
  refine ⟨tLast4, (flush4_5 tLast4).mpr rfl, ?_⟩
  rw [mem_blk4_5]
  intro a
  match a with
  | ⟨0, _⟩ => show win4_5.index tLast4 (0 : Fin 2) * 1 ≤ (i 0).val ∧ (i 0).val < win4_5.index tLast4 (0 : Fin 2) * 1 + 1; omega
  | ⟨1, _⟩ => show win4_5.index tLast4 (1 : Fin 2) * 128 ≤ (i 1).val ∧ (i 1).val < win4_5.index tLast4 (1 : Fin 2) * 128 + 128; omega

theorem arrAt4_4 (c : Dev nD) : ((dat4 (F := Ideal) V c).arrAt 4 cfg4.N : FVec Ideal S1x128 .f32) = crow1 (Cert.ReferenceIdeal.Hand.colSum (pre4All V c)) :=
  (dat4 (F := Ideal) V c).arrAt_eq_of_cover 4 (crow1 (Cert.ReferenceIdeal.Hand.colSum (pre4All V c))) (flushed4_4_eq V c) cover4_4_arr

theorem arrAt4_5 (c : Dev nD) : ((dat4 (F := Ideal) V c).arrAt 5 cfg4.N : FVec Ideal S1x128 .f32) = crow1 (Cert.ReferenceIdeal.Hand.colSum (mulf (pre4All V c) (pre4All V c))) :=
  (dat4 (F := Ideal) V c).arrAt_eq_of_cover 5 (crow1 (Cert.ReferenceIdeal.Hand.colSum (mulf (pre4All V c) (pre4All V c)))) (flushed4_5_eq V c) cover4_5_arr

end Cert.KernelIdeal.Hand

end
-- ==== Proof.KI.ValC7.lean ====
import proofs.«113696_j26852135535044_1_alg».proof.Proof.KI.RegC7
import proofs.«113696_j26852135535044_1_alg».proof.Proof.KI.ValC1
import proofs.«113696_j26852135535044_1_alg».proof.ReferenceIdeal
import proofs.«113696_j26852135535044_1_alg».proof.Proof.Gen.ReferenceIdeal
import proofs.«113696_j26852135535044_1_alg».proof.Proof.Ref.Fns
import proofs.«113696_j26852135535044_1_alg».proof.Proof.LibTile
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

def pre7All (c : Dev nD) : FVec Ideal S100000x128 .f32 :=
  addf (addf (V c (Pipeline.arrRef spec7 0)) (V c (Pipeline.arrRef spec7 1))) (cb01 (V c (Pipeline.arrRef spec7 2)))

theorem idx_facts7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

theorem pre7_apply (c : Dev nD) (t : Fin cfg7.N) (p : Fin 5000) (q : Fin 128) (r : Fin 100000) (hr : r.val = 5000 * t.val + p.val) :
    (pre7 V c t : Vec Ideal S5000x128 .f32) (ix2 p q) = pre7All V c (ix2 r q) := by
  obtain ⟨e0, e1, e2, e3, e4, e5, e6, e7, e8, e9, e10, e11⟩ := idx_facts7 t
  show k1_pay3 (iblk7 V c 0 t) (iblk7 V c 1 t) (iblk7 V c 2 t) (ix2 p q)
    = (addf (addf (V c (Pipeline.arrRef spec7 0)) (V c (Pipeline.arrRef spec7 1))) (cb01 (V c (Pipeline.arrRef spec7 2))) : FVec Ideal S100000x128 .f32) (ix2 r q)
  refine blk1_3_eq _ _ _ _ _ _ p q r ?_ ?_ ?_
  · show V c (Pipeline.arrRef spec7 0) (((cfg7.win 0).blk t).view.emb (ix2 p q)) = V c (Pipeline.arrRef spec7 0) (ix2 r q)
    refine congrArg _ (funext fun a => Fin.ext ?_)
    match a with
    | ⟨0, _⟩ => show win7_0.index t (0 : Fin 2) * 5000 + 1 * p.val = r.val; omega
    | ⟨1, _⟩ => show win7_0.index t (1 : Fin 2) * 128 + 1 * q.val = q.val; omega
  · show V c (Pipeline.arrRef spec7 1) (((cfg7.win 1).blk t).view.emb (ix2 p q)) = V c (Pipeline.arrRef spec7 1) (ix2 r q)
    refine congrArg _ (funext fun a => Fin.ext ?_)
    match a with
    | ⟨0, _⟩ => show win7_1.index t (0 : Fin 2) * 5000 + 1 * p.val = r.val; omega
    | ⟨1, _⟩ => show win7_1.index t (1 : Fin 2) * 128 + 1 * q.val = q.val; omega
  · show V c (Pipeline.arrRef spec7 2) (((cfg7.win 2).blk t).view.emb (ix2 (0 : Fin 1) q)) = V c (Pipeline.arrRef spec7 2) (ix2 (0 : Fin 1) q)
    refine congrArg _ (funext fun a => Fin.ext ?_)
    match a with
    | ⟨0, _⟩ => show win7_2.index t (0 : Fin 2) * 1 + 1 * 0 = 0; omega
    | ⟨1, _⟩ => show win7_2.index t (1 : Fin 2) * 128 + 1 * q.val = q.val; omega

theorem pre7_idx (c : Dev nD) (t : Fin cfg7.N) (y : S5000x128.Idx) (i : S100000x128.Idx)
    (hi0 : (i 0).val = 5000 * t.val + (y 0).val) (hi1 : (i 1).val = (y 1).val) :
    (pre7 V c t : Vec Ideal S5000x128 .f32) y = pre7All V c i := by
  obtain ⟨p, q, rfl⟩ : ∃ (p : Fin 5000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hq : q' = q := Fin.ext hi1
  rw [hq]
  exact pre7_apply V c t p q r hi0

theorem flushed7_3_eq (c : Dev nD) (t : Fin cfg7.N) :
    (dat7 (F := Ideal) V c).flushed 3 t = ((cfg7.win 3).blk t).view.read (Elt Ideal) (pre7All V c) := by
  show (cfg7.win 3).cut (grid7.coords t) ((dat7 (F := Ideal) V c).after 3 t) = _
  rw [after7_3_val]
  obtain ⟨e0, e1, e2, e3, e4, e5, e6, e7, e8, e9, e10, e11⟩ := idx_facts7 t
  funext j
  show pre7 V c t j = pre7All V c (((cfg7.win 3).blk t).view.emb j)
  refine pre7_idx V c t j _ ?_ ?_
  · show win7_3.index t (0 : Fin 2) * 5000 + 1 * (j 0).val = 5000 * t.val + (j 0).val; omega
  · show win7_3.index t (1 : Fin 2) * 128 + 1 * (j 1).val = (j 1).val; omega

theorem mem_blk7_3 (t : Fin cfg7.N) (i : S100000x128.Idx) :
    i ∈ ((cfg7.win 3).blk t).view.set ↔ ∀ a : Fin 2, win7_3.index t a * S5000x128.size a ≤ (i a).val ∧ (i a).val < win7_3.index t a * S5000x128.size a + S5000x128.size a := by
  show i ∈ ((View.whole main_v103_0).slice (win7_3.rect t)).set ↔ _
  rw [View.set_slice_whole, Rect.mem_set_unit]
  exact Iff.rfl

theorem cover7_3_arr (i : S100000x128.Idx) : ∃ t : Fin cfg7.N, (cfg7.win 3).flush t = true ∧ i ∈ ((cfg7.win 3).blk t).view.set := by
  have hi0 : (i 0).val < 100000 := (i 0).isLt
  have hi1 : (i 1).val < 128 := (i 1).isLt
  have hN : cfg7.N = 20 := N_7
  let t : Fin cfg7.N := ⟨(i 0).val / 5000, by rw [hN]; omega⟩
  have ht : t.val = (i 0).val / 5000 := rfl
  obtain ⟨e0, e1, e2, e3, e4, e5, e6, e7, e8, e9, e10, e11⟩ := idx_facts7 t
  refine ⟨t, flush7_3 t, ?_⟩
  rw [mem_blk7_3]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

theorem arrAt7_3 (c : Dev nD) : ((dat7 (F := Ideal) V c).arrAt 3 cfg7.N : FVec Ideal S100000x128 .f32) = pre7All V c :=
  (dat7 (F := Ideal) V c).arrAt_eq_of_cover 3 (pre7All V c) (fun t _ => flushed7_3_eq V c t) cover7_3_arr

theorem accS7_last (c : Dev nD) (q : Fin 128) :
    (accS7 V c 19 : Vec Ideal S1x128 .f32) (ix2 (0 : Fin 1) q) = crow1 (Cert.ReferenceIdeal.Hand.colSum (pre7All V c)) (ix2 (0 : Fin 1) q) := by
  rw [colSum_row_apply]
  refine Cert.Hand.LibTile.acc_blocks (fun r => pre7All V c (ix2 r q)) (fun n => (accS7 V c n : Vec Ideal S1x128 .f32) (ix2 (0 : Fin 1) q))
    (fun n p => (pre7 V c (pt7 n) : Vec Ideal S5000x128 .f32) (ix2 p q)) ?_ ?_ ?_
  · intro t ht p
    exact pre7_apply V c (pt7 t) p q _ (by show 5000 * t + p.val = 5000 * (t % 20) + p.val; rw [Nat.mod_eq_of_lt ht])
  · refine (pay1_4_apply (iblk7 V c 0 (pt7 0)) (iblk7 V c 1 (pt7 0)) (iblk7 V c 2 (pt7 0)) (k1_pay1 (F := Ideal)) q).trans ?_
    rw [pay1_1_apply]; rfl
  · intro k hk
    exact pay1_4_apply (iblk7 V c 0 (pt7 (k + 1))) (iblk7 V c 1 (pt7 (k + 1))) (iblk7 V c 2 (pt7 (k + 1))) (accS7 V c k) q

theorem accQ7_last (c : Dev nD) (q : Fin 128) :
    (accQ7 V c 19 : Vec Ideal S1x128 .f32) (ix2 (0 : Fin 1) q)
      = crow1 (Cert.ReferenceIdeal.Hand.colSum (mulf (pre7All V c) (pre7All V c))) (ix2 (0 : Fin 1) q) := by
  rw [colSum_row_apply]
  refine Cert.Hand.LibTile.acc_blocks (fun r => pre7All V c (ix2 r q) * pre7All V c (ix2 r q)) (fun n => (accQ7 V c n : Vec Ideal S1x128 .f32) (ix2 (0 : Fin 1) q))
    (fun n p => (pre7 V c (pt7 n) : Vec Ideal S5000x128 .f32) (ix2 p q) * (pre7 V c (pt7 n) : Vec Ideal S5000x128 .f32) (ix2 p q)) ?_ ?_ ?_
  · intro t ht p
    have e := pre7_apply V c (pt7 t) p q ⟨5000 * t + p.val, Cert.Hand.LibTile.row_lt ht p.isLt⟩ (by show 5000 * t + p.val = 5000 * (t % 20) + p.val; rw [Nat.mod_eq_of_lt ht])
    show (pre7 V c (pt7 t) : Vec Ideal S5000x128 .f32) (ix2 p q) * (pre7 V c (pt7 t) : Vec Ideal S5000x128 .f32) (ix2 p q) = _
    rw [e]
  · refine (pay1_5_apply (iblk7 V c 0 (pt7 0)) (iblk7 V c 1 (pt7 0)) (iblk7 V c 2 (pt7 0)) (k1_pay2 (F := Ideal)) q).trans ?_
    rw [pay1_2_apply]; rfl
  · intro k hk
    exact pay1_5_apply (iblk7 V c 0 (pt7 (k + 1))) (iblk7 V c 1 (pt7 (k + 1))) (iblk7 V c 2 (pt7 (k + 1))) (accQ7 V c k) q

theorem flushed7_4_eq (c : Dev nD) (t : Fin cfg7.N) (hf : (cfg7.win 4).flush t = true) :
    (dat7 (F := Ideal) V c).flushed 4 t = ((cfg7.win 4).blk t).view.read (Elt Ideal) (crow1 (Cert.ReferenceIdeal.Hand.colSum (pre7All V c))) := by
  have hN : cfg7.N = 20 := N_7
  have h19 : t.val = 19 := by have := (flush7_4 t).mp hf; have := t.isLt; omega
  show (cfg7.win 4).cut (grid7.coords t) ((dat7 (F := Ideal) V c).after 4 t) = _
  rw [after7_4_val V c t h19]
  obtain ⟨e0, e1, e2, e3, e4, e5, e6, e7, e8, e9, e10, e11⟩ := idx_facts7 t
  funext j
  show accS7 V c 19 j = crow1 (Cert.ReferenceIdeal.Hand.colSum (pre7All V c)) (((cfg7.win 4).blk t).view.emb j)
  refine row_idx1 _ _ (accS7_last V c) j _ ?_ ?_
  · show win7_4.index t (0 : Fin 2) * 1 + 1 * (j 0).val = (j 0).val; omega
  · show win7_4.index t (1 : Fin 2) * 128 + 1 * (j 1).val = (j 1).val; omega

theorem flushed7_5_eq (c : Dev nD) (t : Fin cfg7.N) (hf : (cfg7.win 5).flush t = true) :
    (dat7 (F := Ideal) V c).flushed 5 t
      = ((cfg7.win 5).blk t).view.read (Elt Ideal) (crow1 (Cert.ReferenceIdeal.Hand.colSum (mulf (pre7All V c) (pre7All V c)))) := by
  have hN : cfg7.N = 20 := N_7
  have h19 : t.val = 19 := by have := (flush7_5 t).mp hf; have := t.isLt; omega
  show (cfg7.win 5).cut (grid7.coords t) ((dat7 (F := Ideal) V c).after 5 t) = _
  rw [after7_5_val V c t h19]
  obtain ⟨e0, e1, e2, e3, e4, e5, e6, e7, e8, e9, e10, e11⟩ := idx_facts7 t
  funext j
  show accQ7 V c 19 j = crow1 (Cert.ReferenceIdeal.Hand.colSum (mulf (pre7All V c) (pre7All V c))) (((cfg7.win 5).blk t).view.emb j)
  refine row_idx1 _ _ (accQ7_last V c) j _ ?_ ?_
  · show win7_5.index t (0 : Fin 2) * 1 + 1 * (j 0).val = (j 0).val; omega
  · show win7_5.index t (1 : Fin 2) * 128 + 1 * (j 1).val = (j 1).val; omega

def tLast7 : Fin cfg7.N := ⟨19, by rw [show cfg7.N = 20 from N_7]; decide⟩

theorem mem_blk7_4 (t : Fin cfg7.N) (i : S1x128.Idx) :
    i ∈ ((cfg7.win 4).blk t).view.set ↔ ∀ a : Fin 2, win7_4.index t a * S1x128.size a ≤ (i a).val ∧ (i a).val < win7_4.index t a * S1x128.size a + S1x128.size a := by
  show i ∈ ((View.whole main_v103_1).slice (win7_4.rect t)).set ↔ _
  rw [View.set_slice_whole, Rect.mem_set_unit]
  exact Iff.rfl
theorem mem_blk7_5 (t : Fin cfg7.N) (i : S1x128.Idx) :
    i ∈ ((cfg7.win 5).blk t).view.set ↔ ∀ a : Fin 2, win7_5.index t a * S1x128.size a ≤ (i a).val ∧ (i a).val < win7_5.index t a * S1x128.size a + S1x128.size a := by
  show i ∈ ((View.whole main_v103_2).slice (win7_5.rect t)).set ↔ _
  rw [View.set_slice_whole, Rect.mem_set_unit]
  exact Iff.rfl

theorem cover7_4_arr (i : S1x128.Idx) : ∃ t : Fin cfg7.N, (cfg7.win 4).flush t = true ∧ i ∈ ((cfg7.win 4).blk t).view.set := by
  have hi0 : (i 0).val < 1 := (i 0).isLt
  have hi1 : (i 1).val < 128 := (i 1).isLt
  obtain ⟨e0, e1, e2, e3, e4, e5, e6, e7, e8, e9, e10, e11⟩ := idx_facts7 tLast7
  refine ⟨tLast7, (flush7_4 tLast7).mpr rfl, ?_⟩
  rw [mem_blk7_4]
  intro a
  match a with
  | ⟨0, _⟩ => show win7_4.index tLast7 (0 : Fin 2) * 1 ≤ (i 0).val ∧ (i 0).val < win7_4.index tLast7 (0 : Fin 2) * 1 + 1; omega
  | ⟨1, _⟩ => show win7_4.index tLast7 (1 : Fin 2) * 128 ≤ (i 1).val ∧ (i 1).val < win7_4.index tLast7 (1 : Fin 2) * 128 + 128; omega
theorem cover7_5_arr (i : S1x128.Idx) : ∃ t : Fin cfg7.N, (cfg7.win 5).flush t = true ∧ i ∈ ((cfg7.win 5).blk t).view.set := by
  have hi0 : (i 0).val < 1 := (i 0).isLt
  have hi1 : (i 1).val < 128 := (i 1).isLt
  obtain ⟨e0, e1, e2, e3, e4, e5, e6, e7, e8, e9, e10, e11⟩ := idx_facts7 tLast7
  refine ⟨tLast7, (flush7_5 tLast7).mpr rfl, ?_⟩
  rw [mem_blk7_5]
  intro a
  match a with
  | ⟨0, _⟩ => show win7_5.index tLast7 (0 : Fin 2) * 1 ≤ (i 0).val ∧ (i 0).val < win7_5.index tLast7 (0 : Fin 2) * 1 + 1; omega
  | ⟨1, _⟩ => show win7_5.index tLast7 (1 : Fin 2) * 128 ≤ (i 1).val ∧ (i 1).val < win7_5.index tLast7 (1 : Fin 2) * 128 + 128; omega

theorem arrAt7_4 (c : Dev nD) : ((dat7 (F := Ideal) V c).arrAt 4 cfg7.N : FVec Ideal S1x128 .f32) = crow1 (Cert.ReferenceIdeal.Hand.colSum (pre7All V c)) :=
  (dat7 (F := Ideal) V c).arrAt_eq_of_cover 4 (crow1 (Cert.ReferenceIdeal.Hand.colSum (pre7All V c))) (flushed7_4_eq V c) cover7_4_arr

theorem arrAt7_5 (c : Dev nD) : ((dat7 (F := Ideal) V c).arrAt 5 cfg7.N : FVec Ideal S1x128 .f32) = crow1 (Cert.ReferenceIdeal.Hand.colSum (mulf (pre7All V c) (pre7All V c))) :=
  (dat7 (F := Ideal) V c).arrAt_eq_of_cover 5 (crow1 (Cert.ReferenceIdeal.Hand.colSum (mulf (pre7All V c) (pre7All V c)))) (flushed7_5_eq V c) cover7_5_arr

end Cert.KernelIdeal.Hand

end
-- ==== Proof.KI.Vals.lean ====
import proofs.«113696_j26852135535044_1_alg».proof.Proof.KI.ValM0
import proofs.«113696_j26852135535044_1_alg».proof.Proof.KI.ValM3
import proofs.«113696_j26852135535044_1_alg».proof.Proof.KI.ValM6
import proofs.«113696_j26852135535044_1_alg».proof.Proof.KI.ValM9
import proofs.«113696_j26852135535044_1_alg».proof.Proof.KI.ValB2
import proofs.«113696_j26852135535044_1_alg».proof.Proof.KI.ValB5
import proofs.«113696_j26852135535044_1_alg».proof.Proof.KI.ValB8
import proofs.«113696_j26852135535044_1_alg».proof.Proof.KI.ValC1
import proofs.«113696_j26852135535044_1_alg».proof.Proof.KI.ValC4
import proofs.«113696_j26852135535044_1_alg».proof.Proof.KI.ValC7
-- ==== Proof.LibERealSage.lean ====
import Mathlib.Data.EReal.Basic
import Mathlib.Data.EReal.Operations
import Mathlib.Data.EReal.Inv
import Mathlib.Algebra.BigOperators.Group.Finset.Basic
import Idealize.ShloMosaic.PureOps.Ideal
import Idealize.ShloMosaic.PureOps.Ideal.Laws

namespace Cert.LibERealSage

open Idealize.ShloMosaic

def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_neg {x : EReal} (hx : IsReal x) : IsReal (-x) := by
  obtain ⟨a, rfl⟩ := hx
  exact ⟨-a, (EReal.coe_neg a).symm⟩

theorem isReal_max {x y : EReal} (hx : IsReal x) (hy : IsReal y) : IsReal (max x y) := by
  rcases le_total x y with h | h
  · rw [max_eq_right h]; exact hy
  · rw [max_eq_left h]; exact hx

theorem isReal_max_zero {x : EReal} (hx : IsReal x) : IsReal (max x 0) :=
  isReal_max hx isReal_zero

theorem isReal_sum {ι : Type*} (S : Finset ι) (f : ι → EReal) (h : ∀ i ∈ S, IsReal (f i)) :
    IsReal (∑ i ∈ S, f i) := by
  classical
  induction S using Finset.induction_on with
  | empty => simpa using isReal_zero
  | insert a s ha ih =>
    rw [Finset.sum_insert ha]
    exact isReal_add (h a (Finset.mem_insert_self a s))
      (ih (fun i hi => h i (Finset.mem_insert_of_mem hi)))

theorem isReal_sum_univ {ι : Type*} [Fintype ι] (f : ι → EReal) (h : ∀ i, IsReal (f i)) :
    IsReal (∑ i, f i) :=
  isReal_sum Finset.univ f (fun i _ => h i)

theorem isReal_iff (x : EReal) : IsReal x ↔ x ≠ ⊤ ∧ x ≠ ⊥ := by
  constructor
  · rintro ⟨r, rfl⟩
    exact ⟨EReal.coe_ne_top r, EReal.coe_ne_bot r⟩
  · rintro ⟨h1, h2⟩
    induction x using EReal.rec with
    | bot => exact absurd rfl h2
    | coe r => exact ⟨r, rfl⟩
    | top => exact absurd rfl h1

theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add,
    mul_add]

section Families

variable {ι : Type*} [Fintype ι]

theorem sum_mul_add (X A B : ι → EReal) (hX : ∀ j, IsReal (X j)) (hA : ∀ j, IsReal (A j))
    (hB : ∀ j, IsReal (B j)) :
    ∑ j, X j * (A j + B j) = ∑ j, X j * A j + ∑ j, X j * B j := by
  rw [← Finset.sum_add_distrib]
  exact Finset.sum_congr rfl (fun j _ => mul_add_of_isReal (hX j) (hA j) (hB j))

theorem one_rel_entry (A W X R : ι → EReal) (β : EReal) :
    (((0 : EReal) + ∑ j, A j * W j) + ∑ j, X j * ((0 : EReal) + R j)) + ((0 : EReal) + β)
      = ((((0 : EReal) + ∑ j, A j * W j) + β) + ∑ j, X j * R j) := by
  simp only [zero_add]
  rw [add_right_comm]

theorem two_rel_entry (A1 W1 A2 W2 X R1 R2 : ι → EReal) (β1 β2 : EReal)
    (hX : ∀ j, IsReal (X j)) (hR1 : ∀ j, IsReal (R1 j)) (hR2 : ∀ j, IsReal (R2 j)) :
    ((((0 : EReal) + ∑ j, A1 j * W1 j) + ∑ j, A2 j * W2 j)
        + ∑ j, X j * (((0 : EReal) + R1 j) + R2 j)) + (((0 : EReal) + β1) + β2)
      = ((((((0 : EReal) + ∑ j, A1 j * W1 j) + β1) + ∑ j, X j * R1 j) + ∑ j, A2 j * W2 j) + β2)
        + ∑ j, X j * R2 j := by
  simp only [zero_add]
  rw [sum_mul_add X R1 R2 hX hR1 hR2]
  ac_rfl

theorem one_rel_entry_relu (A W X R : ι → EReal) (β : EReal) :
    max ((((0 : EReal) + ∑ j, A j * W j) + ∑ j, X j * ((0 : EReal) + R j)) + ((0 : EReal) + β)) 0
      = max ((((0 : EReal) + ∑ j, A j * W j) + β) + ∑ j, X j * R j) 0 :=
  congrArg (max · 0) (one_rel_entry A W X R β)

theorem two_rel_entry_relu (A1 W1 A2 W2 X R1 R2 : ι → EReal) (β1 β2 : EReal)
    (hX : ∀ j, IsReal (X j)) (hR1 : ∀ j, IsReal (R1 j)) (hR2 : ∀ j, IsReal (R2 j)) :
    max (((((0 : EReal) + ∑ j, A1 j * W1 j) + ∑ j, A2 j * W2 j)
        + ∑ j, X j * (((0 : EReal) + R1 j) + R2 j)) + (((0 : EReal) + β1) + β2)) 0
      = max (((((((0 : EReal) + ∑ j, A1 j * W1 j) + β1) + ∑ j, X j * R1 j) + ∑ j, A2 j * W2 j) + β2)
        + ∑ j, X j * R2 j) 0 :=
  congrArg (max · 0) (two_rel_entry A1 W1 A2 W2 X R1 R2 β1 β2 hX hR1 hR2)

end Families

theorem div_eq_mul_one_div (s : EReal) {r : ℝ} (hr : r ≠ 0) :
    Idealize.ShloMosaic.Ideal.div s (r : EReal)
      = s * Idealize.ShloMosaic.Ideal.div 1 (r : EReal) := by
  rw [Ideal.div_coe hr, Ideal.div_coe hr, one_mul]

theorem isReal_div_one {r : ℝ} (hr : r ≠ 0) :
    IsReal (Idealize.ShloMosaic.Ideal.div 1 (r : EReal)) :=
  ⟨1 / r, by rw [Ideal.div_coe hr, one_mul]⟩

theorem isReal_div {s : EReal} (hs : IsReal s) {r : ℝ} (hr : r ≠ 0) :
    IsReal (Idealize.ShloMosaic.Ideal.div s (r : EReal)) := by
  rw [Ideal.div_coe hr]
  exact isReal_mul hs (isReal_coe _)

theorem isReal_max_one' (c : EReal) (hc : IsReal c) :
    ∃ r : ℝ, 1 ≤ r ∧ max c 1 = (r : EReal) := by
  obtain ⟨a, rfl⟩ := hc
  refine ⟨max a 1, le_max_right a 1, ?_⟩
  rw [← EReal.coe_one]
  exact (EReal.coe_strictMono.monotone.map_max).symm

theorem isReal_max_one (c : EReal) (hc : IsReal c) :
    ∃ r : ℝ, r ≠ 0 ∧ max c 1 = (r : EReal) := by
  obtain ⟨r, h1, h⟩ := isReal_max_one' c hc
  exact ⟨r, by linarith, h⟩

theorem isReal_gather {s si t : Shape} {w : Nat} (d : GatherDims s si t) (x : s.Idx → EReal)
    (idx : IVec si w) (hx : ∀ i, IsReal (x i)) :
    ∀ j, IsReal (Host.gather (α := EReal) d x idx j) :=
  fun j => hx (d.operandIdx j idx)

theorem isReal_scatterAdd {φ : FTy} {s si u : Shape} {w : Nat} (d : ScatterDims s si u)
    (x : FVec Ideal s φ) (idx : IVec si w) (upd : FVec Ideal u φ)
    (hx : ∀ i, IsReal (x i)) (hu : ∀ j, IsReal (upd j)) :
    ∀ i, IsReal (Host.scatterAdd (F := Ideal) d x idx upd i) := by
  intro i
  show IsReal (x i + ∑ j ∈ Finset.univ.filter (fun j => d.resultIdx? j idx = some i), upd j)
  exact isReal_add (hx i) (isReal_sum _ _ (fun j _ => hu j))

end Cert.LibERealSage
-- ==== Proof.LayerAlg.lean ====
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Field
import Mathlib.Algebra.Order.BigOperators.Group.Finset
import Mathlib.Analysis.SpecialFunctions.Sqrt
import Mathlib.Tactic.FieldSimp
import Mathlib.Tactic.Ring
import Mathlib.Tactic.NormNum
import Idealize.ShloMosaic.PureOps.Ideal
import Idealize.ShloMosaic.PureOps.Ideal.Laws
import proofs.«113696_j26852135535044_1_alg».proof.Proof.LibERealSage

namespace Cert.Hand.LayerAlg

open Idealize.ShloMosaic
open Cert.LibERealSage
open scoped BigOperators

noncomputable section

theorem ofBits_N : Ideal.ofBits .f32 0x47C35000#32 = ((100000 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

theorem ofBits_eps_pos : ∃ e : ℝ, 0 < e ∧ Ideal.ofBits .f32 0x3727C5AC#32 = (e : EReal) :=
  ⟨10995116 / 2 ^ 40, by norm_num, ofBits_eps⟩

theorem sitofp_zero : ((((0#32 : BitVec 32).toInt : ℤ) : ℝ) : EReal) = 0 := by
  simp

theorem N_sub_zero :
    Ideal.ofBits .f32 0x47C35000#32 - ((((0#32 : BitVec 32).toInt : ℤ) : ℝ) : EReal)
      = ((100000 : ℝ) : EReal) := by
  rw [sitofp_zero, ofBits_N, sub_zero]

theorem cmp_ogt_N :
    Ideal.cmp .ogt
        (Ideal.ofBits .f32 0x47C35000#32 - ((((0#32 : BitVec 32).toInt : ℤ) : ℝ) : EReal))
        (Ideal.ofBits .f32 0x00000000#32) = 1 := by
  rw [N_sub_zero, Ideal.ofBits_zero_f32]
  have h : (0 : EReal) < ((100000 : ℝ) : EReal) := by
    exact_mod_cast (by norm_num : (0 : ℝ) < 100000)
  simp [Ideal.cmp, h]

theorem isReal_sub {x y : EReal} (hx : IsReal x) (hy : IsReal y) : IsReal (x - y) := by
  obtain ⟨a, rfl⟩ := hx
  obtain ⟨b, rfl⟩ := hy
  exact ⟨a - b, (EReal.coe_sub a b).symm⟩

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_N_coe (a : ℝ) :
    Ideal.div (a : EReal) (Ideal.ofBits .f32 0x47C35000#32) = ((a / 100000 : ℝ) : EReal) := by
  rw [ofBits_N, Ideal.div_coe (by norm_num : (100000 : ℝ) ≠ 0), ← EReal.coe_mul, mul_one_div]

theorem isReal_div_N {a : EReal} (ha : IsReal a) :
    IsReal (Ideal.div a (Ideal.ofBits .f32 0x47C35000#32)) := by
  obtain ⟨r, rfl⟩ := ha
  exact ⟨r / 100000, div_N_coe r⟩

theorem rsqrt_coe_of_pos {y : ℝ} (hy : 0 < y) :
    Ideal.rsqrt (y : EReal) = (((Real.sqrt y)⁻¹ : ℝ) : EReal) := by
  rw [Ideal.rsqrt_coe, if_neg (not_lt.mpr hy.le), if_neg hy.ne']

theorem sqrt_coe_of_nonneg {y : ℝ} (hy : 0 ≤ y) :
    Ideal.sqrt (y : EReal) = ((Real.sqrt y : ℝ) : EReal) := by
  rw [Ideal.sqrt_coe, if_neg (not_lt.mpr hy)]

theorem mul_rsqrt_eq_div_sqrt (c : EReal) {y : ℝ} (hy : 0 < y) :
    c * Ideal.rsqrt (y : EReal) = Ideal.div c (Ideal.sqrt (y : EReal)) := by
  rw [rsqrt_coe_of_pos hy, sqrt_coe_of_nonneg hy.le,
    Ideal.div_coe (Real.sqrt_ne_zero'.mpr hy), one_div]

section RealVar

variable {ι : Type*} [Fintype ι]

theorem real_var_identity (x : ι → ℝ) (n : ℝ) (hcard : (Fintype.card ι : ℝ) = n) (hn : n ≠ 0) :
    (∑ i, x i * x i) / n - (∑ i, x i) / n * ((∑ i, x i) / n)
      = (∑ i, (x i - (∑ i, x i) / n) * (x i - (∑ i, x i) / n)) / n := by
  have h1 : ∑ i, (x i - (∑ i, x i) / n) * (x i - (∑ i, x i) / n)
      = (∑ i, x i * x i) - 2 * ((∑ i, x i) / n) * (∑ i, x i)
        + n * ((∑ i, x i) / n * ((∑ i, x i) / n)) := by
    have e : ∀ i, (x i - (∑ i, x i) / n) * (x i - (∑ i, x i) / n)
        = x i * x i - 2 * ((∑ i, x i) / n) * x i + (∑ i, x i) / n * ((∑ i, x i) / n) :=
      fun i => by ring
    rw [Finset.sum_congr rfl (fun i _ => e i), Finset.sum_add_distrib, Finset.sum_sub_distrib,
      ← Finset.mul_sum, Finset.sum_const, Finset.card_univ, nsmul_eq_mul, hcard]
  rw [h1]
  field_simp
  ring

theorem real_var_nonneg (x : ι → ℝ) (m n : ℝ) (hn : 0 < n) :
    0 ≤ (∑ i, (x i - m) * (x i - m)) / n :=
  div_nonneg (Finset.sum_nonneg (fun i _ => mul_self_nonneg _)) hn.le

end RealVar

section Layer

variable {ι κ : Type*} [Fintype ι]

def colSum (pre : ι → κ → EReal) (j : κ) : EReal := ∑ i, pre i j

def colSumSq (pre : ι → κ → EReal) (j : κ) : EReal := ∑ i, pre i j * pre i j

def mean (pre : ι → κ → EReal) (j : κ) : EReal :=
  Ideal.div (colSum pre j) (Ideal.ofBits .f32 0x47C35000#32)

def kVar (pre : ι → κ → EReal) (j : κ) : EReal :=
  Ideal.div (colSumSq pre j) (Ideal.ofBits .f32 0x47C35000#32) - mean pre j * mean pre j

def kScale (pre : ι → κ → EReal) (g : κ → EReal) (j : κ) : EReal :=
  g j * Ideal.rsqrt (kVar pre j + Ideal.ofBits .f32 0x3727C5AC#32)

def kOut (pre : ι → κ → EReal) (g be : κ → EReal) (i : ι) (j : κ) : EReal :=
  max ((pre i j - mean pre j) * kScale pre g j + be j) (Ideal.ofBits .f32 0x00000000#32)

def rDen : EReal :=
  Ideal.ofBits .f32 0x47C35000#32 - ((((0#32 : BitVec 32).toInt : ℤ) : ℝ) : EReal)

def rVar (pre : ι → κ → EReal) (j : κ) : EReal :=
  if Ideal.cmp .ogt rDen (Ideal.ofBits .f32 0x00000000#32) = 1
  then Ideal.div (∑ i, (pre i j - mean pre j) * (pre i j - mean pre j)) rDen
  else Ideal.ofBits .f32 0x7FC00000#32

def rScale (pre : ι → κ → EReal) (g : κ → EReal) (j : κ) : EReal :=
  Ideal.div (g j) (Ideal.sqrt (rVar pre j + Ideal.ofBits .f32 0x3727C5AC#32))

def rOut (pre : ι → κ → EReal) (g be : κ → EReal) (i : ι) (j : κ) : EReal :=
  max ((pre i j - mean pre j) * rScale pre g j + be j) (Ideal.ofBits .f32 0x00000000#32)

theorem kOut_unfold (pre : ι → κ → EReal) (g be : κ → EReal) (i : ι) (j : κ) :
    kOut pre g be i j
      = max ((pre i j - Ideal.div (∑ i, pre i j) (Ideal.ofBits .f32 0x47C35000#32))
          * (g j * Ideal.rsqrt
              (Ideal.div (∑ i, pre i j * pre i j) (Ideal.ofBits .f32 0x47C35000#32)
                - Ideal.div (∑ i, pre i j) (Ideal.ofBits .f32 0x47C35000#32)
                  * Ideal.div (∑ i, pre i j) (Ideal.ofBits .f32 0x47C35000#32)
                + Ideal.ofBits .f32 0x3727C5AC#32))
          + be j) (Ideal.ofBits .f32 0x00000000#32) := rfl

theorem rOut_unfold (pre : ι → κ → EReal) (g be : κ → EReal) (i : ι) (j : κ) :
    rOut pre g be i j
      = max ((pre i j - Ideal.div (∑ i, pre i j) (Ideal.ofBits .f32 0x47C35000#32))
          * Ideal.div (g j) (Ideal.sqrt
              ((if Ideal.cmp .ogt
                    (Ideal.ofBits .f32 0x47C35000#32
                      - ((((0#32 : BitVec 32).toInt : ℤ) : ℝ) : EReal))
                    (Ideal.ofBits .f32 0x00000000#32) = 1
                then Ideal.div
                  (∑ i, (pre i j - Ideal.div (∑ i, pre i j) (Ideal.ofBits .f32 0x47C35000#32))
                    * (pre i j - Ideal.div (∑ i, pre i j) (Ideal.ofBits .f32 0x47C35000#32)))
                  (Ideal.ofBits .f32 0x47C35000#32
                    - ((((0#32 : BitVec 32).toInt : ℤ) : ℝ) : EReal))
                else Ideal.ofBits .f32 0x7FC00000#32)
                + Ideal.ofBits .f32 0x3727C5AC#32))
          + be j) (Ideal.ofBits .f32 0x00000000#32) := rfl

variable (p : ι → κ → ℝ)

theorem colSum_coe (j : κ) :
    colSum (fun i j => (p i j : EReal)) j = ((∑ i, p i j : ℝ) : EReal) := by
  unfold colSum; rw [coe_sum]

theorem colSumSq_coe (j : κ) :
    colSumSq (fun i j => (p i j : EReal)) j = ((∑ i, p i j * p i j : ℝ) : EReal) := by
  unfold colSumSq; rw [coe_sum]
  exact Finset.sum_congr rfl (fun i _ => (EReal.coe_mul _ _).symm)

theorem mean_coe (j : κ) :
    mean (fun i j => (p i j : EReal)) j = (((∑ i, p i j) / 100000 : ℝ) : EReal) := by
  unfold mean; rw [colSum_coe, div_N_coe]

theorem kVar_coe (j : κ) :
    kVar (fun i j => (p i j : EReal)) j
      = (((∑ i, p i j * p i j) / 100000
          - (∑ i, p i j) / 100000 * ((∑ i, p i j) / 100000) : ℝ) : EReal) := by
  unfold kVar
  rw [colSumSq_coe, div_N_coe, mean_coe, ← EReal.coe_mul, ← EReal.coe_sub]

theorem rVar_coe (j : κ) :
    rVar (fun i j => (p i j : EReal)) j
      = (((∑ i, (p i j - (∑ i, p i j) / 100000) * (p i j - (∑ i, p i j) / 100000)) / 100000
          : ℝ) : EReal) := by
  unfold rVar rDen
  rw [if_pos cmp_ogt_N, N_sub_zero, mean_coe, Ideal.div_coe (by norm_num : (100000 : ℝ) ≠ 0)]
  have e : ∀ i, ((p i j : EReal) - (((∑ i, p i j) / 100000 : ℝ) : EReal))
        * ((p i j : EReal) - (((∑ i, p i j) / 100000 : ℝ) : EReal))
      = (((p i j - (∑ i, p i j) / 100000) * (p i j - (∑ i, p i j) / 100000) : ℝ) : EReal) :=
    fun i => by rw [← EReal.coe_sub, ← EReal.coe_mul]
  rw [Finset.sum_congr rfl (fun i _ => e i), ← coe_sum, ← EReal.coe_mul, mul_one_div]

variable (hcard : (Fintype.card ι : ℝ) = 100000)
include hcard

theorem var_coe_nonneg (j : κ) :
    ∃ v : ℝ, 0 ≤ v ∧ kVar (fun i j => (p i j : EReal)) j = (v : EReal)
      ∧ rVar (fun i j => (p i j : EReal)) j = (v : EReal) := by
  refine ⟨(∑ i, (p i j - (∑ i, p i j) / 100000) * (p i j - (∑ i, p i j) / 100000)) / 100000,
    real_var_nonneg _ _ _ (by norm_num), ?_, rVar_coe p j⟩
  rw [kVar_coe, real_var_identity (fun i => p i j) 100000 hcard (by norm_num)]

theorem scale_coe_eq (g : κ → EReal) (j : κ) :
    kScale (fun i j => (p i j : EReal)) g j = rScale (fun i j => (p i j : EReal)) g j := by
  obtain ⟨v, hv, hk, hr⟩ := var_coe_nonneg p hcard j
  obtain ⟨e, he, heps⟩ := ofBits_eps_pos
  unfold kScale rScale
  rw [hk, hr, heps, ← EReal.coe_add]
  exact mul_rsqrt_eq_div_sqrt (g j) (add_pos_of_nonneg_of_pos hv he)

theorem kScale_coe (g : κ → EReal) (j : κ) :
    ∃ c : ℝ, kScale (fun i j => (p i j : EReal)) g j = g j * (c : EReal) := by
  obtain ⟨v, hv, hk, _⟩ := var_coe_nonneg p hcard j
  obtain ⟨e, he, heps⟩ := ofBits_eps_pos
  refine ⟨(Real.sqrt (v + e))⁻¹, ?_⟩
  unfold kScale
  rw [hk, heps, ← EReal.coe_add, rsqrt_coe_of_pos (add_pos_of_nonneg_of_pos hv he)]

end Layer

section Main

variable {ι κ : Type*} [Fintype ι]

theorem exists_real_family (pre : ι → κ → EReal) (hpre : ∀ i j, IsReal (pre i j)) :
    ∃ p : ι → κ → ℝ, pre = fun i j => (p i j : EReal) := by
  have h : ∀ i j, ∃ r : ℝ, pre i j = (r : EReal) := hpre
  choose p hp using h
  exact ⟨p, funext fun i => funext fun j => hp i j⟩

theorem kOut_eq_rOut (pre : ι → κ → EReal) (g be : κ → EReal)
    (hcard : (Fintype.card ι : ℝ) = 100000) (hpre : ∀ i j, IsReal (pre i j)) (i : ι) (j : κ) :
    kOut pre g be i j = rOut pre g be i j := by
  obtain ⟨p, rfl⟩ := exists_real_family pre hpre
  unfold kOut rOut
  rw [scale_coe_eq p hcard g j]

theorem kScale_eq_rScale (pre : ι → κ → EReal) (g : κ → EReal)
    (hcard : (Fintype.card ι : ℝ) = 100000) (hpre : ∀ i j, IsReal (pre i j)) (j : κ) :
    kScale pre g j = rScale pre g j := by
  obtain ⟨p, rfl⟩ := exists_real_family pre hpre
  exact scale_coe_eq p hcard g j

theorem isReal_mean (pre : ι → κ → EReal) (hpre : ∀ i j, IsReal (pre i j)) (j : κ) :
    IsReal (mean pre j) :=
  isReal_div_N (isReal_sum_univ _ (fun i => hpre i j))

theorem isReal_kScale (pre : ι → κ → EReal) (g : κ → EReal)
    (hcard : (Fintype.card ι : ℝ) = 100000) (hpre : ∀ i j, IsReal (pre i j))
    (hg : ∀ j, IsReal (g j)) (j : κ) : IsReal (kScale pre g j) := by
  obtain ⟨p, rfl⟩ := exists_real_family pre hpre
  obtain ⟨c, hc⟩ := kScale_coe p hcard g j
  rw [hc]
  exact isReal_mul (hg j) (isReal_coe c)

theorem isReal_kOut (pre : ι → κ → EReal) (g be : κ → EReal)
    (hcard : (Fintype.card ι : ℝ) = 100000) (hpre : ∀ i j, IsReal (pre i j))
    (hg : ∀ j, IsReal (g j)) (hbe : ∀ j, IsReal (be j)) (i : ι) (j : κ) :
    IsReal (kOut pre g be i j) := by
  unfold kOut
  rw [Ideal.ofBits_zero_f32]
  exact isReal_max_zero (isReal_add
    (isReal_mul (isReal_sub (hpre i j) (isReal_mean pre hpre j))
      (isReal_kScale pre g hcard hpre hg j)) (hbe j))

theorem isReal_rOut (pre : ι → κ → EReal) (g be : κ → EReal)
    (hcard : (Fintype.card ι : ℝ) = 100000) (hpre : ∀ i j, IsReal (pre i j))
    (hg : ∀ j, IsReal (g j)) (hbe : ∀ j, IsReal (be j)) (i : ι) (j : κ) :
    IsReal (rOut pre g be i j) := by
  rw [← kOut_eq_rOut pre g be hcard hpre i j]
  exact isReal_kOut pre g be hcard hpre hg hbe i j

theorem card_fin_N : ((Fintype.card (Fin 100000) : ℕ) : ℝ) = 100000 := by
  rw [Fintype.card_fin]; norm_num

theorem isReal_colSum (pre : ι → κ → EReal) (hpre : ∀ i j, IsReal (pre i j)) (j : κ) :
    IsReal (colSum pre j) :=
  isReal_sum_univ _ (fun i => hpre i j)

theorem isReal_colSumSq (pre : ι → κ → EReal) (hpre : ∀ i j, IsReal (pre i j)) (j : κ) :
    IsReal (colSumSq pre j) :=
  isReal_sum_univ _ (fun i => isReal_mul (hpre i j) (hpre i j))

theorem kOut_eq_rOut_fun (pre : ι → κ → EReal) (g be : κ → EReal)
    (hcard : (Fintype.card ι : ℝ) = 100000) (hpre : ∀ i j, IsReal (pre i j)) :
    kOut pre g be = rOut pre g be :=
  funext fun i => funext fun j => kOut_eq_rOut pre g be hcard hpre i j

end Main

end

end Cert.Hand.LayerAlg
-- ==== Proof.PreFinite.lean ====
import proofs.«113696_j26852135535044_1_alg».proof.Pre_finite_inputs
import proofs.«113696_j26852135535044_1_alg».proof.Proof.Gen.Pre_finite_inputs
import Idealize.ShloMosaic.PureOps.Ideal
import Idealize.ShloMosaic.Lib.ReduceAll
import Idealize.ShloMosaic.Lib.ValueIdx

noncomputable section

namespace Cert.Hand.PreFinite

open Idealize.ShloMosaic Idealize.ShloMosaic.ValueIdx Cert.Pre_finite_inputs

def AllReal {S : Shape} (x : FVec Ideal S .f32) : Prop := ∀ i, ∃ r : ℝ, x i = ((r : ℝ) : EReal)

instance subsingleton_S_Idx : Subsingleton S_.Idx := ⟨fun a b => funext fun d => d.elim0⟩

theorem inf_bits : Ideal.ofBits .f32 0x7F800000#32 = (⊤ : EReal) := by
  simp [Ideal.ofBits, Ideal.ieee]

theorem real_of_abs_lt_top (x : EReal) (h : Ideal.cmp .olt (max x (-x)) (⊤ : EReal) = 1#1) : ∃ r : ℝ, x = ((r : ℝ) : EReal) := by
  induction x using EReal.rec with
  | bot => exfalso; revert h; simp [Ideal.cmp]
  | coe r => exact ⟨r, rfl⟩
  | top => exfalso; revert h; simp [Ideal.cmp]

theorem allReal_of_reduce {S : Shape} {axes : List (Fin S.rank)} (hb : S_.BroadcastsInDim S (![] : Fin 0 → Fin S.rank))
    (hr : S.ReducesTo axes S_) (h0 : 0 < S_.numel) (x : FVec Ideal S .f32)
    (e : Host.reduce IntOp.andi
          (cmpf .olt (Host.absf x) (broadcastInDim S ![] hb (constant (F := Ideal) S_ .f32 0x7F800000#32)))
          (constantI S_ 1 1#1) hr h0 ix0 = 1#1) : AllReal x := by
  intro i
  have hi := Host.reduce_andi_all _ _ hr h0 ix0 e i
  apply real_of_abs_lt_top
  rw [← inf_bits]
  exact hi

theorem AllReal.coe_toReal {S : Shape} {x : FVec Ideal S .f32} (hx : AllReal x) (i : S.Idx) :
    (((x i : EReal).toReal : ℝ) : EReal) = x i := by
  obtain ⟨r, hr⟩ := hx i
  rw [hr, EReal.toReal_coe]

theorem AllReal.ne_top {S : Shape} {x : FVec Ideal S .f32} (hx : AllReal x) (i : S.Idx) : x i ≠ (⊤ : EReal) := by
  obtain ⟨r, hr⟩ := hx i
  rw [hr]; exact EReal.coe_ne_top r

theorem AllReal.ne_bot {S : Shape} {x : FVec Ideal S .f32} (hx : AllReal x) (i : S.Idx) : x i ≠ (⊥ : EReal) := by
  obtain ⟨r, hr⟩ := hx i
  rw [hr]; exact EReal.coe_ne_bot r

theorem allReal_of_pre (a0 : FVec Ideal S100000x256 .f32) (a1 a2 : IVec S800000 32) (a3 : FVec Ideal S256x128 .f32)
    (a4 a5 a6 : FVec Ideal S128 .f32) (a7 : FVec Ideal S128x128 .f32) (a8 a9 a10 : FVec Ideal S128 .f32)
    (a11 : FVec Ideal S128x128 .f32) (a12 a13 a14 : FVec Ideal S128 .f32) (a15 : FVec Ideal S128x1 .f32)
    (a16 : FVec Ideal S1 .f32)
    (h : Cert.Pre_finite_inputs.fn (F := Ideal) a0 a1 a2 a3 a4 a5 a6 a7 a8 a9 a10 a11 a12 a13 a14 a15 a16 = fun _ => 1#1) :
    AllReal a0 ∧ AllReal a3 ∧ AllReal a4 ∧ AllReal a5 ∧ AllReal a6 ∧ AllReal a7 ∧ AllReal a8 ∧ AllReal a9 ∧ AllReal a10
      ∧ AllReal a11 ∧ AllReal a12 ∧ AllReal a13 ∧ AllReal a14 ∧ AllReal a15 ∧ AllReal a16 := by
  have h0 := congrFun h ix0
  dsimp only [fn, fn_part1, fn_part2, fn_part3, fn_part4] at h0
  simp only [andi, IntOp.andi_eq_one] at h0
  obtain ⟨⟨⟨⟨⟨⟨⟨⟨⟨⟨⟨⟨⟨⟨e0, e3⟩, e4⟩, e5⟩, e6⟩, e7⟩, e8⟩, e9⟩, e10⟩, e11⟩, e12⟩, e13⟩, e14⟩, e15⟩, e16⟩ := h0
  exact ⟨allReal_of_reduce _ _ _ a0 e0, allReal_of_reduce _ _ _ a3 e3, allReal_of_reduce _ _ _ a4 e4,
    allReal_of_reduce _ _ _ a5 e5, allReal_of_reduce _ _ _ a6 e6, allReal_of_reduce _ _ _ a7 e7,
    allReal_of_reduce _ _ _ a8 e8, allReal_of_reduce _ _ _ a9 e9, allReal_of_reduce _ _ _ a10 e10,
    allReal_of_reduce _ _ _ a11 e11, allReal_of_reduce _ _ _ a12 e12, allReal_of_reduce _ _ _ a13 e13,
    allReal_of_reduce _ _ _ a14 e14, allReal_of_reduce _ _ _ a15 e15, allReal_of_reduce _ _ _ a16 e16⟩

end Cert.Hand.PreFinite

end
-- ==== Proof.Bridge.lean ====
import proofs.«113696_j26852135535044_1_alg».proof.ReferenceIdeal
import proofs.«113696_j26852135535044_1_alg».proof.Proof.Gen.ReferenceIdeal
import proofs.«113696_j26852135535044_1_alg».proof.Proof.Ref.Fns
import proofs.«113696_j26852135535044_1_alg».proof.Proof.LayerAlg
import proofs.«113696_j26852135535044_1_alg».proof.Proof.LibERealSage
import proofs.«113696_j26852135535044_1_alg».proof.Proof.PreFinite
import Idealize.ShloMosaic.Lib.ValueIdx
import Idealize.ShloMosaic.Lib.Pipeline.Value
import Idealize.ShloMosaic.PureOps.Ideal.Laws
import Idealize.ShloMosaic.Lib.IdealHost

noncomputable section

namespace Cert.Hand.Bridge

open Idealize.ShloMosaic Idealize.SL.Sem Idealize.ShloMosaic.ValueIdx
open Cert.ReferenceIdeal Cert.ReferenceIdeal.Hand Cert.ReferenceIdeal.Facts₀ Cert.Hand.PreFinite
open Cert.LibERealSage
open scoped BigOperators

abbrev b01 (v : FVec Ideal S1x128 .f32) : FVec Ideal S100000x128 .f32 :=
  broadcastInDim S100000x128 ![0, 1] bcast_S1x128_S100000x128_0_1 v

abbrev row1 (v : FVec Ideal S128 .f32) : FVec Ideal S1x128 .f32 := broadcastInDim S1x128 ![1] bcast_S128_S1x128_1 v

abbrev n1 : FVec Ideal S1x128 .f32 := broadcastInDim S1x128 ![] bcast_S_S1x128 rowsS

abbrev e1 : FVec Ideal S1x128 .f32 := broadcastInDim S1x128 ![] bcast_S_S1x128 epsS

theorem b01_apply (v : FVec Ideal S1x128 .f32) (p : Fin 100000) (q : Fin 128) :
    b01 v (ix2 p q) = v (ix2 (0 : Fin 1) q) := by
  refine broadcastInDim_apply _ _ v (ix2 p q) (ix2 (0 : Fin 1) q) fun a => ?_
  match a with
  | ⟨0, _⟩ => rfl
  | ⟨1, _⟩ => rfl

theorem row1_apply (v : FVec Ideal S128 .f32) (z : Fin 1) (q : Fin 128) :
    row1 v (ix2 z q) = v (ix1 q) := by
  refine broadcastInDim_apply _ _ v (ix2 z q) (ix1 q) fun a => ?_
  match a with
  | ⟨0, _⟩ => rfl

theorem colB_of_reshape (v : FVec Ideal S100000 .f32) (h : S100000.ShapeCasts S100000x1) :
    broadcastInDim S100000x128 ![0, 1] bcast_S100000x1_S100000x128_0_1 (shapeCast S100000x1 v h) = colB v := by
  funext i
  obtain ⟨p, q, rfl⟩ : ∃ (p : Fin 100000) (q : Fin 128), i = ix2 p q := ⟨i 0, i 1, eq_ix2 i⟩
  have hk : ∀ a : Fin S100000x1.rank, ((ix2 p (0 : Fin 1) : S100000x1.Idx) a).val
      = if S100000x1.size a = 1 then 0 else ((ix2 p q : S100000x128.Idx) ((![0, 1] : Fin 2 → Fin 2) a)).val := fun a => by
    match a with
    | ⟨0, _⟩ => rfl
    | ⟨1, _⟩ => rfl
  rw [colB_def]
  rw [broadcastInDim_apply _ _ _ (ix2 p q) (ix2 p (0 : Fin 1)) hk, broadcastInDim_apply _ _ _ (ix2 p q) (ix2 p (0 : Fin 1)) hk]
  rw [shapeCast_apply v h (ix2 p (0 : Fin 1)) (ix1 p) (by rw [Shape.rowMajor_val_one, Shape.rowMajor_val_two]; show p.val = p.val * 1 + 0; omega)]
  refine (broadcastInDim_apply _ _ v (ix2 p (0 : Fin 1)) (ix1 p) fun a => ?_).symm
  match a with
  | ⟨0, _⟩ => rfl

theorem rowB_of_reshape (v : FVec Ideal S128 .f32) (h : S128.ShapeCasts S1x128) : b01 (shapeCast S1x128 v h) = rowB v := by
  have e : shapeCast S1x128 v h = row1 v := by
    funext i
    obtain ⟨z, q, rfl⟩ : ∃ (z : Fin 1) (q : Fin 128), i = ix2 z q := ⟨i 0, i 1, eq_ix2 i⟩
    rw [row1_apply]
    refine shapeCast_apply v h (ix2 z q) (ix1 q) ?_
    rw [Shape.rowMajor_val_one, Shape.rowMajor_val_two]
    show q.val = z.val * 128 + q.val
    omega
  rw [e, rowB_def]

theorem reshape_row_apply (v : FVec Ideal S128 .f32) (h : S128.ShapeCasts S1x128) (z : Fin 1) (q : Fin 128) :
    shapeCast S1x128 v h (ix2 z q) = v (ix1 q) := by
  refine shapeCast_apply v h (ix2 z q) (ix1 q) ?_
  rw [Shape.rowMajor_val_one, Shape.rowMajor_val_two]
  show q.val = z.val * 128 + q.val
  omega

theorem reduces_d0 : S100000x128.Reduces [0] S128 := by decide

theorem colSum_apply (x : FVec Ideal S100000x128 .f32) (q : Fin 128) :
    colSum x (ix1 q) = ∑ r : Fin 100000, x (ix2 r q) := by
  rw [colSum_def]
  refine (Ideal.hostReduceAdd_single reducesTo_S100000x128_S128_d0 reduces_d0 x _ (ix1 q)).trans ?_
  show Ideal.ofBits .f32 0x00000000#32 + _ = _
  rw [Ideal.ofBits_zero_f32, zero_add]
  refine Finset.sum_congr rfl fun r _ => congrArg x ?_
  funext a
  match a with
  | ⟨0, _⟩ => rfl
  | ⟨1, _⟩ => rfl

def kMu (pre : FVec Ideal S100000x128 .f32) : FVec Ideal S1x128 .f32 := Host.divf (row1 (colSum pre)) n1

def kScale (pre : FVec Ideal S100000x128 .f32) (g : FVec Ideal S128 .f32) (h : S128.ShapeCasts S1x128) : FVec Ideal S1x128 .f32 :=
  mulf (shapeCast S1x128 g h)
    (Host.rsqrt (addf (subf (Host.divf (row1 (colSum (mulf pre pre))) n1) (mulf (kMu pre) (kMu pre))) e1))

theorem kMu_apply (pre : FVec Ideal S100000x128 .f32) (z : Fin 1) (q : Fin 128) :
    kMu pre (ix2 z q) = Ideal.div (∑ r : Fin 100000, pre (ix2 r q)) (Ideal.ofBits .f32 0x47C35000#32) := by
  show Ideal.div (row1 (colSum pre) (ix2 z q)) (Ideal.ofBits .f32 0x47C35000#32) = _
  rw [row1_apply, colSum_apply]

theorem kScale_apply (pre : FVec Ideal S100000x128 .f32) (g : FVec Ideal S128 .f32) (h : S128.ShapeCasts S1x128)
    (z : Fin 1) (q : Fin 128) :
    kScale pre g h (ix2 z q) = g (ix1 q) * Ideal.rsqrt
      (Ideal.div (∑ r : Fin 100000, pre (ix2 r q) * pre (ix2 r q)) (Ideal.ofBits .f32 0x47C35000#32)
        - Ideal.div (∑ r : Fin 100000, pre (ix2 r q)) (Ideal.ofBits .f32 0x47C35000#32)
          * Ideal.div (∑ r : Fin 100000, pre (ix2 r q)) (Ideal.ofBits .f32 0x47C35000#32)
        + Ideal.ofBits .f32 0x3727C5AC#32) := by
  show shapeCast S1x128 g h (ix2 z q) * Ideal.rsqrt
      (Ideal.div (row1 (colSum (mulf pre pre)) (ix2 z q)) (Ideal.ofBits .f32 0x47C35000#32)
        - kMu pre (ix2 z q) * kMu pre (ix2 z q) + Ideal.ofBits .f32 0x3727C5AC#32) = _
  rw [reshape_row_apply, row1_apply, colSum_apply, kMu_apply]
  rfl

theorem lhs_apply (pre : FVec Ideal S100000x128 .f32) (g be : FVec Ideal S128 .f32) (h : S128.ShapeCasts S1x128)
    (p : Fin 100000) (q : Fin 128) :
    maximumf (addf (mulf (subf pre (b01 (kMu pre))) (b01 (kScale pre g h))) (b01 (shapeCast S1x128 be h)))
      (broadcastInDim S100000x128 ![] bcast_S_S100000x128 zeroS) (ix2 p q)
      = LayerAlg.kOut (fun (r : Fin 100000) (j : Fin 128) => pre (ix2 r j)) (fun j => g (ix1 j)) (fun j => be (ix1 j)) p q := by
  show max ((pre (ix2 p q) - b01 (kMu pre) (ix2 p q)) * b01 (kScale pre g h) (ix2 p q)
      + b01 (shapeCast S1x128 be h) (ix2 p q)) (Ideal.ofBits .f32 0x00000000#32) = _
  rw [b01_apply, b01_apply, b01_apply, reshape_row_apply, kScale_apply, kMu_apply, LayerAlg.kOut_unfold]

theorem rowB_apply (v : FVec Ideal S128 .f32) (p : Fin 100000) (q : Fin 128) : rowB v (ix2 p q) = v (ix1 q) := by
  rw [rowB_def]
  exact (b01_apply _ p q).trans (row1_apply v 0 q)

theorem refMean_apply (pre : FVec Ideal S100000x128 .f32) (q : Fin 128) :
    refMean pre (ix1 q) = Ideal.div (∑ r : Fin 100000, pre (ix2 r q)) (Ideal.ofBits .f32 0x47C35000#32) := by
  show Ideal.div (colSum pre (ix1 q)) (Ideal.ofBits .f32 0x47C35000#32) = _
  rw [colSum_apply]

theorem varCen_apply (x : FVec Ideal S100000x128 .f32) (r : Fin 100000) (q : Fin 128) :
    varCen x (ix2 r q) = x (ix2 r q) - Ideal.div (∑ r' : Fin 100000, x (ix2 r' q)) (Ideal.ofBits .f32 0x47C35000#32) := by
  show x (ix2 r q) - b01 (kMu x) (ix2 r q) = _
  rw [b01_apply, kMu_apply]

theorem refVar_apply (x : FVec Ideal S100000x128 .f32) (q : Fin 128) :
    refVar x (constantI S_ 32 0#32) (ix1 q)
      = if Ideal.cmp .ogt (Ideal.ofBits .f32 0x47C35000#32 - ((((0#32 : BitVec 32).toInt : ℤ) : ℝ) : EReal))
            (Ideal.ofBits .f32 0x00000000#32) = 1
        then Ideal.div
          (∑ r : Fin 100000, (x (ix2 r q) - Ideal.div (∑ r' : Fin 100000, x (ix2 r' q)) (Ideal.ofBits .f32 0x47C35000#32))
            * (x (ix2 r q) - Ideal.div (∑ r' : Fin 100000, x (ix2 r' q)) (Ideal.ofBits .f32 0x47C35000#32)))
          (Ideal.ofBits .f32 0x47C35000#32 - ((((0#32 : BitVec 32).toInt : ℤ) : ℝ) : EReal))
        else Ideal.ofBits .f32 0x7FC00000#32 := by
  show (if Ideal.cmp .ogt (Ideal.ofBits .f32 0x47C35000#32 - ((((0#32 : BitVec 32).toInt : ℤ) : ℝ) : EReal))
            (Ideal.ofBits .f32 0x00000000#32) = 1
        then Ideal.div (colSum (mulf (varCen x) (varCen x)) (ix1 q))
          (Ideal.ofBits .f32 0x47C35000#32 - ((((0#32 : BitVec 32).toInt : ℤ) : ℝ) : EReal))
        else Ideal.ofBits .f32 0x7FC00000#32) = _
  rw [colSum_apply]
  simp only [mulf_apply, varCen_apply]

theorem rhs_apply (pre : FVec Ideal S100000x128 .f32) (g be : FVec Ideal S128 .f32) (p : Fin 100000) (q : Fin 128) :
    refBn pre g be (ix2 p q)
      = LayerAlg.rOut (fun (r : Fin 100000) (j : Fin 128) => pre (ix2 r j)) (fun j => g (ix1 j)) (fun j => be (ix1 j)) p q := by
  show max ((pre (ix2 p q) - rowB (refMean pre) (ix2 p q)) * rowB (refScale pre g) (ix2 p q)
      + rowB be (ix2 p q)) (Ideal.ofBits .f32 0x00000000#32) = _
  rw [rowB_apply, rowB_apply, rowB_apply, refMean_apply]
  show max ((pre (ix2 p q) - _) * Ideal.div (g (ix1 q))
      (Ideal.sqrt (refVar pre (constantI S_ 32 0#32) (ix1 q) + Ideal.ofBits .f32 0x3727C5AC#32)) + be (ix1 q)) _ = _
  rw [refVar_apply, LayerAlg.rOut_unfold]

theorem bn_bridge (pre : FVec Ideal S100000x128 .f32) (g be : FVec Ideal S128 .f32) (h : S128.ShapeCasts S1x128)
    (hpre : AllReal pre) :
    maximumf (addf (mulf (subf pre (b01 (kMu pre))) (b01 (kScale pre g h))) (b01 (shapeCast S1x128 be h)))
      (broadcastInDim S100000x128 ![] bcast_S_S100000x128 zeroS) = refBn pre g be := by
  funext i
  obtain ⟨p, q, rfl⟩ : ∃ (p : Fin 100000) (q : Fin 128), i = ix2 p q := ⟨i 0, i 1, eq_ix2 i⟩
  rw [lhs_apply, rhs_apply]
  exact LayerAlg.kOut_eq_rOut _ _ _ LayerAlg.card_fin_N (fun r j => hpre (ix2 r j)) p q

theorem allReal_bcast {s t : Shape} (dims : Fin s.rank → Fin t.rank) (h : s.BroadcastsInDim t dims) (x : FVec Ideal s .f32)
    (hx : AllReal x) : AllReal (broadcastInDim t dims h x) := fun j => hx _

theorem allReal_zeroS : AllReal (zeroS (F := Ideal)) := fun i => ⟨0, by
  show Ideal.ofBits .f32 0x00000000#32 = _
  rw [Ideal.ofBits_zero_f32]; rfl⟩

theorem allReal_oneS : AllReal (oneS (F := Ideal)) := fun i => ⟨1, by
  show Ideal.ofBits .f32 0x3F800000#32 = _
  rw [Ideal.ofBits_one_f32]; rfl⟩

theorem nonneg_real_sum {ι : Type*} (S : Finset ι) (f : ι → EReal) (h : ∀ i ∈ S, ∃ r : ℝ, 0 ≤ r ∧ f i = (r : EReal)) :
    ∃ r : ℝ, 0 ≤ r ∧ ∑ i ∈ S, f i = (r : EReal) := by
  classical
  induction S using Finset.induction_on with
  | empty => exact ⟨0, le_refl 0, by simp⟩
  | insert a s ha ih =>
    obtain ⟨r1, h1, e1⟩ := h a (Finset.mem_insert_self a s)
    obtain ⟨r2, h2, e2⟩ := ih (fun i hi => h i (Finset.mem_insert_of_mem hi))
    refine ⟨r1 + r2, add_nonneg h1 h2, ?_⟩
    rw [Finset.sum_insert ha, e1, e2, EReal.coe_add]

theorem scatterAdd_nonneg {φ : FTy} {s si u : Shape} {w : Nat} (d : ScatterDims s si u)
    (x : FVec Ideal s φ) (idx : IVec si w) (upd : FVec Ideal u φ)
    (hx : ∀ i, ∃ r : ℝ, 0 ≤ r ∧ x i = (r : EReal)) (hu : ∀ j, ∃ r : ℝ, 0 ≤ r ∧ upd j = (r : EReal)) :
    ∀ i, ∃ r : ℝ, 0 ≤ r ∧ Host.scatterAdd (F := Ideal) d x idx upd i = (r : EReal) := by
  intro i
  show ∃ r : ℝ, 0 ≤ r ∧ x i + ∑ j ∈ Finset.univ.filter (fun j => d.resultIdx? j idx = some i), upd j = (r : EReal)
  obtain ⟨a, ha, ea⟩ := hx i
  obtain ⟨c, hc, ec⟩ := nonneg_real_sum (Finset.univ.filter (fun j => d.resultIdx? j idx = some i)) upd (fun j _ => hu j)
  exact ⟨a + c, add_nonneg ha hc, by rw [ea, ec, EReal.coe_add]⟩

theorem isReal_rsqrt_add_one {s : Shape} (A B : FVec Ideal s .f32) (i : s.Idx)
    (hA : ∃ r : ℝ, 0 ≤ r ∧ A i = (r : EReal)) (hB : B i = 1) : ∃ r : ℝ, Host.rsqrt (addf A B) i = (r : EReal) := by
  show ∃ r : ℝ, Ideal.rsqrt (A i + B i) = (r : EReal)
  obtain ⟨d, hd, ed⟩ := hA
  rw [ed, hB, ← EReal.coe_one, ← EReal.coe_add, LayerAlg.rsqrt_coe_of_pos (by linarith : (0 : ℝ) < d + 1)]
  exact ⟨_, rfl⟩

theorem bcast_oneS_apply {T : Shape} (h : S_.BroadcastsInDim T ![]) (j : T.Idx) :
    broadcastInDim T ![] h (oneS (F := Ideal)) j = 1 :=
  (broadcastInDim_scalar_apply h _ j).trans Ideal.ofBits_one_f32

theorem bcast_zeroS_apply {T : Shape} (h : S_.BroadcastsInDim T ![]) (j : T.Idx) :
    broadcastInDim T ![] h (zeroS (F := Ideal)) j = 0 :=
  (broadcastInDim_scalar_apply h _ j).trans Ideal.ofBits_zero_f32

theorem allReal_refDis (dst : IVec S800000 32) : AllReal (refDis (F := Ideal) dst) := by
  intro i
  rw [refDis_def]
  refine isReal_rsqrt_add_one _ _ i ?_ (bcast_oneS_apply _ i)
  exact scatterAdd_nonneg scatter_S100000_S800000x1_S800000_n_0_0_1 _ (idxCol dst) _
    (fun k => ⟨0, le_refl 0, (bcast_zeroS_apply _ k).trans EReal.coe_zero.symm⟩)
    (fun k => ⟨1, zero_le_one, (bcast_oneS_apply _ k).trans EReal.coe_one.symm⟩) i

theorem allReal_refNorm (dis : FVec Ideal S100000 .f32) (src dst : IVec S800000 32) (hd : AllReal dis) :
    AllReal (refNorm dis src dst) := by
  intro i
  exact isReal_mul (isReal_gather _ dis _ hd i) (isReal_gather _ dis _ hd i)

theorem allReal_dot1 (x : FVec Ideal S100000x256 .f32) (W : FVec Ideal S256x128 .f32) (hx : AllReal x) (hW : AllReal W) :
    AllReal (Host.dotGeneral (F := Ideal) dot_S100000x256_S256x128_S100000x128_1_0_0_1_n_n none x W) := by
  intro j
  show IsReal (FloatOps.dotGeneral dot_S100000x256_S256x128_S100000x128_1_0_0_1_n_n none .single x W j)
  rw [Ideal.dotGeneral_apply]
  exact isReal_sum_univ _ fun k => isReal_mul (hx _) (hW _)

theorem allReal_dot2 (x : FVec Ideal S100000x128 .f32) (W : FVec Ideal S128x128 .f32) (hx : AllReal x) (hW : AllReal W) :
    AllReal (Host.dotGeneral (F := Ideal) dot_S100000x128_S128x128_S100000x128_1_0_0_1_n_n none x W) := by
  intro j
  show IsReal (FloatOps.dotGeneral dot_S100000x128_S128x128_S100000x128_1_0_0_1_n_n none .single x W j)
  rw [Ideal.dotGeneral_apply]
  exact isReal_sum_univ _ fun k => isReal_mul (hx _) (hW _)

theorem allReal_addf {s : Shape} (a b : FVec Ideal s .f32) (ha : AllReal a) (hb : AllReal b) : AllReal (addf a b) := by
  intro i
  show IsReal (a i + b i)
  exact isReal_add (ha i) (hb i)

theorem allReal_mulf {s : Shape} (a b : FVec Ideal s .f32) (ha : AllReal a) (hb : AllReal b) : AllReal (mulf a b) := by
  intro i
  show IsReal (a i * b i)
  exact isReal_mul (ha i) (hb i)

theorem allReal_gather {s si t : Shape} {w : Nat} (d : GatherDims s si t) (x : FVec Ideal s .f32) (idx : IVec si w)
    (hx : AllReal x) : AllReal (Host.gather d x idx) :=
  fun j => hx (d.operandIdx j idx)

theorem allReal_scatterAdd {s si u : Shape} {w : Nat} (d : ScatterDims s si u) (x : FVec Ideal s .f32) (idx : IVec si w)
    (upd : FVec Ideal u .f32) (hx : AllReal x) (hu : AllReal upd) : AllReal (Host.scatterAdd (F := Ideal) d x idx upd) :=
  isReal_scatterAdd d x idx upd hx hu

theorem allReal_refAgg (xw : FVec Ideal S100000x128 .f32) (dis : FVec Ideal S100000 .f32) (b : FVec Ideal S128 .f32)
    (src dst : IVec S800000 32) (hxw : AllReal xw) (hdis : AllReal dis) (hb : AllReal b) :
    AllReal (refAgg xw dis b src dst) := by
  rw [refAgg_def, rowB_def, colB_def, edgeB_def]
  refine allReal_addf _ _ (allReal_addf _ _ (allReal_scatterAdd _ _ _ _ ?_ ?_) ?_) ?_
  · exact allReal_bcast _ _ _ allReal_zeroS
  · exact allReal_mulf _ _ (allReal_gather _ _ _ hxw)
      (allReal_bcast _ _ _ (allReal_bcast _ _ _ (allReal_refNorm dis src dst hdis)))
  · exact allReal_mulf _ _ hxw (allReal_bcast _ _ _ (allReal_bcast _ _ _ (allReal_mulf _ _ hdis hdis)))
  · exact allReal_bcast _ _ _ (allReal_bcast _ _ _ hb)

theorem allReal_refBn (pre : FVec Ideal S100000x128 .f32) (g be : FVec Ideal S128 .f32) (hpre : AllReal pre)
    (hg : AllReal g) (hbe : AllReal be) : AllReal (refBn pre g be) := by
  intro i
  obtain ⟨p, q, rfl⟩ : ∃ (p : Fin 100000) (q : Fin 128), i = ix2 p q := ⟨i 0, i 1, eq_ix2 i⟩
  rw [rhs_apply]
  exact LayerAlg.isReal_rOut _ _ _ LayerAlg.card_fin_N (fun r j => hpre (ix2 r j)) (fun j => hg (ix1 j)) (fun j => hbe (ix1 j)) p q

end Cert.Hand.Bridge

end
-- ==== Proof.KI.Walk1.lean ====
import proofs.«113696_j26852135535044_1_alg».proof.Proof.KI.Run
import proofs.«113696_j26852135535044_1_alg».proof.Proof.KI.ValM0
import proofs.«113696_j26852135535044_1_alg».proof.Proof.KI.ValB2
import proofs.«113696_j26852135535044_1_alg».proof.Proof.KI.Vals
import proofs.«113696_j26852135535044_1_alg».proof.Proof.Ref.Fns
import proofs.«113696_j26852135535044_1_alg».proof.Proof.Bridge
import proofs.«113696_j26852135535044_1_alg».proof.Proof.PreFinite
import proofs.«113696_j26852135535044_1_alg».proof.ReferenceIdeal
import proofs.«113696_j26852135535044_1_alg».proof.Proof.Gen.ReferenceIdeal
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand Cert.Hand.Bridge Cert.Hand.PreFinite

section Host

variable {F : FTy → Type} [FloatOps F]

attribute [local irreducible] Host.gather Host.scatterAdd Host.reduceAdd

set_option maxRecDepth 8192 in
set_option maxHeartbeats 4000000 in
theorem hostOps0_v6 (V : Valuation τ sig (Elt F)) :
    after hostOps0 V (main_v6 : DevRef τ sig) = refDis (V (main_arg2 : DevRef τ sig)) := by
  simp only [after_cons, after_nil]
  rfl

set_option maxRecDepth 8192 in
set_option maxHeartbeats 4000000 in
theorem hostOps0_v21 (V : Valuation τ sig (Elt F)) :
    after hostOps0 V (main_v21 : DevRef τ sig)
      = refNorm (refDis (V (main_arg2 : DevRef τ sig))) (V (main_arg1 : DevRef τ sig)) (V (main_arg2 : DevRef τ sig)) := by
  simp only [after_cons, after_nil]
  rfl

set_option maxRecDepth 8192 in
set_option maxHeartbeats 4000000 in
theorem hostOps0_v23 (V : Valuation τ sig (Elt F)) :
    after hostOps0 V (main_v23 : DevRef τ sig)
      = shapeCast S100000x1 (mulf (refDis (F := F) (V (main_arg2 : DevRef τ sig))) (refDis (V (main_arg2 : DevRef τ sig))))
          Cert.KernelIdeal.Facts₀.shapeCasts_S100000_S100000x1 := by
  simp only [after_cons, after_nil]
  rfl

set_option maxRecDepth 8192 in
set_option maxHeartbeats 4000000 in
theorem hostOps1_v37 (V : Valuation τ sig (Elt F)) :
    after hostOps1 V (main_v37 : DevRef τ sig)
      = Host.scatterAdd Cert.ReferenceIdeal.scatter_S100000x128_S800000x1_S800000x128_1_0_0_1
          (broadcastInDim S100000x128 ![] Cert.ReferenceIdeal.Facts₀.bcast_S_S100000x128 zeroS)
          (idxCol (V (main_arg2 : DevRef τ sig)))
          (mulf (Host.gather Cert.ReferenceIdeal.gather_S100000x128_S800000x1_S800000x128_1_0_n_n_0_1_1128 (V (main_v24 : DevRef τ sig))
              (idxCol (fixIdx (V (main_arg1 : DevRef τ sig)))))
            (edgeB (V (main_v21 : DevRef τ sig)))) := by
  simp only [after_cons, after_nil]
  rfl

set_option maxRecDepth 8192 in
set_option maxHeartbeats 4000000 in
theorem hostOps1_v39 (V : Valuation τ sig (Elt F)) :
    after hostOps1 V (main_v39 : DevRef τ sig)
      = mulf (V (main_v24 : DevRef τ sig) : FVec F S100000x128 .f32)
          (broadcastInDim S100000x128 ![0, 1] Cert.ReferenceIdeal.Facts₀.bcast_S100000x1_S100000x128_0_1 (V (main_v23 : DevRef τ sig))) := by
  simp only [after_cons, after_nil]
  rfl

set_option maxRecDepth 8192 in
set_option maxHeartbeats 4000000 in
theorem hostOps1_v40 (V : Valuation τ sig (Elt F)) :
    after hostOps1 V (main_v40 : DevRef τ sig)
      = shapeCast S1x128 (V (main_arg4 : DevRef τ sig) : FVec F S128 .f32) Cert.KernelIdeal.Facts₀.shapeCasts_S128_S1x128 := by
  simp only [after_cons, after_nil]
  rfl

set_option maxRecDepth 8192 in
set_option maxHeartbeats 4000000 in
theorem hostOps2_v43 (V : Valuation τ sig (Elt F)) :
    after hostOps2 V (main_v43 : DevRef τ sig)
      = Host.divf (V (main_v41_1 : DevRef τ sig) : FVec F S1x128 .f32)
          (broadcastInDim S1x128 ![] Cert.ReferenceIdeal.Facts₀.bcast_S_S1x128 rowsS) := by
  simp only [after_cons, after_nil]
  rfl

set_option maxRecDepth 8192 in
set_option maxHeartbeats 4000000 in
theorem hostOps2_v52 (V : Valuation τ sig (Elt F)) :
    after hostOps2 V (main_v52 : DevRef τ sig)
      = mulf (shapeCast S1x128 (V (main_arg5 : DevRef τ sig) : FVec F S128 .f32) Cert.KernelIdeal.Facts₀.shapeCasts_S128_S1x128)
          (Host.rsqrt (addf (subf
            (Host.divf (V (main_v41_2 : DevRef τ sig) : FVec F S1x128 .f32) (broadcastInDim S1x128 ![] Cert.ReferenceIdeal.Facts₀.bcast_S_S1x128 rowsS))
            (mulf (Host.divf (V (main_v41_1 : DevRef τ sig) : FVec F S1x128 .f32) (broadcastInDim S1x128 ![] Cert.ReferenceIdeal.Facts₀.bcast_S_S1x128 rowsS))
              (Host.divf (V (main_v41_1 : DevRef τ sig) : FVec F S1x128 .f32) (broadcastInDim S1x128 ![] Cert.ReferenceIdeal.Facts₀.bcast_S_S1x128 rowsS))))
            (broadcastInDim S1x128 ![] Cert.ReferenceIdeal.Facts₀.bcast_S_S1x128 epsS))) := by
  simp only [after_cons, after_nil]
  rfl

set_option maxRecDepth 8192 in
set_option maxHeartbeats 4000000 in
theorem hostOps2_v53 (V : Valuation τ sig (Elt F)) :
    after hostOps2 V (main_v53 : DevRef τ sig)
      = shapeCast S1x128 (V (main_arg6 : DevRef τ sig) : FVec F S128 .f32) Cert.KernelIdeal.Facts₀.shapeCasts_S128_S1x128 := by
  simp only [after_cons, after_nil]
  rfl

end Host

variable (m : (ℓ : Loc nD τ sig) → Buf (Elt Ideal) ℓ) (ρ : Dev nD → PrngReg)

theorem keep_0_1 (c : Dev nD) (r : Ref sig .tc) (h0 : r ∉ hostOps0_W) :
    W1 m ρ c (Proc.devRef .tc r) = m ((c : Thread nD τ).loc r) :=
  (W1_of m ρ c r h0).trans rfl

theorem keep_0_2 (c : Dev nD) (r : Ref sig .tc) (h0 : r ∉ hostOps0_W)
    (h1 : ∀ w : Fin cfg0.W, (cfg0.win w).isOut = true → Pipeline.arrRef spec0 w ≠ r) :
    W2 m ρ c (Proc.devRef .tc r) = m ((c : Thread nD τ).loc r) :=
  (W2_of m ρ c r h1).trans (keep_0_1 m ρ c r h0)

theorem keep_0_4 (c : Dev nD) (r : Ref sig .tc) (h0 : r ∉ hostOps0_W)
    (h1 : ∀ w : Fin cfg0.W, (cfg0.win w).isOut = true → Pipeline.arrRef spec0 w ≠ r) (h2 : r ∉ hostOps1_W)
    (h3 : ∀ w : Fin cfg1.W, (cfg1.win w).isOut = true → Pipeline.arrRef spec1 w ≠ r) :
    W4 m ρ c (Proc.devRef .tc r) = m ((c : Thread nD τ).loc r) :=
  (W4_of m ρ c r h3).trans ((W3_of m ρ c r h2).trans (keep_0_2 m ρ c r h0 h1))

theorem keep_1_6 (c : Dev nD) (r : Ref sig .tc)
    (h1 : ∀ w : Fin cfg0.W, (cfg0.win w).isOut = true → Pipeline.arrRef spec0 w ≠ r) (h2 : r ∉ hostOps1_W)
    (h3 : ∀ w : Fin cfg1.W, (cfg1.win w).isOut = true → Pipeline.arrRef spec1 w ≠ r) (h4 : r ∉ hostOps2_W)
    (h5 : ∀ w : Fin cfg2.W, (cfg2.win w).isOut = true → Pipeline.arrRef spec2 w ≠ r) :
    W6 m ρ c (Proc.devRef .tc r) = W1 m ρ c (Proc.devRef .tc r) :=
  (W6_of m ρ c r h5).trans ((W5_of m ρ c r h4).trans ((W4_of m ρ c r h3).trans ((W3_of m ρ c r h2).trans (W2_of m ρ c r h1))))

theorem keep_6_11 (c : Dev nD) (r : Ref sig .tc)
    (h6 : ∀ w : Fin cfg3.W, (cfg3.win w).isOut = true → Pipeline.arrRef spec3 w ≠ r) (h7 : r ∉ hostOps4_W)
    (h8 : ∀ w : Fin cfg4.W, (cfg4.win w).isOut = true → Pipeline.arrRef spec4 w ≠ r) (h9 : r ∉ hostOps5_W)
    (h10 : ∀ w : Fin cfg5.W, (cfg5.win w).isOut = true → Pipeline.arrRef spec5 w ≠ r) :
    W11 m ρ c (Proc.devRef .tc r) = W6 m ρ c (Proc.devRef .tc r) :=
  (W11_of m ρ c r h10).trans ((W10_of m ρ c r h9).trans ((W9_of m ρ c r h8).trans ((W8_of m ρ c r h7).trans (W7_of m ρ c r h6))))

theorem v6_1 (c : Dev nD) :
    (B1 (F := Ideal) m ρ c main_v6 : FVec Ideal S100000 .f32) = refDis (F := Ideal) (m ((c : Thread nD τ).loc main_arg2)) :=
  hostOps0_v6 (W0 m ρ c)

theorem v21_1 (c : Dev nD) :
    (B1 (F := Ideal) m ρ c main_v21 : FVec Ideal S800000 .f32)
      = refNorm (F := Ideal) (refDis (m ((c : Thread nD τ).loc main_arg2))) (m ((c : Thread nD τ).loc main_arg1)) (m ((c : Thread nD τ).loc main_arg2)) :=
  hostOps0_v21 (W0 m ρ c)

theorem v23_1 (c : Dev nD) :
    (B1 (F := Ideal) m ρ c main_v23 : FVec Ideal S100000x1 .f32)
      = shapeCast S100000x1 (mulf (refDis (F := Ideal) (m ((c : Thread nD τ).loc main_arg2))) (refDis (m ((c : Thread nD τ).loc main_arg2))))
          Cert.KernelIdeal.Facts₀.shapeCasts_S100000_S100000x1 :=
  hostOps0_v23 (W0 m ρ c)

theorem keep_v21_6 (c : Dev nD) : B6 (F := Ideal) m ρ c main_v21 = B1 m ρ c main_v21 :=
  keep_1_6 m ρ c main_v21 (by decide) (by decide) (by decide) (by decide) (by decide)
theorem keep_v21_7 (c : Dev nD) : B7 (F := Ideal) m ρ c main_v21 = B1 m ρ c main_v21 :=
  (W7_of m ρ c main_v21 (by decide)).trans (keep_v21_6 m ρ c)
theorem keep_v21_11 (c : Dev nD) : B11 (F := Ideal) m ρ c main_v21 = B1 m ρ c main_v21 :=
  (keep_6_11 m ρ c main_v21 (by decide) (by decide) (by decide) (by decide) (by decide)).trans (keep_v21_6 m ρ c)
theorem keep_v21_12 (c : Dev nD) : B12 (F := Ideal) m ρ c main_v21 = B1 m ρ c main_v21 :=
  (W12_of m ρ c main_v21 (by decide)).trans (keep_v21_11 m ρ c)

theorem keep_v23_6 (c : Dev nD) : B6 (F := Ideal) m ρ c main_v23 = B1 m ρ c main_v23 :=
  keep_1_6 m ρ c main_v23 (by decide) (by decide) (by decide) (by decide) (by decide)
theorem keep_v23_7 (c : Dev nD) : B7 (F := Ideal) m ρ c main_v23 = B1 m ρ c main_v23 :=
  (W7_of m ρ c main_v23 (by decide)).trans (keep_v23_6 m ρ c)
theorem keep_v23_11 (c : Dev nD) : B11 (F := Ideal) m ρ c main_v23 = B1 m ρ c main_v23 :=
  (keep_6_11 m ρ c main_v23 (by decide) (by decide) (by decide) (by decide) (by decide)).trans (keep_v23_6 m ρ c)
theorem keep_v23_12 (c : Dev nD) : B12 (F := Ideal) m ρ c main_v23 = B1 m ρ c main_v23 :=
  (W12_of m ρ c main_v23 (by decide)).trans (keep_v23_11 m ρ c)

theorem v24_2 (c : Dev nD) :
    (B2 (F := Ideal) m ρ c main_v24 : FVec Ideal S100000x128 .f32)
      = Host.dotGeneral (F := Ideal) (φ₁ := .f32) (φ₂ := .f32) Cert.ReferenceIdeal.dot_S100000x256_S256x128_S100000x128_1_0_0_1_n_n none (m ((c : Thread nD τ).loc main_arg0)) (m ((c : Thread nD τ).loc main_arg3)) := by
  have e : (W2 (F := Ideal) m ρ c (Proc.devRef .tc main_v24) : FVec Ideal S100000x128 .f32)
      = Host.dotGeneral (F := Ideal) (φ₁ := .f32) (φ₂ := .f32) Cert.ReferenceIdeal.dot_S100000x256_S256x128_S100000x128_1_0_0_1_n_n none
          (W1 m ρ c (Proc.devRef .tc main_arg0)) (W1 m ρ c (Proc.devRef .tc main_arg3)) :=
    (W2_arr (F := Ideal) m ρ c 2).trans (arrAt0_2 (B1 m ρ) c)
  rw [keep_0_1 m ρ c main_arg0 (by decide), keep_0_1 m ρ c main_arg3 (by decide)] at e
  exact e

theorem pre1All_3 (c : Dev nD) : pre1All (B3 (F := Ideal) m ρ) c = (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) := by
  have e37 : W3 (F := Ideal) m ρ c (Proc.devRef .tc main_v37) = _ := hostOps1_v37 (F := Ideal) (W2 m ρ c)
  have e39 : W3 (F := Ideal) m ρ c (Proc.devRef .tc main_v39) = _ := hostOps1_v39 (F := Ideal) (W2 m ρ c)
  have e40 : W3 (F := Ideal) m ρ c (Proc.devRef .tc main_v40) = _ := hostOps1_v40 (F := Ideal) (W2 m ρ c)
  have a21 : W2 (F := Ideal) m ρ c (Proc.devRef .tc main_v21) = _ := (W2_of m ρ c main_v21 (by decide)).trans (v21_1 m ρ c)
  have a23 : W2 (F := Ideal) m ρ c (Proc.devRef .tc main_v23) = _ := (W2_of m ρ c main_v23 (by decide)).trans (v23_1 m ρ c)
  rw [keep_0_2 m ρ c main_arg2 (by decide) (by decide), keep_0_2 m ρ c main_arg1 (by decide) (by decide), a21,
    show W2 (F := Ideal) m ρ c (Proc.devRef .tc main_v24) = _ from v24_2 m ρ c] at e37
  rw [a23, show W2 (F := Ideal) m ρ c (Proc.devRef .tc main_v24) = _ from v24_2 m ρ c, colB_of_reshape] at e39
  rw [keep_0_2 m ρ c main_arg4 (by decide) (by decide)] at e40
  show addf (addf (W3 (F := Ideal) m ρ c (Proc.devRef .tc main_v37)) (W3 (F := Ideal) m ρ c (Proc.devRef .tc main_v39)))
      (Cert.Hand.Bridge.b01 (W3 (F := Ideal) m ρ c (Proc.devRef .tc main_v40))) = _
  rw [e37, e39, e40, rowB_of_reshape]
  rfl

theorem v41_0_4 (c : Dev nD) :
    (B4 (F := Ideal) m ρ c main_v41_0 : FVec Ideal S100000x128 .f32) = (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) :=
  ((W4_arr (F := Ideal) m ρ c 3).trans (arrAt1_3 (B3 m ρ) c)).trans (pre1All_3 m ρ c)

theorem v41_1_4 (c : Dev nD) :
    (B4 (F := Ideal) m ρ c main_v41_1 : FVec Ideal S1x128 .f32) = row1 (colSum (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2)))) := by
  have e := (W4_arr (F := Ideal) m ρ c 4).trans (arrAt1_4 (B3 m ρ) c)
  rw [pre1All_3 m ρ c] at e
  exact e

theorem v41_2_4 (c : Dev nD) :
    (B4 (F := Ideal) m ρ c main_v41_2 : FVec Ideal S1x128 .f32)
      = row1 (colSum (mulf (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))))) := by
  have e := (W4_arr (F := Ideal) m ρ c 5).trans (arrAt1_5 (B3 m ρ) c)
  rw [pre1All_3 m ρ c] at e
  exact e

theorem v43_5 (c : Dev nD) :
    (B5 (F := Ideal) m ρ c main_v43 : FVec Ideal S1x128 .f32) = kMu (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) := by
  have e := hostOps2_v43 (F := Ideal) (W4 m ρ c)
  rw [show W4 (F := Ideal) m ρ c (Proc.devRef .tc main_v41_1) = _ from v41_1_4 m ρ c] at e
  exact e

theorem v52_5 (c : Dev nD) :
    (B5 (F := Ideal) m ρ c main_v52 : FVec Ideal S1x128 .f32) = kScale (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) (m ((c : Thread nD τ).loc main_arg5)) Cert.KernelIdeal.Facts₀.shapeCasts_S128_S1x128 := by
  have e := hostOps2_v52 (F := Ideal) (W4 m ρ c)
  rw [show W4 (F := Ideal) m ρ c (Proc.devRef .tc main_v41_1) = _ from v41_1_4 m ρ c,
    show W4 (F := Ideal) m ρ c (Proc.devRef .tc main_v41_2) = _ from v41_2_4 m ρ c,
    keep_0_4 m ρ c main_arg5 (by decide) (by decide) (by decide) (by decide)] at e
  exact e

theorem v53_5 (c : Dev nD) :
    (B5 (F := Ideal) m ρ c main_v53 : FVec Ideal S1x128 .f32) = shapeCast S1x128 (m ((c : Thread nD τ).loc main_arg6)) Cert.KernelIdeal.Facts₀.shapeCasts_S128_S1x128 := by
  have e := hostOps2_v53 (F := Ideal) (W4 m ρ c)
  rw [keep_0_4 m ρ c main_arg6 (by decide) (by decide) (by decide) (by decide)] at e
  exact e

theorem v41_0_5 (c : Dev nD) :
    (B5 (F := Ideal) m ρ c main_v41_0 : FVec Ideal S100000x128 .f32) = (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) :=
  (W5_of m ρ c main_v41_0 (by decide)).trans (v41_0_4 m ρ c)

theorem allReal_pre1 (c : Dev nD) (h0 : AllReal (m ((c : Thread nD τ).loc main_arg0))) (h3 : AllReal (m ((c : Thread nD τ).loc main_arg3))) (h4 : AllReal (m ((c : Thread nD τ).loc main_arg4))) :
    AllReal (refConv1 (F := Ideal) (m ((c : Thread nD τ).loc main_arg0)) (m ((c : Thread nD τ).loc main_arg3)) (m ((c : Thread nD τ).loc main_arg4)) (m ((c : Thread nD τ).loc main_arg1)) (m ((c : Thread nD τ).loc main_arg2))) :=
  allReal_refAgg _ _ _ _ _ (allReal_dot1 _ _ h0 h3) (allReal_refDis _) h4

theorem v54_6 (c : Dev nD) (h0 : AllReal (m ((c : Thread nD τ).loc main_arg0))) (h3 : AllReal (m ((c : Thread nD τ).loc main_arg3))) (h4 : AllReal (m ((c : Thread nD τ).loc main_arg4))) :
    (B6 (F := Ideal) m ρ c main_v54 : FVec Ideal S100000x128 .f32)
      = refH1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : (W6 (F := Ideal) m ρ c (Proc.devRef .tc main_v54) : FVec Ideal S100000x128 .f32)
      = maximumf (addf (mulf (subf (W5 (F := Ideal) m ρ c (Proc.devRef .tc main_v41_0) : FVec Ideal S100000x128 .f32)
            (Cert.Hand.Bridge.b01 (W5 (F := Ideal) m ρ c (Proc.devRef .tc main_v43))))
          (Cert.Hand.Bridge.b01 (W5 (F := Ideal) m ρ c (Proc.devRef .tc main_v52))))
          (Cert.Hand.Bridge.b01 (W5 (F := Ideal) m ρ c (Proc.devRef .tc main_v53))))
        (broadcastInDim S100000x128 ![] Cert.ReferenceIdeal.Facts₀.bcast_S_S100000x128 zeroS) :=
    (W6_arr (F := Ideal) m ρ c 4).trans (arrAt2_4 (B5 m ρ) c)
  rw [show W5 (F := Ideal) m ρ c (Proc.devRef .tc main_v41_0) = _ from v41_0_5 m ρ c,
    show W5 (F := Ideal) m ρ c (Proc.devRef .tc main_v43) = _ from v43_5 m ρ c,
    show W5 (F := Ideal) m ρ c (Proc.devRef .tc main_v52) = _ from v52_5 m ρ c,
    show W5 (F := Ideal) m ρ c (Proc.devRef .tc main_v53) = _ from v53_5 m ρ c,
    bn_bridge _ _ _ _ (allReal_pre1 m c h0 h3 h4)] at e
  exact e

theorem v54_6_real (c : Dev nD) (h0 : AllReal (m ((c : Thread nD τ).loc main_arg0))) (h3 : AllReal (m ((c : Thread nD τ).loc main_arg3))) (h4 : AllReal (m ((c : Thread nD τ).loc main_arg4)))
    (h5 : AllReal (m ((c : Thread nD τ).loc main_arg5))) (h6 : AllReal (m ((c : Thread nD τ).loc main_arg6))) :
    AllReal (B6 (F := Ideal) m ρ c main_v54 : FVec Ideal S100000x128 .f32) := by
  rw [show (B6 (F := Ideal) m ρ c main_v54 : FVec Ideal S100000x128 .f32) = _ from v54_6 m ρ c h0 h3 h4]
  exact allReal_refBn _ _ _ (allReal_pre1 m c h0 h3 h4) h5 h6

end Cert.KernelIdeal.Hand

end
-- ==== Proof.KI.Keep.lean ====
import proofs.«113696_j26852135535044_1_alg».proof.Proof.KI.Run

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem W1_asLaunched (c : Dev nD) (r : Ref sig .tc) (h : Untouched r) :
    W1 m ρ c (Proc.devRef .tc r) = m ((c : Thread nD τ).loc r) :=
  (W1_of m ρ c r h.1).trans rfl
theorem W2_asLaunched (c : Dev nD) (r : Ref sig .tc) (h : Untouched r) :
    W2 m ρ c (Proc.devRef .tc r) = m ((c : Thread nD τ).loc r) :=
  (W2_of m ρ c r h.2.1).trans (W1_asLaunched m ρ c r h)
theorem W3_asLaunched (c : Dev nD) (r : Ref sig .tc) (h : Untouched r) :
    W3 m ρ c (Proc.devRef .tc r) = m ((c : Thread nD τ).loc r) :=
  (W3_of m ρ c r h.2.2.1).trans (W2_asLaunched m ρ c r h)
theorem W4_asLaunched (c : Dev nD) (r : Ref sig .tc) (h : Untouched r) :
    W4 m ρ c (Proc.devRef .tc r) = m ((c : Thread nD τ).loc r) :=
  (W4_of m ρ c r h.2.2.2.1).trans (W3_asLaunched m ρ c r h)
theorem W5_asLaunched (c : Dev nD) (r : Ref sig .tc) (h : Untouched r) :
    W5 m ρ c (Proc.devRef .tc r) = m ((c : Thread nD τ).loc r) :=
  (W5_of m ρ c r h.2.2.2.2.1).trans (W4_asLaunched m ρ c r h)
theorem W6_asLaunched (c : Dev nD) (r : Ref sig .tc) (h : Untouched r) :
    W6 m ρ c (Proc.devRef .tc r) = m ((c : Thread nD τ).loc r) :=
  (W6_of m ρ c r h.2.2.2.2.2.1).trans (W5_asLaunched m ρ c r h)
theorem W7_asLaunched (c : Dev nD) (r : Ref sig .tc) (h : Untouched r) :
    W7 m ρ c (Proc.devRef .tc r) = m ((c : Thread nD τ).loc r) :=
  (W7_of m ρ c r h.2.2.2.2.2.2.1).trans (W6_asLaunched m ρ c r h)
theorem W8_asLaunched (c : Dev nD) (r : Ref sig .tc) (h : Untouched r) :
    W8 m ρ c (Proc.devRef .tc r) = m ((c : Thread nD τ).loc r) :=
  (W8_of m ρ c r h.2.2.2.2.2.2.2.1).trans (W7_asLaunched m ρ c r h)
theorem W9_asLaunched (c : Dev nD) (r : Ref sig .tc) (h : Untouched r) :
    W9 m ρ c (Proc.devRef .tc r) = m ((c : Thread nD τ).loc r) :=
  (W9_of m ρ c r h.2.2.2.2.2.2.2.2.1).trans (W8_asLaunched m ρ c r h)
theorem W10_asLaunched (c : Dev nD) (r : Ref sig .tc) (h : Untouched r) :
    W10 m ρ c (Proc.devRef .tc r) = m ((c : Thread nD τ).loc r) :=
  (W10_of m ρ c r h.2.2.2.2.2.2.2.2.2.1).trans (W9_asLaunched m ρ c r h)
theorem W11_asLaunched (c : Dev nD) (r : Ref sig .tc) (h : Untouched r) :
    W11 m ρ c (Proc.devRef .tc r) = m ((c : Thread nD τ).loc r) :=
  (W11_of m ρ c r h.2.2.2.2.2.2.2.2.2.2.1).trans (W10_asLaunched m ρ c r h)
theorem W12_asLaunched (c : Dev nD) (r : Ref sig .tc) (h : Untouched r) :
    W12 m ρ c (Proc.devRef .tc r) = m ((c : Thread nD τ).loc r) :=
  (W12_of m ρ c r h.2.2.2.2.2.2.2.2.2.2.2.1).trans (W11_asLaunched m ρ c r h)
theorem W13_asLaunched (c : Dev nD) (r : Ref sig .tc) (h : Untouched r) :
    W13 m ρ c (Proc.devRef .tc r) = m ((c : Thread nD τ).loc r) :=
  (W13_of m ρ c r h.2.2.2.2.2.2.2.2.2.2.2.2.1).trans (W12_asLaunched m ρ c r h)
theorem W14_asLaunched (c : Dev nD) (r : Ref sig .tc) (h : Untouched r) :
    W14 m ρ c (Proc.devRef .tc r) = m ((c : Thread nD τ).loc r) :=
  (W14_of m ρ c r h.2.2.2.2.2.2.2.2.2.2.2.2.2.1).trans (W13_asLaunched m ρ c r h)
theorem W15_asLaunched (c : Dev nD) (r : Ref sig .tc) (h : Untouched r) :
    W15 m ρ c (Proc.devRef .tc r) = m ((c : Thread nD τ).loc r) :=
  (W15_of m ρ c r h.2.2.2.2.2.2.2.2.2.2.2.2.2.2.1).trans (W14_asLaunched m ρ c r h)
theorem W16_asLaunched (c : Dev nD) (r : Ref sig .tc) (h : Untouched r) :
    W16 m ρ c (Proc.devRef .tc r) = m ((c : Thread nD τ).loc r) :=
  (W16_of m ρ c r h.2.2.2.2.2.2.2.2.2.2.2.2.2.2.2.1).trans (W15_asLaunched m ρ c r h)
theorem W17_asLaunched (c : Dev nD) (r : Ref sig .tc) (h : Untouched r) :
    W17 m ρ c (Proc.devRef .tc r) = m ((c : Thread nD τ).loc r) :=
  (W17_of m ρ c r h.2.2.2.2.2.2.2.2.2.2.2.2.2.2.2.2.1).trans (W16_asLaunched m ρ c r h)

end Cert.KernelIdeal.Hand

end
-- ==== Proof.KI.Walk2.lean ====
import proofs.«113696_j26852135535044_1_alg».proof.Proof.KI.Run
import proofs.«113696_j26852135535044_1_alg».proof.Proof.KI.Keep
import proofs.«113696_j26852135535044_1_alg».proof.Proof.KI.Vals
import proofs.«113696_j26852135535044_1_alg».proof.Proof.Ref.Fns
import proofs.«113696_j26852135535044_1_alg».proof.Proof.Bridge
import proofs.«113696_j26852135535044_1_alg».proof.Proof.PreFinite
import proofs.«113696_j26852135535044_1_alg».proof.ReferenceIdeal
import proofs.«113696_j26852135535044_1_alg».proof.Proof.Gen.ReferenceIdeal

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand Cert.Hand.Bridge Cert.Hand.PreFinite

section Host

variable {F : FTy → Type} [FloatOps F]

attribute [local irreducible] Host.gather Host.scatterAdd Host.reduceAdd

set_option maxRecDepth 8192 in
set_option maxHeartbeats 4000000 in

private theorem hostOps4_v68 (V : Valuation τ sig (Elt F)) :
    after hostOps4 V (main_v68 : DevRef τ sig)
      = Host.scatterAdd Cert.ReferenceIdeal.scatter_S100000x128_S800000x1_S800000x128_1_0_0_1
          (broadcastInDim S100000x128 ![] Cert.ReferenceIdeal.Facts₀.bcast_S_S100000x128 zeroS)
          (idxCol (V (main_arg2 : DevRef τ sig)))
          (mulf (Host.gather Cert.ReferenceIdeal.gather_S100000x128_S800000x1_S800000x128_1_0_n_n_0_1_1128 (V (main_v55 : DevRef τ sig)) (idxCol (fixIdx (V (main_arg1 : DevRef τ sig)))))
            (edgeB (V (main_v21 : DevRef τ sig)))) := by
  simp only [after_cons, after_nil]
  rfl

set_option maxRecDepth 8192 in
set_option maxHeartbeats 4000000 in

private theorem hostOps4_v70 (V : Valuation τ sig (Elt F)) :
    after hostOps4 V (main_v70 : DevRef τ sig)
      = mulf (V (main_v55 : DevRef τ sig) : FVec F S100000x128 .f32)
          (broadcastInDim S100000x128 ![0, 1] Cert.ReferenceIdeal.Facts₀.bcast_S100000x1_S100000x128_0_1 (V (main_v23 : DevRef τ sig))) := by
  simp only [after_cons, after_nil]
  rfl

set_option maxRecDepth 8192 in
set_option maxHeartbeats 4000000 in

private theorem hostOps4_v71 (V : Valuation τ sig (Elt F)) :
    after hostOps4 V (main_v71 : DevRef τ sig)
      = shapeCast S1x128 (V (main_arg8 : DevRef τ sig) : FVec F S128 .f32) Cert.KernelIdeal.Facts₀.shapeCasts_S128_S1x128 := by
  simp only [after_cons, after_nil]
  rfl

set_option maxRecDepth 8192 in
set_option maxHeartbeats 4000000 in

private theorem hostOps5_v74 (V : Valuation τ sig (Elt F)) :
    after hostOps5 V (main_v74 : DevRef τ sig)
      = Host.divf (V (main_v72_1 : DevRef τ sig) : FVec F S1x128 .f32) (broadcastInDim S1x128 ![] Cert.ReferenceIdeal.Facts₀.bcast_S_S1x128 rowsS) := by
  simp only [after_cons, after_nil]
  rfl

set_option maxRecDepth 8192 in
set_option maxHeartbeats 4000000 in

private theorem hostOps5_v83 (V : Valuation τ sig (Elt F)) :
    after hostOps5 V (main_v83 : DevRef τ sig)
      = mulf (shapeCast S1x128 (V (main_arg9 : DevRef τ sig) : FVec F S128 .f32) Cert.KernelIdeal.Facts₀.shapeCasts_S128_S1x128)
          (Host.rsqrt (addf (subf
            (Host.divf (V (main_v72_2 : DevRef τ sig) : FVec F S1x128 .f32) (broadcastInDim S1x128 ![] Cert.ReferenceIdeal.Facts₀.bcast_S_S1x128 rowsS))
            (mulf (Host.divf (V (main_v72_1 : DevRef τ sig) : FVec F S1x128 .f32) (broadcastInDim S1x128 ![] Cert.ReferenceIdeal.Facts₀.bcast_S_S1x128 rowsS))
              (Host.divf (V (main_v72_1 : DevRef τ sig) : FVec F S1x128 .f32) (broadcastInDim S1x128 ![] Cert.ReferenceIdeal.Facts₀.bcast_S_S1x128 rowsS))))
            (broadcastInDim S1x128 ![] Cert.ReferenceIdeal.Facts₀.bcast_S_S1x128 epsS))) := by
  simp only [after_cons, after_nil]
  rfl

set_option maxRecDepth 8192 in
set_option maxHeartbeats 4000000 in

private theorem hostOps5_v84 (V : Valuation τ sig (Elt F)) :
    after hostOps5 V (main_v84 : DevRef τ sig)
      = shapeCast S1x128 (V (main_arg10 : DevRef τ sig) : FVec F S128 .f32) Cert.KernelIdeal.Facts₀.shapeCasts_S128_S1x128 := by
  simp only [after_cons, after_nil]
  rfl

end Host

section Layer

variable (m : (ℓ : Loc nD τ sig) → Buf (Elt Ideal) ℓ) (ρ : Dev nD → PrngReg)

private theorem product_exit (c : Dev nD) :
    (B7 (F := Ideal) m ρ c main_v55 : FVec Ideal S100000x128 .f32) = (Host.dotGeneral (F := Ideal) (φ₁ := .f32) (φ₂ := .f32) Cert.ReferenceIdeal.dot_S100000x128_S128x128_S100000x128_1_0_0_1_n_n none (B6 (F := Ideal) m ρ c main_v54 : FVec Ideal S100000x128 .f32) (m ((c : Thread nD τ).loc main_arg7) : FVec Ideal S128x128 .f32)) :=
  ((W7_arr (F := Ideal) m ρ c 2).trans (arrAt3_2 (B6 (F := Ideal) m ρ) c)).trans
    (congrArg (Host.dotGeneral (F := Ideal) (φ₁ := .f32) (φ₂ := .f32) Cert.ReferenceIdeal.dot_S100000x128_S128x128_S100000x128_1_0_0_1_n_n none (B6 (F := Ideal) m ρ c main_v54 : FVec Ideal S100000x128 .f32))
      (W6_asLaunched (F := Ideal) m ρ c main_arg7 (by decide)))

private theorem conv_entry (c : Dev nD) (dis : FVec Ideal S100000 .f32)
    (hcoef : (B7 (F := Ideal) m ρ c main_v21 : FVec Ideal S800000 .f32) = refNorm (F := Ideal) dis (m ((c : Thread nD τ).loc main_arg1)) (m ((c : Thread nD τ).loc main_arg2)))
    (hd2 : (B7 (F := Ideal) m ρ c main_v23 : FVec Ideal S100000x1 .f32)
      = shapeCast S100000x1 (mulf dis dis) Cert.KernelIdeal.Facts₀.shapeCasts_S100000_S100000x1) :
    pre4All (B8 (F := Ideal) m ρ) c = refAgg (F := Ideal) (Host.dotGeneral (F := Ideal) (φ₁ := .f32) (φ₂ := .f32) Cert.ReferenceIdeal.dot_S100000x128_S128x128_S100000x128_1_0_0_1_n_n none (B6 (F := Ideal) m ρ c main_v54 : FVec Ideal S100000x128 .f32) (m ((c : Thread nD τ).loc main_arg7) : FVec Ideal S128x128 .f32)) dis (m ((c : Thread nD τ).loc main_arg8)) (m ((c : Thread nD τ).loc main_arg1)) (m ((c : Thread nD τ).loc main_arg2)) := by
  have a1 : W7 (F := Ideal) m ρ c (Proc.devRef .tc main_arg1) = (m ((c : Thread nD τ).loc main_arg1)) := W7_asLaunched (F := Ideal) m ρ c main_arg1 (by decide)
  have a2 : W7 (F := Ideal) m ρ c (Proc.devRef .tc main_arg2) = (m ((c : Thread nD τ).loc main_arg2)) := W7_asLaunched (F := Ideal) m ρ c main_arg2 (by decide)
  have a8 : W7 (F := Ideal) m ρ c (Proc.devRef .tc main_arg8) = (m ((c : Thread nD τ).loc main_arg8)) := W7_asLaunched (F := Ideal) m ρ c main_arg8 (by decide)
  have x : (W7 (F := Ideal) m ρ c (Proc.devRef .tc main_v55) : FVec Ideal S100000x128 .f32) = (Host.dotGeneral (F := Ideal) (φ₁ := .f32) (φ₂ := .f32) Cert.ReferenceIdeal.dot_S100000x128_S128x128_S100000x128_1_0_0_1_n_n none (B6 (F := Ideal) m ρ c main_v54 : FVec Ideal S100000x128 .f32) (m ((c : Thread nD τ).loc main_arg7) : FVec Ideal S128x128 .f32)) := product_exit m ρ c
  have hcoef' : (W7 (F := Ideal) m ρ c (Proc.devRef .tc main_v21) : FVec Ideal S800000 .f32) = refNorm (F := Ideal) dis (m ((c : Thread nD τ).loc main_arg1)) (m ((c : Thread nD τ).loc main_arg2)) := hcoef
  have hd2' : (W7 (F := Ideal) m ρ c (Proc.devRef .tc main_v23) : FVec Ideal S100000x1 .f32)
      = shapeCast S100000x1 (mulf dis dis) Cert.KernelIdeal.Facts₀.shapeCasts_S100000_S100000x1 := hd2
  have e68 := hostOps4_v68 (W7 (F := Ideal) m ρ c)
  have e70 := hostOps4_v70 (W7 (F := Ideal) m ρ c)
  have e71 := hostOps4_v71 (W7 (F := Ideal) m ρ c)
  rw [a1, a2, x, hcoef'] at e68
  rw [x, hd2', colB_of_reshape] at e70
  rw [a8] at e71
  have e71' := (congrArg cb01 e71).trans (rowB_of_reshape (m ((c : Thread nD τ).loc main_arg8)) Cert.KernelIdeal.Facts₀.shapeCasts_S128_S1x128)
  rw [refAgg_def]
  exact congrArg₂ (addf (F := Ideal) (s := S100000x128) (φ := .f32)) (congrArg₂ (addf (F := Ideal) (s := S100000x128) (φ := .f32)) e68 e70) e71'

private theorem bn_exit (c : Dev nD) (hpre : AllReal (pre4All (B8 (F := Ideal) m ρ) c)) :
    (B11 (F := Ideal) m ρ c main_v85 : FVec Ideal S100000x128 .f32)
      = refBn (F := Ideal) (pre4All (B8 (F := Ideal) m ρ) c) (m ((c : Thread nD τ).loc main_arg9)) (m ((c : Thread nD τ).loc main_arg10)) := by
  have e0 : (B10 (F := Ideal) m ρ c main_v72_0 : FVec Ideal S100000x128 .f32) = pre4All (B8 (F := Ideal) m ρ) c :=
    ((W10_of (F := Ideal) m ρ c main_v72_0 (by decide)).trans (W9_arr (F := Ideal) m ρ c 3)).trans (arrAt4_3 (B8 (F := Ideal) m ρ) c)
  have s1 : (W9 (F := Ideal) m ρ c (Proc.devRef .tc main_v72_1) : FVec Ideal S1x128 .f32)
      = crow1 (colSum (pre4All (B8 (F := Ideal) m ρ) c)) :=
    (W9_arr (F := Ideal) m ρ c 4).trans (arrAt4_4 (B8 (F := Ideal) m ρ) c)
  have s2 : (W9 (F := Ideal) m ρ c (Proc.devRef .tc main_v72_2) : FVec Ideal S1x128 .f32)
      = crow1 (colSum (mulf (pre4All (B8 (F := Ideal) m ρ) c) (pre4All (B8 (F := Ideal) m ρ) c))) :=
    (W9_arr (F := Ideal) m ρ c 5).trans (arrAt4_5 (B8 (F := Ideal) m ρ) c)
  have a9 : W9 (F := Ideal) m ρ c (Proc.devRef .tc main_arg9) = (m ((c : Thread nD τ).loc main_arg9)) := W9_asLaunched (F := Ideal) m ρ c main_arg9 (by decide)
  have a10 : W9 (F := Ideal) m ρ c (Proc.devRef .tc main_arg10) = (m ((c : Thread nD τ).loc main_arg10)) := W9_asLaunched (F := Ideal) m ρ c main_arg10 (by decide)
  have e74 := hostOps5_v74 (W9 (F := Ideal) m ρ c)
  have e83 := hostOps5_v83 (W9 (F := Ideal) m ρ c)
  have e84 := hostOps5_v84 (W9 (F := Ideal) m ρ c)
  rw [s1] at e74
  rw [s1, s2, a9] at e83
  rw [a10] at e84
  have e74' : (B10 (F := Ideal) m ρ c main_v74 : FVec Ideal S1x128 .f32) = kMu (pre4All (B8 (F := Ideal) m ρ) c) := e74
  have e83' : (B10 (F := Ideal) m ρ c main_v83 : FVec Ideal S1x128 .f32)
      = kScale (pre4All (B8 (F := Ideal) m ρ) c) (m ((c : Thread nD τ).loc main_arg9)) Cert.KernelIdeal.Facts₀.shapeCasts_S128_S1x128 := e83
  refine ((W11_arr (F := Ideal) m ρ c 4).trans (arrAt5_4 (B10 (F := Ideal) m ρ) c)).trans ?_
  refine Eq.trans ?_ (bn_bridge (pre4All (B8 (F := Ideal) m ρ) c) (m ((c : Thread nD τ).loc main_arg9)) (m ((c : Thread nD τ).loc main_arg10)) Cert.KernelIdeal.Facts₀.shapeCasts_S128_S1x128 hpre)
  exact congrArg₂ (maximumf (F := Ideal) (s := S100000x128) (φ := .f32))
    (congrArg₂ (addf (F := Ideal) (s := S100000x128) (φ := .f32))
      (congrArg₂ (mulf (F := Ideal) (s := S100000x128) (φ := .f32))
        (congrArg₂ (subf (F := Ideal) (s := S100000x128) (φ := .f32)) e0 (congrArg cb01 e74')) (congrArg cb01 e83'))
      (congrArg cb01 e84)) rfl

theorem v85_11 (c : Dev nD) (dis : FVec Ideal S100000 .f32) (hdis : AllReal dis)
    (hcoef : (B7 (F := Ideal) m ρ c main_v21 : FVec Ideal S800000 .f32) = refNorm (F := Ideal) dis (m ((c : Thread nD τ).loc main_arg1)) (m ((c : Thread nD τ).loc main_arg2)))
    (hd2 : (B7 (F := Ideal) m ρ c main_v23 : FVec Ideal S100000x1 .f32)
      = shapeCast S100000x1 (mulf dis dis) Cert.KernelIdeal.Facts₀.shapeCasts_S100000_S100000x1)
    (hH : AllReal (B6 (F := Ideal) m ρ c main_v54 : FVec Ideal S100000x128 .f32))
    (h7 : AllReal ((m ((c : Thread nD τ).loc main_arg7)) : FVec Ideal S128x128 .f32)) (h8 : AllReal ((m ((c : Thread nD τ).loc main_arg8)) : FVec Ideal S128 .f32)) :
    (B11 (F := Ideal) m ρ c main_v85 : FVec Ideal S100000x128 .f32)
      = refBn (F := Ideal) (refAgg (F := Ideal) (Host.dotGeneral (F := Ideal) (φ₁ := .f32) (φ₂ := .f32) Cert.ReferenceIdeal.dot_S100000x128_S128x128_S100000x128_1_0_0_1_n_n none (B6 (F := Ideal) m ρ c main_v54 : FVec Ideal S100000x128 .f32) (m ((c : Thread nD τ).loc main_arg7) : FVec Ideal S128x128 .f32)) dis (m ((c : Thread nD τ).loc main_arg8)) (m ((c : Thread nD τ).loc main_arg1)) (m ((c : Thread nD τ).loc main_arg2))) (m ((c : Thread nD τ).loc main_arg9)) (m ((c : Thread nD τ).loc main_arg10)) := by
  have hp := conv_entry m ρ c dis hcoef hd2
  have hpre : AllReal (pre4All (B8 (F := Ideal) m ρ) c) := by
    rw [hp]; exact allReal_refAgg _ _ _ _ _ (allReal_dot2 _ _ hH h7) hdis h8
  rw [bn_exit m ρ c hpre, hp]

theorem v85_11_real (c : Dev nD) (dis : FVec Ideal S100000 .f32) (hdis : AllReal dis)
    (hcoef : (B7 (F := Ideal) m ρ c main_v21 : FVec Ideal S800000 .f32) = refNorm (F := Ideal) dis (m ((c : Thread nD τ).loc main_arg1)) (m ((c : Thread nD τ).loc main_arg2)))
    (hd2 : (B7 (F := Ideal) m ρ c main_v23 : FVec Ideal S100000x1 .f32)
      = shapeCast S100000x1 (mulf dis dis) Cert.KernelIdeal.Facts₀.shapeCasts_S100000_S100000x1)
    (hH : AllReal (B6 (F := Ideal) m ρ c main_v54 : FVec Ideal S100000x128 .f32))
    (h7 : AllReal ((m ((c : Thread nD τ).loc main_arg7)) : FVec Ideal S128x128 .f32)) (h8 : AllReal ((m ((c : Thread nD τ).loc main_arg8)) : FVec Ideal S128 .f32))
    (h9 : AllReal ((m ((c : Thread nD τ).loc main_arg9)) : FVec Ideal S128 .f32)) (h10 : AllReal ((m ((c : Thread nD τ).loc main_arg10)) : FVec Ideal S128 .f32)) :
    AllReal (B11 (F := Ideal) m ρ c main_v85 : FVec Ideal S100000x128 .f32) := by
  rw [v85_11 m ρ c dis hdis hcoef hd2 hH h7 h8]
  exact allReal_refBn _ _ _ (allReal_refAgg _ _ _ _ _ (allReal_dot2 _ _ hH h7) hdis h8) h9 h10

end Layer

end Cert.KernelIdeal.Hand

end
-- ==== Proof.KI.Walk3.lean ====
import proofs.«113696_j26852135535044_1_alg».proof.Proof.KI.Run
import proofs.«113696_j26852135535044_1_alg».proof.Proof.KI.Keep
import proofs.«113696_j26852135535044_1_alg».proof.Proof.KI.Vals
import proofs.«113696_j26852135535044_1_alg».proof.Proof.Ref.Fns
import proofs.«113696_j26852135535044_1_alg».proof.Proof.Bridge
import proofs.«113696_j26852135535044_1_alg».proof.Proof.PreFinite
import proofs.«113696_j26852135535044_1_alg».proof.ReferenceIdeal
import proofs.«113696_j26852135535044_1_alg».proof.Proof.Gen.ReferenceIdeal

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand Cert.Hand.Bridge Cert.Hand.PreFinite

section Host

variable {F : FTy → Type} [FloatOps F]

attribute [local irreducible] Host.gather Host.scatterAdd Host.reduceAdd

set_option maxRecDepth 8192 in
set_option maxHeartbeats 4000000 in

private theorem hostOps7_v99 (V : Valuation τ sig (Elt F)) :
    after hostOps7 V (main_v99 : DevRef τ sig)
      = Host.scatterAdd Cert.ReferenceIdeal.scatter_S100000x128_S800000x1_S800000x128_1_0_0_1
          (broadcastInDim S100000x128 ![] Cert.ReferenceIdeal.Facts₀.bcast_S_S100000x128 zeroS)
          (idxCol (V (main_arg2 : DevRef τ sig)))
          (mulf (Host.gather Cert.ReferenceIdeal.gather_S100000x128_S800000x1_S800000x128_1_0_n_n_0_1_1128 (V (main_v86 : DevRef τ sig)) (idxCol (fixIdx (V (main_arg1 : DevRef τ sig)))))
            (edgeB (V (main_v21 : DevRef τ sig)))) := by
  simp only [after_cons, after_nil]
  rfl

set_option maxRecDepth 8192 in
set_option maxHeartbeats 4000000 in

private theorem hostOps7_v101 (V : Valuation τ sig (Elt F)) :
    after hostOps7 V (main_v101 : DevRef τ sig)
      = mulf (V (main_v86 : DevRef τ sig) : FVec F S100000x128 .f32)
          (broadcastInDim S100000x128 ![0, 1] Cert.ReferenceIdeal.Facts₀.bcast_S100000x1_S100000x128_0_1 (V (main_v23 : DevRef τ sig))) := by
  simp only [after_cons, after_nil]
  rfl

set_option maxRecDepth 8192 in
set_option maxHeartbeats 4000000 in

private theorem hostOps7_v102 (V : Valuation τ sig (Elt F)) :
    after hostOps7 V (main_v102 : DevRef τ sig)
      = shapeCast S1x128 (V (main_arg12 : DevRef τ sig) : FVec F S128 .f32) Cert.KernelIdeal.Facts₀.shapeCasts_S128_S1x128 := by
  simp only [after_cons, after_nil]
  rfl

set_option maxRecDepth 8192 in
set_option maxHeartbeats 4000000 in

private theorem hostOps8_v105 (V : Valuation τ sig (Elt F)) :
    after hostOps8 V (main_v105 : DevRef τ sig)
      = Host.divf (V (main_v103_1 : DevRef τ sig) : FVec F S1x128 .f32) (broadcastInDim S1x128 ![] Cert.ReferenceIdeal.Facts₀.bcast_S_S1x128 rowsS) := by
  simp only [after_cons, after_nil]
  rfl

set_option maxRecDepth 8192 in
set_option maxHeartbeats 4000000 in

private theorem hostOps8_v114 (V : Valuation τ sig (Elt F)) :
    after hostOps8 V (main_v114 : DevRef τ sig)
      = mulf (shapeCast S1x128 (V (main_arg13 : DevRef τ sig) : FVec F S128 .f32) Cert.KernelIdeal.Facts₀.shapeCasts_S128_S1x128)
          (Host.rsqrt (addf (subf
            (Host.divf (V (main_v103_2 : DevRef τ sig) : FVec F S1x128 .f32) (broadcastInDim S1x128 ![] Cert.ReferenceIdeal.Facts₀.bcast_S_S1x128 rowsS))
            (mulf (Host.divf (V (main_v103_1 : DevRef τ sig) : FVec F S1x128 .f32) (broadcastInDim S1x128 ![] Cert.ReferenceIdeal.Facts₀.bcast_S_S1x128 rowsS))
              (Host.divf (V (main_v103_1 : DevRef τ sig) : FVec F S1x128 .f32) (broadcastInDim S1x128 ![] Cert.ReferenceIdeal.Facts₀.bcast_S_S1x128 rowsS))))
            (broadcastInDim S1x128 ![] Cert.ReferenceIdeal.Facts₀.bcast_S_S1x128 epsS))) := by
  simp only [after_cons, after_nil]
  rfl

set_option maxRecDepth 8192 in
set_option maxHeartbeats 4000000 in

private theorem hostOps8_v115 (V : Valuation τ sig (Elt F)) :
    after hostOps8 V (main_v115 : DevRef τ sig)
      = shapeCast S1x128 (V (main_arg14 : DevRef τ sig) : FVec F S128 .f32) Cert.KernelIdeal.Facts₀.shapeCasts_S128_S1x128 := by
  simp only [after_cons, after_nil]
  rfl

end Host

section Layer

variable (m : (ℓ : Loc nD τ sig) → Buf (Elt Ideal) ℓ) (ρ : Dev nD → PrngReg)

private theorem product_exit (c : Dev nD) :
    (B12 (F := Ideal) m ρ c main_v86 : FVec Ideal S100000x128 .f32) = (Host.dotGeneral (F := Ideal) (φ₁ := .f32) (φ₂ := .f32) Cert.ReferenceIdeal.dot_S100000x128_S128x128_S100000x128_1_0_0_1_n_n none (B11 (F := Ideal) m ρ c main_v85 : FVec Ideal S100000x128 .f32) (m ((c : Thread nD τ).loc main_arg11) : FVec Ideal S128x128 .f32)) :=
  ((W12_arr (F := Ideal) m ρ c 2).trans (arrAt6_2 (B11 (F := Ideal) m ρ) c)).trans
    (congrArg (Host.dotGeneral (F := Ideal) (φ₁ := .f32) (φ₂ := .f32) Cert.ReferenceIdeal.dot_S100000x128_S128x128_S100000x128_1_0_0_1_n_n none (B11 (F := Ideal) m ρ c main_v85 : FVec Ideal S100000x128 .f32))
      (W11_asLaunched (F := Ideal) m ρ c main_arg11 (by decide)))

private theorem conv_entry (c : Dev nD) (dis : FVec Ideal S100000 .f32)
    (hcoef : (B12 (F := Ideal) m ρ c main_v21 : FVec Ideal S800000 .f32) = refNorm (F := Ideal) dis (m ((c : Thread nD τ).loc main_arg1)) (m ((c : Thread nD τ).loc main_arg2)))
    (hd2 : (B12 (F := Ideal) m ρ c main_v23 : FVec Ideal S100000x1 .f32)
      = shapeCast S100000x1 (mulf dis dis) Cert.KernelIdeal.Facts₀.shapeCasts_S100000_S100000x1) :
    pre7All (B13 (F := Ideal) m ρ) c = refAgg (F := Ideal) (Host.dotGeneral (F := Ideal) (φ₁ := .f32) (φ₂ := .f32) Cert.ReferenceIdeal.dot_S100000x128_S128x128_S100000x128_1_0_0_1_n_n none (B11 (F := Ideal) m ρ c main_v85 : FVec Ideal S100000x128 .f32) (m ((c : Thread nD τ).loc main_arg11) : FVec Ideal S128x128 .f32)) dis (m ((c : Thread nD τ).loc main_arg12)) (m ((c : Thread nD τ).loc main_arg1)) (m ((c : Thread nD τ).loc main_arg2)) := by
  have a1 : W12 (F := Ideal) m ρ c (Proc.devRef .tc main_arg1) = (m ((c : Thread nD τ).loc main_arg1)) := W12_asLaunched (F := Ideal) m ρ c main_arg1 (by decide)
  have a2 : W12 (F := Ideal) m ρ c (Proc.devRef .tc main_arg2) = (m ((c : Thread nD τ).loc main_arg2)) := W12_asLaunched (F := Ideal) m ρ c main_arg2 (by decide)
  have a8 : W12 (F := Ideal) m ρ c (Proc.devRef .tc main_arg12) = (m ((c : Thread nD τ).loc main_arg12)) := W12_asLaunched (F := Ideal) m ρ c main_arg12 (by decide)
  have x : (W12 (F := Ideal) m ρ c (Proc.devRef .tc main_v86) : FVec Ideal S100000x128 .f32) = (Host.dotGeneral (F := Ideal) (φ₁ := .f32) (φ₂ := .f32) Cert.ReferenceIdeal.dot_S100000x128_S128x128_S100000x128_1_0_0_1_n_n none (B11 (F := Ideal) m ρ c main_v85 : FVec Ideal S100000x128 .f32) (m ((c : Thread nD τ).loc main_arg11) : FVec Ideal S128x128 .f32)) := product_exit m ρ c
  have hcoef' : (W12 (F := Ideal) m ρ c (Proc.devRef .tc main_v21) : FVec Ideal S800000 .f32) = refNorm (F := Ideal) dis (m ((c : Thread nD τ).loc main_arg1)) (m ((c : Thread nD τ).loc main_arg2)) := hcoef
  have hd2' : (W12 (F := Ideal) m ρ c (Proc.devRef .tc main_v23) : FVec Ideal S100000x1 .f32)
      = shapeCast S100000x1 (mulf dis dis) Cert.KernelIdeal.Facts₀.shapeCasts_S100000_S100000x1 := hd2
  have e68 := hostOps7_v99 (W12 (F := Ideal) m ρ c)
  have e70 := hostOps7_v101 (W12 (F := Ideal) m ρ c)
  have e71 := hostOps7_v102 (W12 (F := Ideal) m ρ c)
  rw [a1, a2, x, hcoef'] at e68
  rw [x, hd2', colB_of_reshape] at e70
  rw [a8] at e71
  have e71' := (congrArg cb01 e71).trans (rowB_of_reshape (m ((c : Thread nD τ).loc main_arg12)) Cert.KernelIdeal.Facts₀.shapeCasts_S128_S1x128)
  rw [refAgg_def]
  exact congrArg₂ (addf (F := Ideal) (s := S100000x128) (φ := .f32)) (congrArg₂ (addf (F := Ideal) (s := S100000x128) (φ := .f32)) e68 e70) e71'

private theorem bn_exit (c : Dev nD) (hpre : AllReal (pre7All (B13 (F := Ideal) m ρ) c)) :
    (B16 (F := Ideal) m ρ c main_v116 : FVec Ideal S100000x128 .f32)
      = refBn (F := Ideal) (pre7All (B13 (F := Ideal) m ρ) c) (m ((c : Thread nD τ).loc main_arg13)) (m ((c : Thread nD τ).loc main_arg14)) := by
  have e0 : (B15 (F := Ideal) m ρ c main_v103_0 : FVec Ideal S100000x128 .f32) = pre7All (B13 (F := Ideal) m ρ) c :=
    ((W15_of (F := Ideal) m ρ c main_v103_0 (by decide)).trans (W14_arr (F := Ideal) m ρ c 3)).trans (arrAt7_3 (B13 (F := Ideal) m ρ) c)
  have s1 : (W14 (F := Ideal) m ρ c (Proc.devRef .tc main_v103_1) : FVec Ideal S1x128 .f32)
      = crow1 (colSum (pre7All (B13 (F := Ideal) m ρ) c)) :=
    (W14_arr (F := Ideal) m ρ c 4).trans (arrAt7_4 (B13 (F := Ideal) m ρ) c)
  have s2 : (W14 (F := Ideal) m ρ c (Proc.devRef .tc main_v103_2) : FVec Ideal S1x128 .f32)
      = crow1 (colSum (mulf (pre7All (B13 (F := Ideal) m ρ) c) (pre7All (B13 (F := Ideal) m ρ) c))) :=
    (W14_arr (F := Ideal) m ρ c 5).trans (arrAt7_5 (B13 (F := Ideal) m ρ) c)
  have a9 : W14 (F := Ideal) m ρ c (Proc.devRef .tc main_arg13) = (m ((c : Thread nD τ).loc main_arg13)) := W14_asLaunched (F := Ideal) m ρ c main_arg13 (by decide)
  have a10 : W14 (F := Ideal) m ρ c (Proc.devRef .tc main_arg14) = (m ((c : Thread nD τ).loc main_arg14)) := W14_asLaunched (F := Ideal) m ρ c main_arg14 (by decide)
  have e74 := hostOps8_v105 (W14 (F := Ideal) m ρ c)
  have e83 := hostOps8_v114 (W14 (F := Ideal) m ρ c)
  have e84 := hostOps8_v115 (W14 (F := Ideal) m ρ c)
  rw [s1] at e74
  rw [s1, s2, a9] at e83
  rw [a10] at e84
  have e74' : (B15 (F := Ideal) m ρ c main_v105 : FVec Ideal S1x128 .f32) = kMu (pre7All (B13 (F := Ideal) m ρ) c) := e74
  have e83' : (B15 (F := Ideal) m ρ c main_v114 : FVec Ideal S1x128 .f32)
      = kScale (pre7All (B13 (F := Ideal) m ρ) c) (m ((c : Thread nD τ).loc main_arg13)) Cert.KernelIdeal.Facts₀.shapeCasts_S128_S1x128 := e83
  refine ((W16_arr (F := Ideal) m ρ c 4).trans (arrAt8_4 (B15 (F := Ideal) m ρ) c)).trans ?_
  refine Eq.trans ?_ (bn_bridge (pre7All (B13 (F := Ideal) m ρ) c) (m ((c : Thread nD τ).loc main_arg13)) (m ((c : Thread nD τ).loc main_arg14)) Cert.KernelIdeal.Facts₀.shapeCasts_S128_S1x128 hpre)
  exact congrArg₂ (maximumf (F := Ideal) (s := S100000x128) (φ := .f32))
    (congrArg₂ (addf (F := Ideal) (s := S100000x128) (φ := .f32))
      (congrArg₂ (mulf (F := Ideal) (s := S100000x128) (φ := .f32))
        (congrArg₂ (subf (F := Ideal) (s := S100000x128) (φ := .f32)) e0 (congrArg cb01 e74')) (congrArg cb01 e83'))
      (congrArg cb01 e84)) rfl

theorem v116_16 (c : Dev nD) (dis : FVec Ideal S100000 .f32) (hdis : AllReal dis)
    (hcoef : (B12 (F := Ideal) m ρ c main_v21 : FVec Ideal S800000 .f32) = refNorm (F := Ideal) dis (m ((c : Thread nD τ).loc main_arg1)) (m ((c : Thread nD τ).loc main_arg2)))
    (hd2 : (B12 (F := Ideal) m ρ c main_v23 : FVec Ideal S100000x1 .f32)
      = shapeCast S100000x1 (mulf dis dis) Cert.KernelIdeal.Facts₀.shapeCasts_S100000_S100000x1)
    (hH : AllReal (B11 (F := Ideal) m ρ c main_v85 : FVec Ideal S100000x128 .f32))
    (h7 : AllReal ((m ((c : Thread nD τ).loc main_arg11)) : FVec Ideal S128x128 .f32)) (h8 : AllReal ((m ((c : Thread nD τ).loc main_arg12)) : FVec Ideal S128 .f32)) :
    (B16 (F := Ideal) m ρ c main_v116 : FVec Ideal S100000x128 .f32)
      = refBn (F := Ideal) (refAgg (F := Ideal) (Host.dotGeneral (F := Ideal) (φ₁ := .f32) (φ₂ := .f32) Cert.ReferenceIdeal.dot_S100000x128_S128x128_S100000x128_1_0_0_1_n_n none (B11 (F := Ideal) m ρ c main_v85 : FVec Ideal S100000x128 .f32) (m ((c : Thread nD τ).loc main_arg11) : FVec Ideal S128x128 .f32)) dis (m ((c : Thread nD τ).loc main_arg12)) (m ((c : Thread nD τ).loc main_arg1)) (m ((c : Thread nD τ).loc main_arg2))) (m ((c : Thread nD τ).loc main_arg13)) (m ((c : Thread nD τ).loc main_arg14)) := by
  have hp := conv_entry m ρ c dis hcoef hd2
  have hpre : AllReal (pre7All (B13 (F := Ideal) m ρ) c) := by
    rw [hp]; exact allReal_refAgg _ _ _ _ _ (allReal_dot2 _ _ hH h7) hdis h8
  rw [bn_exit m ρ c hpre, hp]

theorem v116_16_real (c : Dev nD) (dis : FVec Ideal S100000 .f32) (hdis : AllReal dis)
    (hcoef : (B12 (F := Ideal) m ρ c main_v21 : FVec Ideal S800000 .f32) = refNorm (F := Ideal) dis (m ((c : Thread nD τ).loc main_arg1)) (m ((c : Thread nD τ).loc main_arg2)))
    (hd2 : (B12 (F := Ideal) m ρ c main_v23 : FVec Ideal S100000x1 .f32)
      = shapeCast S100000x1 (mulf dis dis) Cert.KernelIdeal.Facts₀.shapeCasts_S100000_S100000x1)
    (hH : AllReal (B11 (F := Ideal) m ρ c main_v85 : FVec Ideal S100000x128 .f32))
    (h7 : AllReal ((m ((c : Thread nD τ).loc main_arg11)) : FVec Ideal S128x128 .f32)) (h8 : AllReal ((m ((c : Thread nD τ).loc main_arg12)) : FVec Ideal S128 .f32))
    (h9 : AllReal ((m ((c : Thread nD τ).loc main_arg13)) : FVec Ideal S128 .f32)) (h10 : AllReal ((m ((c : Thread nD τ).loc main_arg14)) : FVec Ideal S128 .f32)) :
    AllReal (B16 (F := Ideal) m ρ c main_v116 : FVec Ideal S100000x128 .f32) := by
  rw [v116_16 m ρ c dis hdis hcoef hd2 hH h7 h8]
  exact allReal_refBn _ _ _ (allReal_refAgg _ _ _ _ _ (allReal_dot2 _ _ hH h7) hdis h8) h9 h10

end Layer

end Cert.KernelIdeal.Hand

end
-- ==== Proof.KI.Walk4.lean ====
import proofs.«113696_j26852135535044_1_alg».proof.Proof.KI.Run
import proofs.«113696_j26852135535044_1_alg».proof.Proof.KI.Keep
import proofs.«113696_j26852135535044_1_alg».proof.Proof.KI.Vals
import proofs.«113696_j26852135535044_1_alg».proof.Proof.Ref.Fns
import proofs.«113696_j26852135535044_1_alg».proof.ReferenceIdeal
import proofs.«113696_j26852135535044_1_alg».proof.Proof.Gen.ReferenceIdeal

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand

section Host

variable {F : FTy → Type} [FloatOps F]

set_option maxRecDepth 8192 in

private theorem hostOps10_v120 (V : Valuation τ sig (Elt F)) :
    after hostOps10 V (main_v120 : DevRef τ sig)
      = addf (V (main_v117 : DevRef τ sig) : FVec F S100000x1 .f32)
          (broadcastInDim S100000x1 ![0, 1] Cert.ReferenceIdeal.Facts₀.bcast_S1x1_S100000x1_0_1 (broadcastInDim S1x1 ![1] Cert.ReferenceIdeal.Facts₀.bcast_S1_S1x1_1 (V (main_arg16 : DevRef τ sig)))) := by
  simp only [after_cons, after_nil]
  rfl

end Host

section End

variable (m : (ℓ : Loc nD τ sig) → Buf (Elt Ideal) ℓ) (ρ : Dev nD → PrngReg)

theorem v120_18 (c : Dev nD) :
    (B18 (F := Ideal) m ρ c main_v120 : FVec Ideal S100000x1 .f32)
      = refLin (F := Ideal) (B16 (F := Ideal) m ρ c main_v116 : FVec Ideal S100000x128 .f32) (m ((c : Thread nD τ).loc main_arg15)) (m ((c : Thread nD τ).loc main_arg16)) := by
  have e117 : (W17 (F := Ideal) m ρ c (Proc.devRef .tc main_v117) : FVec Ideal S100000x1 .f32)
      = Host.dotGeneral (F := Ideal) (φ₁ := .f32) (φ₂ := .f32) Cert.ReferenceIdeal.dot_S100000x128_S128x1_S100000x1_1_0_0_1_n_n none (B16 (F := Ideal) m ρ c main_v116 : FVec Ideal S100000x128 .f32) ((m ((c : Thread nD τ).loc main_arg15)) : FVec Ideal S128x1 .f32) :=
    ((W17_arr (F := Ideal) m ρ c 2).trans (arrAt9_2 (B16 (F := Ideal) m ρ) c)).trans
      (congrArg (Host.dotGeneral (F := Ideal) (φ₁ := .f32) (φ₂ := .f32) Cert.ReferenceIdeal.dot_S100000x128_S128x1_S100000x1_1_0_0_1_n_n none (B16 (F := Ideal) m ρ c main_v116 : FVec Ideal S100000x128 .f32))
        (W16_asLaunched (F := Ideal) m ρ c main_arg15 (by decide)))
  have a16 : W17 (F := Ideal) m ρ c (Proc.devRef .tc main_arg16) = (m ((c : Thread nD τ).loc main_arg16)) := W17_asLaunched (F := Ideal) m ρ c main_arg16 (by decide)
  have e120 := hostOps10_v120 (W17 (F := Ideal) m ρ c)
  rw [e117, a16] at e120
  rw [refLin_def]
  exact e120

end End

end Cert.KernelIdeal.Hand

end
-- ==== Proof.KI.Result.lean ====
import proofs.«113696_j26852135535044_1_alg».proof.Proof.KI.Walk1
import proofs.«113696_j26852135535044_1_alg».proof.Proof.KI.Walk2
import proofs.«113696_j26852135535044_1_alg».proof.Proof.KI.Walk3
import proofs.«113696_j26852135535044_1_alg».proof.Proof.KI.Walk4
import proofs.«113696_j26852135535044_1_alg».proof.Pre_finite_inputs
import proofs.«113696_j26852135535044_1_alg».proof.Proof.Gen.Pre_finite_inputs

noncomputable section

namespace Cert.KernelIdeal.Hand

open Cert.KernelIdeal Cert.KernelIdeal.Gen
open Idealize.ShloMosaic Idealize.ShloMosaic.TcCoe Idealize.SL.Sem
open Cert.ReferenceIdeal.Hand Cert.Hand.Bridge Cert.Hand.PreFinite

variable (m : (ℓ : Loc nD τ sig) → Buf (Elt Ideal) ℓ) (ρ : Dev nD → PrngReg)

theorem result_eq (c : Dev nD)
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) = fun _ => 1#1) :
    (B18 (F := Ideal) m ρ c main_v120 : FVec Ideal S100000x1 .f32)
      = refOut (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  obtain ⟨h0, h3, h4, h5, h6, h7, h8, h9, h10, h11, h12, h13, h14, h15, h16⟩ := allReal_of_pre _ _ _ _ _ _ _ _ _ _ _ _ _ _ _ _ _ hpre
  have hd : AllReal (refDis (F := Ideal) (m ((c : Thread nD τ).loc main_arg2))) := allReal_refDis _
  have e1 := v54_6 m ρ c h0 h3 h4
  have r1 := v54_6_real m ρ c h0 h3 h4 h5 h6
  have e2 := v85_11 m ρ c _ hd ((keep_v21_7 m ρ c).trans (v21_1 m ρ c)) ((keep_v23_7 m ρ c).trans (v23_1 m ρ c)) r1 h7 h8
  have r2 := v85_11_real m ρ c _ hd ((keep_v21_7 m ρ c).trans (v21_1 m ρ c)) ((keep_v23_7 m ρ c).trans (v23_1 m ρ c)) r1 h7 h8 h9 h10
  have e3 := v116_16 m ρ c _ hd ((keep_v21_12 m ρ c).trans (v21_1 m ρ c)) ((keep_v23_12 m ρ c).trans (v23_1 m ρ c)) r2 h11 h12
  have e4 := v120_18 m ρ c
  refine e4.trans ?_
  rw [e3, e2, e1]
  rfl

end Cert.KernelIdeal.Hand

end
-- ==== Proof.Ref.Ops.lean ====
import proofs.«113696_j26852135535044_1_alg».proof.ReferenceIdeal
import proofs.«113696_j26852135535044_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

abbrev opsDis : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg2 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S100000_S800000x1_S800000_n_0_0_1 x i u) : (⟨S100000, .f32⟩ : BufTy).Contents (Elt F) → (⟨S800000x1, .i32⟩ : BufTy).Contents (Elt F) → (⟨S800000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (addf : (⟨S100000, .f32⟩ : BufTy).Contents (Elt F) → (⟨S100000, .f32⟩ : BufTy).Contents (Elt F) → (⟨S100000, .f32⟩ : BufTy).Contents (Elt F)),
    unary main_v5 main_v6 (Host.rsqrt : (⟨S100000, .f32⟩ : BufTy).Contents (Elt F) → (⟨S100000, .f32⟩ : BufTy).Contents (Elt F)) ]

set_option maxRecDepth 8192 in
theorem opsDis_sub : (opsDis : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., unary_bufs_sub ..⟩

set_option maxRecDepth 8192 in
theorem opsDis_fresh : (opsDis : List (HloOp τ sig (Elt F))).Forall fun op => op.fresh = ∅ :=
  ⟨rfl, rfl, rfl, rfl, rfl, rfl, rfl, rfl, rfl, rfl⟩

abbrev opsDis_W : List (Ref sig .tc) := [main_cst, main_v0, main_cst_0, main_v1, main_v2, main_v3, main_cst_1, main_v4, main_v5, main_v6]

set_option maxRecDepth 8192 in
theorem opsDis_writes : (opsDis : List (HloOp τ sig (Elt F))).Forall fun op => op.writes ⊆ (opsDis_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsDis_keep (V : Valuation τ sig (Elt F)) (r : Ref sig .tc) (h : r ∉ opsDis_W) :
    after opsDis V (Proc.devRef .tc r) = V (Proc.devRef .tc r) :=
  after_of_writes_sub opsDis V opsDis_writes h

abbrev opsConv1 : List (HloOp τ sig (Elt F)) :=
  [ binary main_arg0 main_arg3 main_v7 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c (constantI S_ 32 0#32),
    unary main_c main_v8 (broadcastInDim S800000 ![] bcast_S_S800000 : (⟨S_, .i32⟩ : BufTy).Contents (Elt F) → (⟨S800000, .i32⟩ : BufTy).Contents (Elt F)),
    binary main_arg1 main_v8 main_v9 (cmpi .slt : (⟨S800000, .i32⟩ : BufTy).Contents (Elt F) → (⟨S800000, .i32⟩ : BufTy).Contents (Elt F) → (⟨S800000, .i1⟩ : BufTy).Contents (Elt F)),
    nullary main_c_2 (constantI S_ 32 100000#32),
    unary main_c_2 main_v10 (broadcastInDim S800000 ![] bcast_S_S800000 : (⟨S_, .i32⟩ : BufTy).Contents (Elt F) → (⟨S800000, .i32⟩ : BufTy).Contents (Elt F)),
    binary main_arg1 main_v10 main_v11 (addi : (⟨S800000, .i32⟩ : BufTy).Contents (Elt F) → (⟨S800000, .i32⟩ : BufTy).Contents (Elt F) → (⟨S800000, .i32⟩ : BufTy).Contents (Elt F)),
    ternary main_v9 main_v11 main_arg1 main_v12 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v12 main_v13 (broadcastInDim S800000x1 ![0] bcast_S800000_S800000x1_0 : (⟨S800000, .i32⟩ : BufTy).Contents (Elt F) → (⟨S800000x1, .i32⟩ : BufTy).Contents (Elt F)),
    binary main_v6 main_v13 main_v14 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_3 (constantI S_ 32 0#32),
    unary main_c_3 main_v15 (broadcastInDim S800000 ![] bcast_S_S800000 : (⟨S_, .i32⟩ : BufTy).Contents (Elt F) → (⟨S800000, .i32⟩ : BufTy).Contents (Elt F)),
    binary main_arg2 main_v15 main_v16 (cmpi .slt : (⟨S800000, .i32⟩ : BufTy).Contents (Elt F) → (⟨S800000, .i32⟩ : BufTy).Contents (Elt F) → (⟨S800000, .i1⟩ : BufTy).Contents (Elt F)),
    nullary main_c_4 (constantI S_ 32 100000#32),
    unary main_c_4 main_v17 (broadcastInDim S800000 ![] bcast_S_S800000 : (⟨S_, .i32⟩ : BufTy).Contents (Elt F) → (⟨S800000, .i32⟩ : BufTy).Contents (Elt F)),
    binary main_arg2 main_v17 main_v18 (addi : (⟨S800000, .i32⟩ : BufTy).Contents (Elt F) → (⟨S800000, .i32⟩ : BufTy).Contents (Elt F) → (⟨S800000, .i32⟩ : BufTy).Contents (Elt F)),
    ternary main_v16 main_v18 main_arg2 main_v19 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v19 main_v20 (broadcastInDim S800000x1 ![0] bcast_S800000_S800000x1_0 : (⟨S800000, .i32⟩ : BufTy).Contents (Elt F) → (⟨S800000x1, .i32⟩ : BufTy).Contents (Elt F)),
    binary main_v6 main_v20 main_v21 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v14 main_v21 main_v22 (mulf : (⟨S800000, .f32⟩ : BufTy).Contents (Elt F) → (⟨S800000, .f32⟩ : BufTy).Contents (Elt F) → (⟨S800000, .f32⟩ : BufTy).Contents (Elt F)),
    nullary main_c_5 (constantI S_ 32 0#32),
    unary main_c_5 main_v23 (broadcastInDim S800000 ![] bcast_S_S800000 : (⟨S_, .i32⟩ : BufTy).Contents (Elt F) → (⟨S800000, .i32⟩ : BufTy).Contents (Elt F)),
    binary main_arg1 main_v23 main_v24 (cmpi .slt : (⟨S800000, .i32⟩ : BufTy).Contents (Elt F) → (⟨S800000, .i32⟩ : BufTy).Contents (Elt F) → (⟨S800000, .i1⟩ : BufTy).Contents (Elt F)),
    nullary main_c_6 (constantI S_ 32 100000#32),
    unary main_c_6 main_v25 (broadcastInDim S800000 ![] bcast_S_S800000 : (⟨S_, .i32⟩ : BufTy).Contents (Elt F) → (⟨S800000, .i32⟩ : BufTy).Contents (Elt F)),
    binary main_arg1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v7 main_v28 main_v29 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v22 main_v30 (broadcastInDim S800000x1 ![0] bcast_S800000_S800000x1_0 : (⟨S800000, .f32⟩ : BufTy).Contents (Elt F) → (⟨S800000x1, .f32⟩ : BufTy).Contents (Elt F)),
    unary main_v30 main_v31 (broadcastInDim S800000x128 ![0, 1] bcast_S800000x1_S800000x128_0_1 : (⟨S800000x1, .f32⟩ : BufTy).Contents (Elt F) → (⟨S800000x128, .f32⟩ : BufTy).Contents (Elt F)),
    binary main_v29 main_v31 main_v32 (mulf : (⟨S800000x128, .f32⟩ : BufTy).Contents (Elt F) → (⟨S800000x128, .f32⟩ : BufTy).Contents (Elt F) → (⟨S800000x128, .f32⟩ : BufTy).Contents (Elt F)),
    nullary main_cst_7 (constant S_ .f32 0x00000000#32),
    unary main_cst_7 main_v33 (broadcastInDim S100000x128 ![] bcast_S_S100000x128 : (⟨S_, .f32⟩ : BufTy).Contents (Elt F) → (⟨S100000x128, .f32⟩ : BufTy).Contents (Elt F)),
    unary main_arg2 main_v34 (broadcastInDim S800000x1 ![0] bcast_S800000_S800000x1_0 : (⟨S800000, .i32⟩ : BufTy).Contents (Elt F) → (⟨S800000x1, .i32⟩ : BufTy).Contents (Elt F)),
    ternary main_v33 main_v34 main_v32 main_v35 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    binary main_v6 main_v6 main_v36 (mulf : (⟨S100000, .f32⟩ : BufTy).Contents (Elt F) → (⟨S100000, .f32⟩ : BufTy).Contents (Elt F) → (⟨S100000, .f32⟩ : BufTy).Contents (Elt F)),
    unary main_v36 main_v37 (broadcastInDim S100000x1 ![0] bcast_S100000_S100000x1_0 : (⟨S100000, .f32⟩ : BufTy).Contents (Elt F) → (⟨S100000x1, .f32⟩ : BufTy).Contents (Elt F)),
    unary main_v37 main_v38 (broadcastInDim S100000x128 ![0, 1] bcast_S100000x1_S100000x128_0_1 : (⟨S100000x1, .f32⟩ : BufTy).Contents (Elt F) → (⟨S100000x128, .f32⟩ : BufTy).Contents (Elt F)),
    binary main_v7 main_v38 main_v39 (mulf : (⟨S100000x128, .f32⟩ : BufTy).Contents (Elt F) → (⟨S100000x128, .f32⟩ : BufTy).Contents (Elt F) → (⟨S100000x128, .f32⟩ : BufTy).Contents (Elt F)),
    binary main_v35 main_v39 main_v40 (addf : (⟨S100000x128, .f32⟩ : BufTy).Contents (Elt F) → (⟨S100000x128, .f32⟩ : BufTy).Contents (Elt F) → (⟨S100000x128, .f32⟩ : BufTy).Contents (Elt F)),
    unary main_arg4 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v40 main_v42 main_v43 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem opsConv1_sub : (opsConv1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

set_option maxRecDepth 8192 in
theorem opsConv1_fresh : (opsConv1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsConv1_W : List (Ref sig .tc) := [main_v7, main_c, main_v8, main_v9, main_c_2, main_v10, main_v11, main_v12, main_v13, main_v14, main_c_3, main_v15, main_v16, main_c_4, main_v17, main_v18, main_v19, main_v20, main_v21, main_v22, main_c_5, main_v23, main_v24, main_c_6, main_v25, main_v26, main_v27, main_v28, main_v29, main_v30, main_v31, main_v32, main_cst_7, main_v33, main_v34, main_v35, main_v36, main_v37, main_v38, main_v39, main_v40, main_v41, main_v42, main_v43]

set_option maxRecDepth 8192 in
theorem opsConv1_writes : (opsConv1 : List (HloOp τ sig (Elt F))).Forall fun op => op.writes ⊆ (opsConv1_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsConv1_keep (V : Valuation τ sig (Elt F)) (r : Ref sig .tc) (h : r ∉ opsConv1_W) :
    after opsConv1 V (Proc.devRef .tc r) = V (Proc.devRef .tc r) :=
  after_of_writes_sub opsConv1 V opsConv1_writes h

abbrev opsBn1a : List (HloOp τ sig (Elt F)) :=
  [ nullary main_cst_8 (constant S_ .f32 0x00000000#32),
    binary main_v43 main_cst_8 main_v44 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v45 (broadcastInDim S128 ![] bcast_S_S128 : (⟨S_, .f32⟩ : BufTy).Contents (Elt F) → (⟨S128, .f32⟩ : BufTy).Contents (Elt F)),
    binary main_v44 main_v45 main_v46 (Host.divf : (⟨S128, .f32⟩ : BufTy).Contents (Elt F) → (⟨S128, .f32⟩ : BufTy).Contents (Elt F) → (⟨S128, .f32⟩ : BufTy).Contents (Elt F)),
    nullary main_c_10 (constantI S_ 32 0#32) ]

set_option maxRecDepth 8192 in
theorem opsBn1a_sub : (opsBn1a : List (HloOp τ sig (Elt F))).Forall fun op => op.bufs ⊆ tcRefs τ sig :=
  ⟨nullary_bufs_sub .., binary_bufs_sub .., nullary_bufs_sub .., unary_bufs_sub .., binary_bufs_sub .., nullary_bufs_sub ..⟩

set_option maxRecDepth 8192 in
theorem opsBn1a_fresh : (opsBn1a : List (HloOp τ sig (Elt F))).Forall fun op => op.fresh = ∅ :=
  ⟨rfl, rfl, rfl, rfl, rfl, rfl⟩

abbrev opsBn1a_W : List (Ref sig .tc) := [main_cst_8, main_v44, main_cst_9, main_v45, main_v46, main_c_10]

set_option maxRecDepth 8192 in
theorem opsBn1a_writes : (opsBn1a : List (HloOp τ sig (Elt F))).Forall fun op => op.writes ⊆ (opsBn1a_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsBn1a_keep (V : Valuation τ sig (Elt F)) (r : Ref sig .tc) (h : r ∉ opsBn1a_W) :
    after opsBn1a V (Proc.devRef .tc r) = V (Proc.devRef .tc r) :=
  after_of_writes_sub opsBn1a V opsBn1a_writes h

abbrev opsBn1b : List (HloOp τ sig (Elt F)) :=
  [ TRef.nullary main_call0.cst (constant S_ .f32 0x00000000#32),
    TRef.binary (.of main_v43) main_call0.cst main_call0.v0 (fun x v => Host.reduceAdd x v reducesTo_S100000x128_S128_d0 h_S_),
    TRef.unary main_call0.v0 main_call0.v1 (broadcastInDim S1x128 ![1] bcast_S128_S1x128_1),
    TRef.nullary main_call0.cst_0 (constant S_ .f32 0x47C35000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S100000x128 ![0, 1] bcast_S1x128_S100000x128_0_1),
    TRef.binary (.of main_v43) main_call0.v4 main_call0.v5 subf,
    TRef.binary main_call0.v5 main_call0.v5 main_call0.v6 mulf,
    TRef.unary (.of main_c_10) main_call0.v7 (sitofp .f32),
    TRef.nullary main_call0.cst_1 (constant S_ .f32 0x47C35000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S100000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v46 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v43 main_v49 main_v50 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v51 (broadcastInDim S128 ![] bcast_S_S128 : (⟨S_, .f32⟩ : BufTy).Contents (Elt F) → (⟨S128, .f32⟩ : BufTy).Contents (Elt F)),
    binary main_v47 main_v51 main_v52 (addf : (⟨S128, .f32⟩ : BufTy).Contents (Elt F) → (⟨S128, .f32⟩ : BufTy).Contents (Elt F) → (⟨S128, .f32⟩ : BufTy).Contents (Elt F)),
    unary main_v52 main_v53 (Host.sqrt : (⟨S128, .f32⟩ : BufTy).Contents (Elt F) → (⟨S128, .f32⟩ : BufTy).Contents (Elt F)),
    binary main_arg5 main_v53 main_v54 (Host.divf : (⟨S128, .f32⟩ : BufTy).Contents (Elt F) → (⟨S128, .f32⟩ : BufTy).Contents (Elt F) → (⟨S128, .f32⟩ : BufTy).Contents (Elt F)),
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v50 main_v56 main_v57 (mulf : (⟨S100000x128, .f32⟩ : BufTy).Contents (Elt F) → (⟨S100000x128, .f32⟩ : BufTy).Contents (Elt F) → (⟨S100000x128, .f32⟩ : BufTy).Contents (Elt F)),
    unary main_arg6 main_v58 (broadcastInDim S1x128 ![1] bcast_S128_S1x128_1 : (⟨S128, .f32⟩ : BufTy).Contents (Elt F) → (⟨S1x128, .f32⟩ : BufTy).Contents (Elt F)),
    unary main_v58 main_v59 (broadcastInDim S100000x128 ![0, 1] bcast_S1x128_S100000x128_0_1 : (⟨S1x128, .f32⟩ : BufTy).Contents (Elt F) → (⟨S100000x128, .f32⟩ : BufTy).Contents (Elt F)),
    binary main_v57 main_v59 main_v60 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v60) main_call1.v0 main_call1.v1 maximumf ]

set_option maxRecDepth 8192 in
theorem opsBn1b_sub : (opsBn1b : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsBn1b_fresh : (opsBn1b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsBn1b_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47, main_v48, main_v49, main_v50, main_cst_11, main_v51, main_v52, main_v53, main_v54, main_v55, main_v56, main_v57, main_v58, main_v59, main_v60, main_call1_cst, main_call1_v0, main_v61]

set_option maxRecDepth 8192 in
theorem opsBn1b_writes : (opsBn1b : List (HloOp τ sig (Elt F))).Forall fun op => op.writes ⊆ (opsBn1b_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsBn1b_keep (V : Valuation τ sig (Elt F)) (r : Ref sig .tc) (h : r ∉ opsBn1b_W) :
    after opsBn1b V (Proc.devRef .tc r) = V (Proc.devRef .tc r) :=
  after_of_writes_sub opsBn1b V opsBn1b_writes h

abbrev opsConv2 : List (HloOp τ sig (Elt F)) :=
  [ binary main_v61 main_arg7 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v63 (broadcastInDim S800000 ![] bcast_S_S800000 : (⟨S_, .i32⟩ : BufTy).Contents (Elt F) → (⟨S800000, .i32⟩ : BufTy).Contents (Elt F)),
    binary main_arg1 main_v63 main_v64 (cmpi .slt : (⟨S800000, .i32⟩ : BufTy).Contents (Elt F) → (⟨S800000, .i32⟩ : BufTy).Contents (Elt F) → (⟨S800000, .i1⟩ : BufTy).Contents (Elt F)),
    nullary main_c_13 (constantI S_ 32 100000#32),
    unary main_c_13 main_v65 (broadcastInDim S800000 ![] bcast_S_S800000 : (⟨S_, .i32⟩ : BufTy).Contents (Elt F) → (⟨S800000, .i32⟩ : BufTy).Contents (Elt F)),
    binary main_arg1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_arg1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v6 main_v68 main_v69 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_14 (constantI S_ 32 0#32),
    unary main_c_14 main_v70 (broadcastInDim S800000 ![] bcast_S_S800000 : (⟨S_, .i32⟩ : BufTy).Contents (Elt F) → (⟨S800000, .i32⟩ : BufTy).Contents (Elt F)),
    binary main_arg2 main_v70 main_v71 (cmpi .slt : (⟨S800000, .i32⟩ : BufTy).Contents (Elt F) → (⟨S800000, .i32⟩ : BufTy).Contents (Elt F) → (⟨S800000, .i1⟩ : BufTy).Contents (Elt F)),
    nullary main_c_15 (constantI S_ 32 100000#32),
    unary main_c_15 main_v72 (broadcastInDim S800000 ![] bcast_S_S800000 : (⟨S_, .i32⟩ : BufTy).Contents (Elt F) → (⟨S800000, .i32⟩ : BufTy).Contents (Elt F)),
    binary main_arg2 main_v72 main_v73 (addi : (⟨S800000, .i32⟩ : BufTy).Contents (Elt F) → (⟨S800000, .i32⟩ : BufTy).Contents (Elt F) → (⟨S800000, .i32⟩ : BufTy).Contents (Elt F)),
    ternary main_v71 main_v73 main_arg2 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v74 main_v75 (broadcastInDim S800000x1 ![0] bcast_S800000_S800000x1_0 : (⟨S800000, .i32⟩ : BufTy).Contents (Elt F) → (⟨S800000x1, .i32⟩ : BufTy).Contents (Elt F)),
    binary main_v6 main_v75 main_v76 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v69 main_v76 main_v77 (mulf : (⟨S800000, .f32⟩ : BufTy).Contents (Elt F) → (⟨S800000, .f32⟩ : BufTy).Contents (Elt F) → (⟨S800000, .f32⟩ : BufTy).Contents (Elt F)),
    nullary main_c_16 (constantI S_ 32 0#32),
    unary main_c_16 main_v78 (broadcastInDim S800000 ![] bcast_S_S800000 : (⟨S_, .i32⟩ : BufTy).Contents (Elt F) → (⟨S800000, .i32⟩ : BufTy).Contents (Elt F)),
    binary main_arg1 main_v78 main_v79 (cmpi .slt : (⟨S800000, .i32⟩ : BufTy).Contents (Elt F) → (⟨S800000, .i32⟩ : BufTy).Contents (Elt F) → (⟨S800000, .i1⟩ : BufTy).Contents (Elt F)),
    nullary main_c_17 (constantI S_ 32 100000#32),
    unary main_c_17 main_v80 (broadcastInDim S800000 ![] bcast_S_S800000 : (⟨S_, .i32⟩ : BufTy).Contents (Elt F) → (⟨S800000, .i32⟩ : BufTy).Contents (Elt F)),
    binary main_arg1 main_v80 main_v81 (addi : (⟨S800000, .i32⟩ : BufTy).Contents (Elt F) → (⟨S800000, .i32⟩ : BufTy).Contents (Elt F) → (⟨S800000, .i32⟩ : BufTy).Contents (Elt F)),
    ternary main_v79 main_v81 main_arg1 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v82 main_v83 (broadcastInDim S800000x1 ![0] bcast_S800000_S800000x1_0 : (⟨S800000, .i32⟩ : BufTy).Contents (Elt F) → (⟨S800000x1, .i32⟩ : BufTy).Contents (Elt F)),
    binary main_v62 main_v83 main_v84 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v77 main_v85 (broadcastInDim S800000x1 ![0] bcast_S800000_S800000x1_0 : (⟨S800000, .f32⟩ : BufTy).Contents (Elt F) → (⟨S800000x1, .f32⟩ : BufTy).Contents (Elt F)),
    unary main_v85 main_v86 (broadcastInDim S800000x128 ![0, 1] bcast_S800000x1_S800000x128_0_1 : (⟨S800000x1, .f32⟩ : BufTy).Contents (Elt F) → (⟨S800000x128, .f32⟩ : BufTy).Contents (Elt F)),
    binary main_v84 main_v86 main_v87 (mulf : (⟨S800000x128, .f32⟩ : BufTy).Contents (Elt F) → (⟨S800000x128, .f32⟩ : BufTy).Contents (Elt F) → (⟨S800000x128, .f32⟩ : BufTy).Contents (Elt F)),
    nullary main_cst_18 (constant S_ .f32 0x00000000#32),
    unary main_cst_18 main_v88 (broadcastInDim S100000x128 ![] bcast_S_S100000x128 : (⟨S_, .f32⟩ : BufTy).Contents (Elt F) → (⟨S100000x128, .f32⟩ : BufTy).Contents (Elt F)),
    unary main_arg2 main_v89 (broadcastInDim S800000x1 ![0] bcast_S800000_S800000x1_0 : (⟨S800000, .i32⟩ : BufTy).Contents (Elt F) → (⟨S800000x1, .i32⟩ : BufTy).Contents (Elt F)),
    ternary main_v88 main_v89 main_v87 main_v90 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    binary main_v6 main_v6 main_v91 (mulf : (⟨S100000, .f32⟩ : BufTy).Contents (Elt F) → (⟨S100000, .f32⟩ : BufTy).Contents (Elt F) → (⟨S100000, .f32⟩ : BufTy).Contents (Elt F)),
    unary main_v91 main_v92 (broadcastInDim S100000x1 ![0] bcast_S100000_S100000x1_0 : (⟨S100000, .f32⟩ : BufTy).Contents (Elt F) → (⟨S100000x1, .f32⟩ : BufTy).Contents (Elt F)),
    unary main_v92 main_v93 (broadcastInDim S100000x128 ![0, 1] bcast_S100000x1_S100000x128_0_1 : (⟨S100000x1, .f32⟩ : BufTy).Contents (Elt F) → (⟨S100000x128, .f32⟩ : BufTy).Contents (Elt F)),
    binary main_v62 main_v93 main_v94 (mulf : (⟨S100000x128, .f32⟩ : BufTy).Contents (Elt F) → (⟨S100000x128, .f32⟩ : BufTy).Contents (Elt F) → (⟨S100000x128, .f32⟩ : BufTy).Contents (Elt F)),
    binary main_v90 main_v94 main_v95 (addf : (⟨S100000x128, .f32⟩ : BufTy).Contents (Elt F) → (⟨S100000x128, .f32⟩ : BufTy).Contents (Elt F) → (⟨S100000x128, .f32⟩ : BufTy).Contents (Elt F)),
    unary main_arg8 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem opsConv2_sub : (opsConv2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub .., unary_bufs_sub .., binary_bufs_sub .., binary_bufs_sub .., unary_bufs_sub .., unary_bufs_sub .., binary_bufs_sub ..⟩

set_option maxRecDepth 8192 in
theorem opsConv2_fresh : (opsConv2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsConv2_W : List (Ref sig .tc) := [main_v62, main_c_12, main_v63, main_v64, main_c_13, main_v65, main_v66, main_v67, main_v68, main_v69, main_c_14, main_v70, main_v71, main_c_15, main_v72, main_v73, main_v74, main_v75, main_v76, main_v77, main_c_16, main_v78, main_v79, main_c_17, main_v80, main_v81, main_v82, main_v83, main_v84, main_v85, main_v86, main_v87, main_cst_18, main_v88, main_v89, main_v90, main_v91, main_v92, main_v93, main_v94, main_v95, main_v96, main_v97, main_v98]

set_option maxRecDepth 8192 in
theorem opsConv2_writes : (opsConv2 : List (HloOp τ sig (Elt F))).Forall fun op => op.writes ⊆ (opsConv2_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsConv2_keep (V : Valuation τ sig (Elt F)) (r : Ref sig .tc) (h : r ∉ opsConv2_W) :
    after opsConv2 V (Proc.devRef .tc r) = V (Proc.devRef .tc r) :=
  after_of_writes_sub opsConv2 V opsConv2_writes h

abbrev opsBn2 : List (HloOp τ sig (Elt F)) :=
  [ nullary main_cst_19 (constant S_ .f32 0x00000000#32),
    binary main_v98 main_cst_19 main_v99 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_20 (constant S_ .f32 0x47C35000#32),
    unary main_cst_20 main_v100 (broadcastInDim S128 ![] bcast_S_S128 : (⟨S_, .f32⟩ : BufTy).Contents (Elt F) → (⟨S128, .f32⟩ : BufTy).Contents (Elt F)),
    binary main_v99 main_v100 main_v101 (Host.divf : (⟨S128, .f32⟩ : BufTy).Contents (Elt F) → (⟨S128, .f32⟩ : BufTy).Contents (Elt F) → (⟨S128, .f32⟩ : BufTy).Contents (Elt F)),
    nullary main_c_21 (constantI S_ 32 0#32),
    TRef.nullary main_call2.cst (constant S_ .f32 0x00000000#32),
    TRef.binary (.of main_v98) main_call2.cst main_call2.v0 (fun x v => Host.reduceAdd x v reducesTo_S100000x128_S128_d0 h_S_),
    TRef.unary main_call2.v0 main_call2.v1 (broadcastInDim S1x128 ![1] bcast_S128_S1x128_1),
    TRef.nullary main_call2.cst_0 (constant S_ .f32 0x47C35000#32),
    TRef.unary main_call2.cst_0 main_call2.v2 (broadcastInDim S1x128 ![] bcast_S_S1x128),
    TRef.binary main_call2.v1 main_call2.v2 main_call2.v3 Host.divf,
    TRef.unary main_call2.v3 main_call2.v4 (broadcastInDim S100000x128 ![0, 1] bcast_S1x128_S100000x128_0_1),
    TRef.binary (.of main_v98) main_call2.v4 main_call2.v5 subf,
    TRef.binary main_call2.v5 main_call2.v5 main_call2.v6 mulf,
    TRef.unary (.of main_c_21) main_call2.v7 (sitofp .f32),
    TRef.nullary main_call2.cst_1 (constant S_ .f32 0x47C35000#32),
    TRef.binary main_call2.cst_1 main_call2.v7 main_call2.v8 subf,
    TRef.nullary main_call2.cst_2 (constant S_ .f32 0x00000000#32),
    TRef.binary main_call2.v6 main_call2.cst_2 main_call2.v9 (fun x v => Host.reduceAdd x v reducesTo_S100000x128_S128_d0 h_S_),
    TRef.unary main_call2.v8 main_call2.v10 (broadcastInDim S128 ![] bcast_S_S128),
    TRef.binary main_call2.v9 main_call2.v10 main_call2.v11 Host.divf,
    TRef.nullary main_call2.cst_3 (constant S_ .f32 0x00000000#32),
    TRef.binary main_call2.v8 main_call2.cst_3 main_call2.v12 (cmpf .ogt),
    TRef.nullary main_call2.cst_4 (constant S_ .f32 0x7FC00000#32),
    TRef.unary main_call2.cst_4 main_call2.call0.v0 id,
    TRef.unary main_call2.call0.v0 main_call2.call0.v1 (broadcastInDim S128 ![] bcast_S_S128),
    TRef.ternary main_call2.v12 main_call2.v11 main_call2.call0.v1 main_call2.call0.v2 (fun p a b => select (broadcastInDim S128 ![] bcast_S_S128 p) a b),
    unary main_v101 main_v103 (broadcastInDim S1x128 ![1] bcast_S128_S1x128_1 : (⟨S128, .f32⟩ : BufTy).Contents (Elt F) → (⟨S1x128, .f32⟩ : BufTy).Contents (Elt F)),
    unary main_v103 main_v104 (broadcastInDim S100000x128 ![0, 1] bcast_S1x128_S100000x128_0_1 : (⟨S1x128, .f32⟩ : BufTy).Contents (Elt F) → (⟨S100000x128, .f32⟩ : BufTy).Contents (Elt F)),
    binary main_v98 main_v104 main_v105 (subf : (⟨S100000x128, .f32⟩ : BufTy).Contents (Elt F) → (⟨S100000x128, .f32⟩ : BufTy).Contents (Elt F) → (⟨S100000x128, .f32⟩ : BufTy).Contents (Elt F)),
    nullary main_cst_22 (constant S_ .f32 0x3727C5AC#32),
    unary main_cst_22 main_v106 (broadcastInDim S128 ![] bcast_S_S128 : (⟨S_, .f32⟩ : BufTy).Contents (Elt F) → (⟨S128, .f32⟩ : BufTy).Contents (Elt F)),
    binary main_v102 main_v106 main_v107 (addf : (⟨S128, .f32⟩ : BufTy).Contents (Elt F) → (⟨S128, .f32⟩ : BufTy).Contents (Elt F) → (⟨S128, .f32⟩ : BufTy).Contents (Elt F)),
    unary main_v107 main_v108 (Host.sqrt : (⟨S128, .f32⟩ : BufTy).Contents (Elt F) → (⟨S128, .f32⟩ : BufTy).Contents (Elt F)),
    binary main_arg9 main_v108 main_v109 (Host.divf : (⟨S128, .f32⟩ : BufTy).Contents (Elt F) → (⟨S128, .f32⟩ : BufTy).Contents (Elt F) → (⟨S128, .f32⟩ : BufTy).Contents (Elt F)),
    unary main_v109 main_v110 (broadcastInDim S1x128 ![1] bcast_S128_S1x128_1 : (⟨S128, .f32⟩ : BufTy).Contents (Elt F) → (⟨S1x128, .f32⟩ : BufTy).Contents (Elt F)),
    unary main_v110 main_v111 (broadcastInDim S100000x128 ![0, 1] bcast_S1x128_S100000x128_0_1 : (⟨S1x128, .f32⟩ : BufTy).Contents (Elt F) → (⟨S100000x128, .f32⟩ : BufTy).Contents (Elt F)),
    binary main_v105 main_v111 main_v112 (mulf : (⟨S100000x128, .f32⟩ : BufTy).Contents (Elt F) → (⟨S100000x128, .f32⟩ : BufTy).Contents (Elt F) → (⟨S100000x128, .f32⟩ : BufTy).Contents (Elt F)),
    unary main_arg10 main_v113 (broadcastInDim S1x128 ![1] bcast_S128_S1x128_1 : (⟨S128, .f32⟩ : BufTy).Contents (Elt F) → (⟨S1x128, .f32⟩ : BufTy).Contents (Elt F)),
    unary main_v113 main_v114 (broadcastInDim S100000x128 ![0, 1] bcast_S1x128_S100000x128_0_1 : (⟨S1x128, .f32⟩ : BufTy).Contents (Elt F) → (⟨S100000x128, .f32⟩ : BufTy).Contents (Elt F)),
    binary main_v112 main_v114 main_v115 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v115) main_call3.v0 main_call3.v1 maximumf ]

set_option maxRecDepth 8192 in
theorem opsBn2_sub : (opsBn2 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsBn2_fresh : (opsBn2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsBn2_W : List (Ref sig .tc) := [main_cst_19, main_v99, main_cst_20, main_v100, main_v101, main_c_21, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v102, main_v103, main_v104, main_v105, main_cst_22, main_v106, main_v107, main_v108, main_v109, main_v110, main_v111, main_v112, main_v113, main_v114, main_v115, main_call3_cst, main_call3_v0, main_v116]

set_option maxRecDepth 8192 in
theorem opsBn2_writes : (opsBn2 : List (HloOp τ sig (Elt F))).Forall fun op => op.writes ⊆ (opsBn2_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsBn2_keep (V : Valuation τ sig (Elt F)) (r : Ref sig .tc) (h : r ∉ opsBn2_W) :
    after opsBn2 V (Proc.devRef .tc r) = V (Proc.devRef .tc r) :=
  after_of_writes_sub opsBn2 V opsBn2_writes h

abbrev opsConv3a : List (HloOp τ sig (Elt F)) :=
  [ binary main_v116 main_arg11 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_23 (constantI S_ 32 0#32),
    unary main_c_23 main_v118 (broadcastInDim S800000 ![] bcast_S_S800000 : (⟨S_, .i32⟩ : BufTy).Contents (Elt F) → (⟨S800000, .i32⟩ : BufTy).Contents (Elt F)),
    binary main_arg1 main_v118 main_v119 (cmpi .slt : (⟨S800000, .i32⟩ : BufTy).Contents (Elt F) → (⟨S800000, .i32⟩ : BufTy).Contents (Elt F) → (⟨S800000, .i1⟩ : BufTy).Contents (Elt F)),
    nullary main_c_24 (constantI S_ 32 100000#32),
    unary main_c_24 main_v120 (broadcastInDim S800000 ![] bcast_S_S800000 : (⟨S_, .i32⟩ : BufTy).Contents (Elt F) → (⟨S800000, .i32⟩ : BufTy).Contents (Elt F)),
    binary main_arg1 main_v120 main_v121 (addi : (⟨S800000, .i32⟩ : BufTy).Contents (Elt F) → (⟨S800000, .i32⟩ : BufTy).Contents (Elt F) → (⟨S800000, .i32⟩ : BufTy).Contents (Elt F)),
    ternary main_v119 main_v121 main_arg1 main_v122 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v122 main_v123 (broadcastInDim S800000x1 ![0] bcast_S800000_S800000x1_0 : (⟨S800000, .i32⟩ : BufTy).Contents (Elt F) → (⟨S800000x1, .i32⟩ : BufTy).Contents (Elt F)),
    binary main_v6 main_v123 main_v124 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    nullary main_c_25 (constantI S_ 32 0#32),
    unary main_c_25 main_v125 (broadcastInDim S800000 ![] bcast_S_S800000 : (⟨S_, .i32⟩ : BufTy).Contents (Elt F) → (⟨S800000, .i32⟩ : BufTy).Contents (Elt F)),
    binary main_arg2 main_v125 main_v126 (cmpi .slt : (⟨S800000, .i32⟩ : BufTy).Contents (Elt F) → (⟨S800000, .i32⟩ : BufTy).Contents (Elt F) → (⟨S800000, .i1⟩ : BufTy).Contents (Elt F)),
    nullary main_c_26 (constantI S_ 32 100000#32),
    unary main_c_26 main_v127 (broadcastInDim S800000 ![] bcast_S_S800000 : (⟨S_, .i32⟩ : BufTy).Contents (Elt F) → (⟨S800000, .i32⟩ : BufTy).Contents (Elt F)),
    binary main_arg2 main_v127 main_v128 (addi : (⟨S800000, .i32⟩ : BufTy).Contents (Elt F) → (⟨S800000, .i32⟩ : BufTy).Contents (Elt F) → (⟨S800000, .i32⟩ : BufTy).Contents (Elt F)),
    ternary main_v126 main_v128 main_arg2 main_v129 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v129 main_v130 (broadcastInDim S800000x1 ![0] bcast_S800000_S800000x1_0 : (⟨S800000, .i32⟩ : BufTy).Contents (Elt F) → (⟨S800000x1, .i32⟩ : BufTy).Contents (Elt F)),
    binary main_v6 main_v130 main_v131 ((fun x i => Host.gather gather_S100000_S800000x1_S800000_n_0_n_n_0_1_1 x i) : (⟨S100000, .f32⟩ : BufTy).Contents (Elt F) → (⟨S800000x1, .i32⟩ : BufTy).Contents (Elt F) → (⟨S800000, .f32⟩ : BufTy).Contents (Elt F)),
    binary main_v124 main_v131 main_v132 (mulf : (⟨S800000, .f32⟩ : BufTy).Contents (Elt F) → (⟨S800000, .f32⟩ : BufTy).Contents (Elt F) → (⟨S800000, .f32⟩ : BufTy).Contents (Elt F)),
    nullary main_c_27 (constantI S_ 32 0#32),
    unary main_c_27 main_v133 (broadcastInDim S800000 ![] bcast_S_S800000 : (⟨S_, .i32⟩ : BufTy).Contents (Elt F) → (⟨S800000, .i32⟩ : BufTy).Contents (Elt F)),
    binary main_arg1 main_v133 main_v134 (cmpi .slt : (⟨S800000, .i32⟩ : BufTy).Contents (Elt F) → (⟨S800000, .i32⟩ : BufTy).Contents (Elt F) → (⟨S800000, .i1⟩ : BufTy).Contents (Elt F)),
    nullary main_c_28 (constantI S_ 32 100000#32),
    unary main_c_28 main_v135 (broadcastInDim S800000 ![] bcast_S_S800000 : (⟨S_, .i32⟩ : BufTy).Contents (Elt F) → (⟨S800000, .i32⟩ : BufTy).Contents (Elt F)),
    binary main_arg1 main_v135 main_v136 (addi : (⟨S800000, .i32⟩ : BufTy).Contents (Elt F) → (⟨S800000, .i32⟩ : BufTy).Contents (Elt F) → (⟨S800000, .i32⟩ : BufTy).Contents (Elt F)),
    ternary main_v134 main_v136 main_arg1 main_v137 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v137 main_v138 (broadcastInDim S800000x1 ![0] bcast_S800000_S800000x1_0 : (⟨S800000, .i32⟩ : BufTy).Contents (Elt F) → (⟨S800000x1, .i32⟩ : BufTy).Contents (Elt F)),
    binary main_v117 main_v138 main_v139 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_v132 main_v140 (broadcastInDim S800000x1 ![0] bcast_S800000_S800000x1_0 : (⟨S800000, .f32⟩ : BufTy).Contents (Elt F) → (⟨S800000x1, .f32⟩ : BufTy).Contents (Elt F)),
    unary main_v140 main_v141 (broadcastInDim S800000x128 ![0, 1] bcast_S800000x1_S800000x128_0_1 : (⟨S800000x1, .f32⟩ : BufTy).Contents (Elt F) → (⟨S800000x128, .f32⟩ : BufTy).Contents (Elt F)),
    binary main_v139 main_v141 main_v142 (mulf : (⟨S800000x128, .f32⟩ : BufTy).Contents (Elt F) → (⟨S800000x128, .f32⟩ : BufTy).Contents (Elt F) → (⟨S800000x128, .f32⟩ : BufTy).Contents (Elt F)),
    nullary main_cst_29 (constant S_ .f32 0x00000000#32),
    unary main_cst_29 main_v143 (broadcastInDim S100000x128 ![] bcast_S_S100000x128 : (⟨S_, .f32⟩ : BufTy).Contents (Elt F) → (⟨S100000x128, .f32⟩ : BufTy).Contents (Elt F)),
    unary main_arg2 main_v144 (broadcastInDim S800000x1 ![0] bcast_S800000_S800000x1_0 : (⟨S800000, .i32⟩ : BufTy).Contents (Elt F) → (⟨S800000x1, .i32⟩ : BufTy).Contents (Elt F)),
    ternary main_v143 main_v144 main_v142 main_v145 ((fun x i u => Host.scatterAdd scatter_S100000x128_S800000x1_S800000x128_1_0_0_1 x i u) : (⟨S100000x128, .f32⟩ : BufTy).Contents (Elt F) → (⟨S800000x1, .i32⟩ : BufTy).Contents (Elt F) → (⟨S800000x128, .f32⟩ : BufTy).Contents (Elt F) → (⟨S100000x128, .f32⟩ : BufTy).Contents (Elt F)),
    binary main_v6 main_v6 main_v146 (mulf : (⟨S100000, .f32⟩ : BufTy).Contents (Elt F) → (⟨S100000, .f32⟩ : BufTy).Contents (Elt F) → (⟨S100000, .f32⟩ : BufTy).Contents (Elt F)),
    unary main_v146 main_v147 (broadcastInDim S100000x1 ![0] bcast_S100000_S100000x1_0 : (⟨S100000, .f32⟩ : BufTy).Contents (Elt F) → (⟨S100000x1, .f32⟩ : BufTy).Contents (Elt F)) ]

set_option maxRecDepth 8192 in
theorem opsConv3a_sub : (opsConv3a : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., binary_bufs_sub .., unary_bufs_sub ..⟩

set_option maxRecDepth 8192 in
theorem opsConv3a_fresh : (opsConv3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsConv3a_W : List (Ref sig .tc) := [main_v117, main_c_23, main_v118, main_v119, main_c_24, main_v120, main_v121, main_v122, main_v123, main_v124, main_c_25, main_v125, main_v126, main_c_26, main_v127, main_v128, main_v129, main_v130, main_v131, main_v132, main_c_27, main_v133, main_v134, main_c_28, main_v135, main_v136, main_v137, main_v138, main_v139, main_v140, main_v141, main_v142, main_cst_29, main_v143, main_v144, main_v145, main_v146, main_v147]

set_option maxRecDepth 8192 in
theorem opsConv3a_writes : (opsConv3a : List (HloOp τ sig (Elt F))).Forall fun op => op.writes ⊆ (opsConv3a_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsConv3a_keep (V : Valuation τ sig (Elt F)) (r : Ref sig .tc) (h : r ∉ opsConv3a_W) :
    after opsConv3a V (Proc.devRef .tc r) = V (Proc.devRef .tc r) :=
  after_of_writes_sub opsConv3a V opsConv3a_writes h

abbrev opsConv3b : List (HloOp τ sig (Elt F)) :=
  [ unary main_v147 main_v148 (broadcastInDim S100000x128 ![0, 1] bcast_S100000x1_S100000x128_0_1 : (⟨S100000x1, .f32⟩ : BufTy).Contents (Elt F) → (⟨S100000x128, .f32⟩ : BufTy).Contents (Elt F)),
    binary main_v117 main_v148 main_v149 (mulf : (⟨S100000x128, .f32⟩ : BufTy).Contents (Elt F) → (⟨S100000x128, .f32⟩ : BufTy).Contents (Elt F) → (⟨S100000x128, .f32⟩ : BufTy).Contents (Elt F)),
    binary main_v145 main_v149 main_v150 (addf : (⟨S100000x128, .f32⟩ : BufTy).Contents (Elt F) → (⟨S100000x128, .f32⟩ : BufTy).Contents (Elt F) → (⟨S100000x128, .f32⟩ : BufTy).Contents (Elt F)),
    unary main_arg12 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v150 main_v152 main_v153 (addf : (⟨S100000x128, .f32⟩ : BufTy).Contents (Elt F) → (⟨S100000x128, .f32⟩ : BufTy).Contents (Elt F) → (⟨S100000x128, .f32⟩ : BufTy).Contents (Elt F)) ]

set_option maxRecDepth 8192 in
theorem opsConv3b_sub : (opsConv3b : List (HloOp τ sig (Elt F))).Forall fun op => op.bufs ⊆ tcRefs τ sig :=
  ⟨unary_bufs_sub .., binary_bufs_sub .., binary_bufs_sub .., unary_bufs_sub .., unary_bufs_sub .., binary_bufs_sub ..⟩

set_option maxRecDepth 8192 in
theorem opsConv3b_fresh : (opsConv3b : List (HloOp τ sig (Elt F))).Forall fun op => op.fresh = ∅ :=
  ⟨rfl, rfl, rfl, rfl, rfl, rfl⟩

abbrev opsConv3b_W : List (Ref sig .tc) := [main_v148, main_v149, main_v150, main_v151, main_v152, main_v153]

set_option maxRecDepth 8192 in
theorem opsConv3b_writes : (opsConv3b : List (HloOp τ sig (Elt F))).Forall fun op => op.writes ⊆ (opsConv3b_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsConv3b_keep (V : Valuation τ sig (Elt F)) (r : Ref sig .tc) (h : r ∉ opsConv3b_W) :
    after opsConv3b V (Proc.devRef .tc r) = V (Proc.devRef .tc r) :=
  after_of_writes_sub opsConv3b V opsConv3b_writes h

abbrev opsBn3 : List (HloOp τ sig (Elt F)) :=
  [ nullary main_cst_30 (constant S_ .f32 0x00000000#32),
    binary main_v153 main_cst_30 main_v154 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_31 (constant S_ .f32 0x47C35000#32),
    unary main_cst_31 main_v155 (broadcastInDim S128 ![] bcast_S_S128 : (⟨S_, .f32⟩ : BufTy).Contents (Elt F) → (⟨S128, .f32⟩ : BufTy).Contents (Elt F)),
    binary main_v154 main_v155 main_v156 (Host.divf : (⟨S128, .f32⟩ : BufTy).Contents (Elt F) → (⟨S128, .f32⟩ : BufTy).Contents (Elt F) → (⟨S128, .f32⟩ : BufTy).Contents (Elt F)),
    nullary main_c_32 (constantI S_ 32 0#32),
    TRef.nullary main_call4.cst (constant S_ .f32 0x00000000#32),
    TRef.binary (.of main_v153) main_call4.cst main_call4.v0 (fun x v => Host.reduceAdd x v reducesTo_S100000x128_S128_d0 h_S_),
    TRef.unary main_call4.v0 main_call4.v1 (broadcastInDim S1x128 ![1] bcast_S128_S1x128_1),
    TRef.nullary main_call4.cst_0 (constant S_ .f32 0x47C35000#32),
    TRef.unary main_call4.cst_0 main_call4.v2 (broadcastInDim S1x128 ![] bcast_S_S1x128),
    TRef.binary main_call4.v1 main_call4.v2 main_call4.v3 Host.divf,
    TRef.unary main_call4.v3 main_call4.v4 (broadcastInDim S100000x128 ![0, 1] bcast_S1x128_S100000x128_0_1),
    TRef.binary (.of main_v153) main_call4.v4 main_call4.v5 subf,
    TRef.binary main_call4.v5 main_call4.v5 main_call4.v6 mulf,
    TRef.unary (.of main_c_32) main_call4.v7 (sitofp .f32),
    TRef.nullary main_call4.cst_1 (constant S_ .f32 0x47C35000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S100000x128_S128_d0 h_S_),
    TRef.unary main_call4.v8 main_call4.v10 (broadcastInDim S128 ![] bcast_S_S128),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S128 ![] bcast_S_S128),
    TRef.ternary main_call4.v12 main_call4.v11 main_call4.call0.v1 main_call4.call0.v2 (fun p a b => select (broadcastInDim S128 ![] bcast_S_S128 p) a b),
    unary main_v156 main_v158 (broadcastInDim S1x128 ![1] bcast_S128_S1x128_1 : (⟨S128, .f32⟩ : BufTy).Contents (Elt F) → (⟨S1x128, .f32⟩ : BufTy).Contents (Elt F)),
    unary main_v158 main_v159 (broadcastInDim S100000x128 ![0, 1] bcast_S1x128_S100000x128_0_1 : (⟨S1x128, .f32⟩ : BufTy).Contents (Elt F) → (⟨S100000x128, .f32⟩ : BufTy).Contents (Elt F)),
    binary main_v153 main_v159 main_v160 (subf : (⟨S100000x128, .f32⟩ : BufTy).Contents (Elt F) → (⟨S100000x128, .f32⟩ : BufTy).Contents (Elt F) → (⟨S100000x128, .f32⟩ : BufTy).Contents (Elt F)),
    nullary main_cst_33 (constant S_ .f32 0x3727C5AC#32),
    unary main_cst_33 main_v161 (broadcastInDim S128 ![] bcast_S_S128 : (⟨S_, .f32⟩ : BufTy).Contents (Elt F) → (⟨S128, .f32⟩ : BufTy).Contents (Elt F)),
    binary main_v157 main_v161 main_v162 (addf : (⟨S128, .f32⟩ : BufTy).Contents (Elt F) → (⟨S128, .f32⟩ : BufTy).Contents (Elt F) → (⟨S128, .f32⟩ : BufTy).Contents (Elt F)),
    unary main_v162 main_v163 (Host.sqrt : (⟨S128, .f32⟩ : BufTy).Contents (Elt F) → (⟨S128, .f32⟩ : BufTy).Contents (Elt F)),
    binary main_arg13 main_v163 main_v164 (Host.divf : (⟨S128, .f32⟩ : BufTy).Contents (Elt F) → (⟨S128, .f32⟩ : BufTy).Contents (Elt F) → (⟨S128, .f32⟩ : BufTy).Contents (Elt F)),
    unary main_v164 main_v165 (broadcastInDim S1x128 ![1] bcast_S128_S1x128_1 : (⟨S128, .f32⟩ : BufTy).Contents (Elt F) → (⟨S1x128, .f32⟩ : BufTy).Contents (Elt F)),
    unary main_v165 main_v166 (broadcastInDim S100000x128 ![0, 1] bcast_S1x128_S100000x128_0_1 : (⟨S1x128, .f32⟩ : BufTy).Contents (Elt F) → (⟨S100000x128, .f32⟩ : BufTy).Contents (Elt F)),
    binary main_v160 main_v166 main_v167 (mulf : (⟨S100000x128, .f32⟩ : BufTy).Contents (Elt F) → (⟨S100000x128, .f32⟩ : BufTy).Contents (Elt F) → (⟨S100000x128, .f32⟩ : BufTy).Contents (Elt F)),
    unary main_arg14 main_v168 (broadcastInDim S1x128 ![1] bcast_S128_S1x128_1 : (⟨S128, .f32⟩ : BufTy).Contents (Elt F) → (⟨S1x128, .f32⟩ : BufTy).Contents (Elt F)),
    unary main_v168 main_v169 (broadcastInDim S100000x128 ![0, 1] bcast_S1x128_S100000x128_0_1 : (⟨S1x128, .f32⟩ : BufTy).Contents (Elt F) → (⟨S100000x128, .f32⟩ : BufTy).Contents (Elt F)),
    binary main_v167 main_v169 main_v170 (addf : (⟨S100000x128, .f32⟩ : BufTy).Contents (Elt F) → (⟨S100000x128, .f32⟩ : BufTy).Contents (Elt F) → (⟨S100000x128, .f32⟩ : BufTy).Contents (Elt F)),
    TRef.nullary main_call5.cst (constant S_ .f32 0x00000000#32),
    TRef.unary main_call5.cst main_call5.v0 (broadcastInDim S100000x128 ![] bcast_S_S100000x128),
    TRef.binary (.of main_v170) main_call5.v0 main_call5.v1 maximumf ]

set_option maxRecDepth 8192 in
theorem opsBn3_sub : (opsBn3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

set_option maxRecDepth 8192 in
theorem opsBn3_fresh : (opsBn3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

abbrev opsBn3_W : List (Ref sig .tc) := [main_cst_30, main_v154, main_cst_31, main_v155, main_v156, main_c_32, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v157, main_v158, main_v159, main_v160, main_cst_33, main_v161, main_v162, main_v163, main_v164, main_v165, main_v166, main_v167, main_v168, main_v169, main_v170, main_call5_cst, main_call5_v0, main_v171]

set_option maxRecDepth 8192 in
theorem opsBn3_writes : (opsBn3 : List (HloOp τ sig (Elt F))).Forall fun op => op.writes ⊆ (opsBn3_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsBn3_keep (V : Valuation τ sig (Elt F)) (r : Ref sig .tc) (h : r ∉ opsBn3_W) :
    after opsBn3 V (Proc.devRef .tc r) = V (Proc.devRef .tc r) :=
  after_of_writes_sub opsBn3 V opsBn3_writes h

abbrev opsLin : List (HloOp τ sig (Elt F)) :=
  [ binary main_v171 main_arg15 main_v172 ((fun l r => Host.dotGeneral dot_S100000x128_S128x1_S100000x1_1_0_0_1_n_n none l r) : (⟨S100000x128, .f32⟩ : BufTy).Contents (Elt F) → (⟨S128x1, .f32⟩ : BufTy).Contents (Elt F) → (⟨S100000x1, .f32⟩ : BufTy).Contents (Elt F)),
    unary main_arg16 main_v173 (broadcastInDim S1x1 ![1] bcast_S1_S1x1_1 : (⟨S1, .f32⟩ : BufTy).Contents (Elt F) → (⟨S1x1, .f32⟩ : BufTy).Contents (Elt F)),
    unary main_v173 main_v174 (broadcastInDim S100000x1 ![0, 1] bcast_S1x1_S100000x1_0_1 : (⟨S1x1, .f32⟩ : BufTy).Contents (Elt F) → (⟨S100000x1, .f32⟩ : BufTy).Contents (Elt F)),
    binary main_v172 main_v174 main_v175 (addf : (⟨S100000x1, .f32⟩ : BufTy).Contents (Elt F) → (⟨S100000x1, .f32⟩ : BufTy).Contents (Elt F) → (⟨S100000x1, .f32⟩ : BufTy).Contents (Elt F)) ]

set_option maxRecDepth 8192 in
theorem opsLin_sub : (opsLin : List (HloOp τ sig (Elt F))).Forall fun op => op.bufs ⊆ tcRefs τ sig :=
  ⟨binary_bufs_sub .., unary_bufs_sub .., unary_bufs_sub .., binary_bufs_sub ..⟩

set_option maxRecDepth 8192 in
theorem opsLin_fresh : (opsLin : List (HloOp τ sig (Elt F))).Forall fun op => op.fresh = ∅ :=
  ⟨rfl, rfl, rfl, rfl⟩

abbrev opsLin_W : List (Ref sig .tc) := [main_v172, main_v173, main_v174, main_v175]

set_option maxRecDepth 8192 in
theorem opsLin_writes : (opsLin : List (HloOp τ sig (Elt F))).Forall fun op => op.writes ⊆ (opsLin_W.map (Proc.devRef (τ := τ) .tc)).toFinset := by
  simp only [List.Forall, nullary_writes, unary_writes, binary_writes, ternary_writes, Finset.singleton_subset_iff, List.mem_toFinset]
  repeat' apply And.intro
  all_goals exact List.mem_map_of_mem (by decide)

theorem opsLin_keep (V : Valuation τ sig (Elt F)) (r : Ref sig .tc) (h : r ∉ opsLin_W) :
    after opsLin V (Proc.devRef .tc r) = V (Proc.devRef .tc r) :=
  after_of_writes_sub opsLin V opsLin_writes h

abbrev ops_main_part0 : List (HloOp τ sig (Elt F)) := opsDis ++ opsConv1 ++ opsBn1a

abbrev ops_main_part1 : List (HloOp τ sig (Elt F)) := opsBn1b ++ opsConv2

abbrev ops_main_part2 : List (HloOp τ sig (Elt F)) := opsBn2 ++ opsConv3a

abbrev ops_main_part3 : List (HloOp τ sig (Elt F)) := opsConv3b ++ opsBn3 ++ opsLin

abbrev ops : List (HloOp τ sig (Elt F)) := ops_main_part0 ++ ops_main_part1 ++ ops_main_part2 ++ ops_main_part3

end Cert.ReferenceIdeal.Hand

end
-- ==== Proof.Ref.Run.lean ====
import proofs.«113696_j26852135535044_1_alg».proof.Proof.Ref.Ops

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxRecDepth 8192 in
set_option maxHeartbeats 4000000 in

theorem main_part0_eq (c : Dev nD) : main_part0 (F := F) c = seq ops_main_part0 := by
  simp only [ops_main_part0, seq_append, bind_assoc]
  rfl

set_option maxRecDepth 8192 in
set_option maxHeartbeats 4000000 in

theorem main_part1_eq (c : Dev nD) : main_part1 (F := F) c = seq ops_main_part1 := by
  simp only [main_part1, fn_var.body, fn_where.body, fn_relu.body, ops_main_part1, seq_append, opsBn1b, opsConv2, seq,
    bind_assoc, pure_bind]
  rfl

set_option maxRecDepth 8192 in
set_option maxHeartbeats 4000000 in
theorem main_part2_eq (c : Dev nD) : main_part2 (F := F) c = seq ops_main_part2 := by
  simp only [main_part2, fn_var.body, fn_where.body, fn_relu.body, ops_main_part2, seq_append, opsBn2, opsConv3a, seq,
    bind_assoc, pure_bind]
  rfl

set_option maxRecDepth 8192 in
set_option maxHeartbeats 4000000 in
theorem main_part3_eq (c : Dev nD) : main_part3 (F := F) c = seq ops_main_part3 := by
  simp only [main_part3, fn_var.body, fn_where.body, fn_relu.body, ops_main_part3, seq_append, opsConv3b, opsBn3, opsLin, seq,
    bind_assoc, pure_bind]

theorem main_eq (c : Dev nD) : main (F := F) c = seq ops := by
  simp only [ops, seq_append, ← main_part0_eq c, ← main_part1_eq c, ← main_part2_eq c, ← main_part3_eq c, bind_assoc]
  rfl

theorem scopedRefs_eq : (Finset.univ.filter fun b : Ref sig .tc => b.isScoped) = ∅ := by decide
theorem scopedSems_eq : (Finset.univ.filter fun sm : SemLoc sig => sm.isScoped .tc) = ∅ := by decide

theorem ops_forall {P : HloOp τ sig (Elt F) → Prop}
    (h0 : (opsDis : List (HloOp τ sig (Elt F))).Forall P)
    (h1 : (opsConv1 : List (HloOp τ sig (Elt F))).Forall P)
    (h2 : (opsBn1a : List (HloOp τ sig (Elt F))).Forall P)
    (h3 : (opsBn1b : List (HloOp τ sig (Elt F))).Forall P)
    (h4 : (opsConv2 : List (HloOp τ sig (Elt F))).Forall P)
    (h5 : (opsBn2 : List (HloOp τ sig (Elt F))).Forall P)
    (h6 : (opsConv3a : List (HloOp τ sig (Elt F))).Forall P)
    (h7 : (opsConv3b : List (HloOp τ sig (Elt F))).Forall P)
    (h8 : (opsBn3 : List (HloOp τ sig (Elt F))).Forall P)
    (h9 : (opsLin : List (HloOp τ sig (Elt F))).Forall P) :
    (ops : List (HloOp τ sig (Elt F))).Forall P :=
  List.forall_iff_forall_mem.mpr fun op h => by
    simp only [ops, ops_main_part0, ops_main_part1, ops_main_part2, ops_main_part3, List.mem_append, or_assoc] at h
    rcases h with h | h | h | h | h | h | h | h | h | h
    exacts [List.forall_iff_forall_mem.mp h0 op h, List.forall_iff_forall_mem.mp h1 op h, List.forall_iff_forall_mem.mp h2 op h, List.forall_iff_forall_mem.mp h3 op h, List.forall_iff_forall_mem.mp h4 op h, List.forall_iff_forall_mem.mp h5 op h, List.forall_iff_forall_mem.mp h6 op h, List.forall_iff_forall_mem.mp h7 op h, List.forall_iff_forall_mem.mp h8 op h, List.forall_iff_forall_mem.mp h9 op h]

theorem ops_sub : (ops : List (HloOp τ sig (Elt F))).Forall fun op => op.bufs ⊆ tcRefs τ sig :=
  ops_forall opsDis_sub opsConv1_sub opsBn1a_sub opsBn1b_sub opsConv2_sub opsBn2_sub opsConv3a_sub opsConv3b_sub opsBn3_sub opsLin_sub

theorem ops_fresh : (ops : List (HloOp τ sig (Elt F))).Forall fun op => op.fresh = ∅ :=
  ops_forall opsDis_fresh opsConv1_fresh opsBn1a_fresh opsBn1b_fresh opsConv2_fresh opsBn2_fresh opsConv3a_fresh opsConv3b_fresh opsBn3_fresh opsLin_fresh

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => List.forall_iff_forall_mem.mp ops_fresh op h)

theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem ops_keep (V : Valuation τ sig (Elt F)) (r : Ref sig .tc)
    (h : r ∉ opsDis_W ++ opsConv1_W ++ opsBn1a_W ++ opsBn1b_W ++ opsConv2_W ++ opsBn2_W ++ opsConv3a_W ++ opsConv3b_W ++ opsBn3_W ++ opsLin_W) :
    after ops V (Proc.devRef .tc r) = V (Proc.devRef .tc r) := by
  simp only [List.mem_append, not_or] at h
  obtain ⟨⟨⟨⟨⟨⟨⟨⟨⟨h0, h1⟩, h2⟩, h3⟩, h4⟩, h5⟩, h6⟩, h7⟩, h8⟩, h9⟩ := h
  simp only [ops, ops_main_part0, ops_main_part1, ops_main_part2, ops_main_part3, after_app]
  rw [opsLin_keep _ r h9, opsBn3_keep _ r h8, opsConv3b_keep _ r h7, opsConv3a_keep _ r h6, opsBn2_keep _ r h5, opsConv2_keep _ r h4, opsBn1b_keep _ r h3, opsBn1a_keep _ r h2, opsConv1_keep _ r h1, opsDis_keep _ r h0]

theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_arg0).trans (ops_keep _ main_arg0 (by decide)),
    (h c main_arg1).trans (ops_keep _ main_arg1 (by decide)),
    (h c main_arg2).trans (ops_keep _ main_arg2 (by decide)),
    (h c main_arg3).trans (ops_keep _ main_arg3 (by decide)),
    (h c main_arg4).trans (ops_keep _ main_arg4 (by decide)),
    (h c main_arg5).trans (ops_keep _ main_arg5 (by decide)),
    (h c main_arg6).trans (ops_keep _ main_arg6 (by decide)),
    (h c main_arg7).trans (ops_keep _ main_arg7 (by decide)),
    (h c main_arg8).trans (ops_keep _ main_arg8 (by decide)),
    (h c main_arg9).trans (ops_keep _ main_arg9 (by decide)),
    (h c main_arg10).trans (ops_keep _ main_arg10 (by decide)),
    (h c main_arg11).trans (ops_keep _ main_arg11 (by decide)),
    (h c main_arg12).trans (ops_keep _ main_arg12 (by decide)),
    (h c main_arg13).trans (ops_keep _ main_arg13 (by decide)),
    (h c main_arg14).trans (ops_keep _ main_arg14 (by decide)),
    (h c main_arg15).trans (ops_keep _ main_arg15 (by decide)),
    (h c main_arg16).trans (ops_keep _ main_arg16 (by decide))⟩)
    (run_main m ρ)

end Cert.ReferenceIdeal.Hand

end
-- ==== Proof.Ref.Out.lean ====
import proofs.«113696_j26852135535044_1_alg».proof.Proof.Ref.Run
import proofs.«113696_j26852135535044_1_alg».proof.Proof.Ref.Fns

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

attribute [local irreducible] Host.gather Host.scatterAdd Host.reduceAdd

set_option maxRecDepth 8192 in
set_option maxHeartbeats 1000000 in
theorem opsDis_v6 (V : Valuation τ sig (Elt F)) :
    after opsDis V (main_v6 : DevRef τ sig) = refDis (V (main_arg2 : DevRef τ sig)) := by
  simp only [after_cons, after_nil]
  rfl

set_option maxRecDepth 8192 in
set_option maxHeartbeats 4000000 in
theorem opsConv1_v43 (V : Valuation τ sig (Elt F)) :
    after opsConv1 V (main_v43 : DevRef τ sig)
      = refAgg (Host.dotGeneral dot_S100000x256_S256x128_S100000x128_1_0_0_1_n_n none (V (main_arg0 : DevRef τ sig)) (V (main_arg3 : DevRef τ sig)))
          (V (main_v6 : DevRef τ sig)) (V (main_arg4 : DevRef τ sig)) (V (main_arg1 : DevRef τ sig)) (V (main_arg2 : DevRef τ sig)) := by
  simp only [after_cons, after_nil]
  rfl

set_option maxRecDepth 8192 in
set_option maxHeartbeats 4000000 in
theorem opsBn1_v61 (V : Valuation τ sig (Elt F)) :
    after (opsBn1a ++ opsBn1b) V (main_v61 : DevRef τ sig) = refBn (V (main_v43 : DevRef τ sig)) (V (main_arg5 : DevRef τ sig)) (V (main_arg6 : DevRef τ sig)) := by
  simp only [opsBn1a, opsBn1b, List.cons_append, List.nil_append, after_cons, after_nil]
  rfl

set_option maxRecDepth 8192 in
set_option maxHeartbeats 4000000 in
theorem opsConv2_v98 (V : Valuation τ sig (Elt F)) :
    after opsConv2 V (main_v98 : DevRef τ sig)
      = refAgg (Host.dotGeneral dot_S100000x128_S128x128_S100000x128_1_0_0_1_n_n none (V (main_v61 : DevRef τ sig)) (V (main_arg7 : DevRef τ sig)))
          (V (main_v6 : DevRef τ sig)) (V (main_arg8 : DevRef τ sig)) (V (main_arg1 : DevRef τ sig)) (V (main_arg2 : DevRef τ sig)) := by
  simp only [after_cons, after_nil]
  rfl

set_option maxRecDepth 8192 in
set_option maxHeartbeats 4000000 in
theorem opsBn2_v116 (V : Valuation τ sig (Elt F)) :
    after opsBn2 V (main_v116 : DevRef τ sig) = refBn (V (main_v98 : DevRef τ sig)) (V (main_arg9 : DevRef τ sig)) (V (main_arg10 : DevRef τ sig)) := by
  simp only [after_cons, after_nil]
  rfl

set_option maxRecDepth 8192 in
set_option maxHeartbeats 4000000 in
theorem opsConv3_v153 (V : Valuation τ sig (Elt F)) :
    after (opsConv3a ++ opsConv3b) V (main_v153 : DevRef τ sig)
      = refAgg (Host.dotGeneral dot_S100000x128_S128x128_S100000x128_1_0_0_1_n_n none (V (main_v116 : DevRef τ sig)) (V (main_arg11 : DevRef τ sig)))
          (V (main_v6 : DevRef τ sig)) (V (main_arg12 : DevRef τ sig)) (V (main_arg1 : DevRef τ sig)) (V (main_arg2 : DevRef τ sig)) := by
  simp only [opsConv3a, opsConv3b, List.cons_append, List.nil_append, after_cons, after_nil]
  rfl

set_option maxRecDepth 8192 in
set_option maxHeartbeats 4000000 in
theorem opsBn3_v171 (V : Valuation τ sig (Elt F)) :
    after opsBn3 V (main_v171 : DevRef τ sig) = refBn (V (main_v153 : DevRef τ sig)) (V (main_arg13 : DevRef τ sig)) (V (main_arg14 : DevRef τ sig)) := by
  simp only [after_cons, after_nil]
  rfl

set_option maxRecDepth 8192 in
theorem opsLin_v175 (V : Valuation τ sig (Elt F)) :
    after opsLin V (main_v175 : DevRef τ sig) = refLin (V (main_v171 : DevRef τ sig)) (V (main_arg15 : DevRef τ sig)) (V (main_arg16 : DevRef τ sig)) := by
  simp only [after_cons, after_nil]
  rfl

theorem opsBn1_keep (V : Valuation τ sig (Elt F)) (r : Ref sig .tc) (ha : r ∉ opsBn1a_W) (hb : r ∉ opsBn1b_W) :
    after (opsBn1a ++ opsBn1b) V (Proc.devRef .tc r) = V (Proc.devRef .tc r) := by
  rw [after_app, opsBn1b_keep _ r hb, opsBn1a_keep _ r ha]

theorem opsConv3_keep (V : Valuation τ sig (Elt F)) (r : Ref sig .tc) (ha : r ∉ opsConv3a_W) (hb : r ∉ opsConv3b_W) :
    after (opsConv3a ++ opsConv3b) V (Proc.devRef .tc r) = V (Proc.devRef .tc r) := by
  rw [after_app, opsConv3b_keep _ r hb, opsConv3a_keep _ r ha]

abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

theorem argRefs_opsDis : ∀ r ∈ argRefs, r ∉ opsDis_W := by decide
theorem argRefs_opsConv1 : ∀ r ∈ argRefs, r ∉ opsConv1_W := by decide
theorem argRefs_opsBn1a : ∀ r ∈ argRefs, r ∉ opsBn1a_W := by decide
theorem argRefs_opsBn1b : ∀ r ∈ argRefs, r ∉ opsBn1b_W := by decide
theorem argRefs_opsConv2 : ∀ r ∈ argRefs, r ∉ opsConv2_W := by decide
theorem argRefs_opsBn2 : ∀ r ∈ argRefs, r ∉ opsBn2_W := by decide
theorem argRefs_opsConv3a : ∀ r ∈ argRefs, r ∉ opsConv3a_W := by decide
theorem argRefs_opsConv3b : ∀ r ∈ argRefs, r ∉ opsConv3b_W := by decide
theorem argRefs_opsBn3 : ∀ r ∈ argRefs, r ∉ opsBn3_W := by decide
theorem argRefs_opsLin : ∀ r ∈ argRefs, r ∉ opsLin_W := by decide

def val1 (V : Valuation τ sig (Elt F)) : Valuation τ sig (Elt F) := after opsDis V

def val2 (V : Valuation τ sig (Elt F)) : Valuation τ sig (Elt F) := after opsConv1 (val1 V)

def val3 (V : Valuation τ sig (Elt F)) : Valuation τ sig (Elt F) := after (opsBn1a ++ opsBn1b) (val2 V)

def val4 (V : Valuation τ sig (Elt F)) : Valuation τ sig (Elt F) := after opsConv2 (val3 V)

def val5 (V : Valuation τ sig (Elt F)) : Valuation τ sig (Elt F) := after opsBn2 (val4 V)

def val6 (V : Valuation τ sig (Elt F)) : Valuation τ sig (Elt F) := after (opsConv3a ++ opsConv3b) (val5 V)

def val7 (V : Valuation τ sig (Elt F)) : Valuation τ sig (Elt F) := after opsBn3 (val6 V)

def val8 (V : Valuation τ sig (Elt F)) : Valuation τ sig (Elt F) := after opsLin (val7 V)

theorem after_ops (V : Valuation τ sig (Elt F)) : after ops V = val8 V := by
  simp only [ops, ops_main_part0, ops_main_part1, ops_main_part2, ops_main_part3, val1, val2, val3, val4, val5, val6, val7, val8,
    after_app]

theorem val1_arg (V : Valuation τ sig (Elt F)) (r : Ref sig .tc) (hr : r ∈ argRefs) :
    val1 V (Proc.devRef .tc r) = V (Proc.devRef .tc r) :=
  opsDis_keep V r (argRefs_opsDis r hr)
theorem val2_arg (V : Valuation τ sig (Elt F)) (r : Ref sig .tc) (hr : r ∈ argRefs) :
    val2 V (Proc.devRef .tc r) = V (Proc.devRef .tc r) :=
  (opsConv1_keep _ r (argRefs_opsConv1 r hr)).trans (val1_arg V r hr)
theorem val3_arg (V : Valuation τ sig (Elt F)) (r : Ref sig .tc) (hr : r ∈ argRefs) :
    val3 V (Proc.devRef .tc r) = V (Proc.devRef .tc r) :=
  (opsBn1_keep _ r (argRefs_opsBn1a r hr) (argRefs_opsBn1b r hr)).trans (val2_arg V r hr)
theorem val4_arg (V : Valuation τ sig (Elt F)) (r : Ref sig .tc) (hr : r ∈ argRefs) :
    val4 V (Proc.devRef .tc r) = V (Proc.devRef .tc r) :=
  (opsConv2_keep _ r (argRefs_opsConv2 r hr)).trans (val3_arg V r hr)
theorem val5_arg (V : Valuation τ sig (Elt F)) (r : Ref sig .tc) (hr : r ∈ argRefs) :
    val5 V (Proc.devRef .tc r) = V (Proc.devRef .tc r) :=
  (opsBn2_keep _ r (argRefs_opsBn2 r hr)).trans (val4_arg V r hr)
theorem val6_arg (V : Valuation τ sig (Elt F)) (r : Ref sig .tc) (hr : r ∈ argRefs) :
    val6 V (Proc.devRef .tc r) = V (Proc.devRef .tc r) :=
  (opsConv3_keep _ r (argRefs_opsConv3a r hr) (argRefs_opsConv3b r hr)).trans (val5_arg V r hr)
theorem val7_arg (V : Valuation τ sig (Elt F)) (r : Ref sig .tc) (hr : r ∈ argRefs) :
    val7 V (Proc.devRef .tc r) = V (Proc.devRef .tc r) :=
  (opsBn3_keep _ r (argRefs_opsBn3 r hr)).trans (val6_arg V r hr)

theorem val1_v6 (V : Valuation τ sig (Elt F)) : val1 V (main_v6 : DevRef τ sig) = refDis (V (main_arg2 : DevRef τ sig)) := opsDis_v6 V
theorem val2_v6 (V : Valuation τ sig (Elt F)) : val2 V (main_v6 : DevRef τ sig) = refDis (V (main_arg2 : DevRef τ sig)) :=
  (opsConv1_keep _ main_v6 (by decide)).trans (val1_v6 V)
theorem val3_v6 (V : Valuation τ sig (Elt F)) : val3 V (main_v6 : DevRef τ sig) = refDis (V (main_arg2 : DevRef τ sig)) :=
  (opsBn1_keep _ main_v6 (by decide) (by decide)).trans (val2_v6 V)
theorem val4_v6 (V : Valuation τ sig (Elt F)) : val4 V (main_v6 : DevRef τ sig) = refDis (V (main_arg2 : DevRef τ sig)) :=
  (opsConv2_keep _ main_v6 (by decide)).trans (val3_v6 V)
theorem val5_v6 (V : Valuation τ sig (Elt F)) : val5 V (main_v6 : DevRef τ sig) = refDis (V (main_arg2 : DevRef τ sig)) :=
  (opsBn2_keep _ main_v6 (by decide)).trans (val4_v6 V)

abbrev layer1 (V : Valuation τ sig (Elt F)) : FVec F S100000x128 .f32 :=
  refH1 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig))

abbrev layer2 (V : Valuation τ sig (Elt F)) : FVec F S100000x128 .f32 :=
  refH (layer1 V) (V (main_arg1 : DevRef τ sig)) (V (main_arg2 : DevRef τ sig)) (V (main_arg7 : DevRef τ sig)) (V (main_arg8 : DevRef τ sig)) (V (main_arg9 : DevRef τ sig)) (V (main_arg10 : DevRef τ sig))

abbrev layer3 (V : Valuation τ sig (Elt F)) : FVec F S100000x128 .f32 :=
  refH (layer2 V) (V (main_arg1 : DevRef τ sig)) (V (main_arg2 : DevRef τ sig)) (V (main_arg11 : DevRef τ sig)) (V (main_arg12 : DevRef τ sig)) (V (main_arg13 : DevRef τ sig)) (V (main_arg14 : DevRef τ sig))

theorem val2_v43 (V : Valuation τ sig (Elt F)) :
    val2 V (main_v43 : DevRef τ sig) = refConv1 (V (main_arg0 : DevRef τ sig)) (V (main_arg3 : DevRef τ sig)) (V (main_arg4 : DevRef τ sig)) (V (main_arg1 : DevRef τ sig)) (V (main_arg2 : DevRef τ sig)) := by
  unfold val2
  rw [opsConv1_v43, val1_arg V main_arg0 (by decide), val1_arg V main_arg3 (by decide), val1_arg V main_arg4 (by decide), val1_arg V main_arg1 (by decide), val1_arg V main_arg2 (by decide), val1_v6]
  rfl

theorem val3_v61 (V : Valuation τ sig (Elt F)) : val3 V (main_v61 : DevRef τ sig) = layer1 V := by
  unfold val3
  rw [opsBn1_v61, val2_v43, val2_arg V main_arg5 (by decide), val2_arg V main_arg6 (by decide)]
  rfl

theorem val4_v98 (V : Valuation τ sig (Elt F)) :
    val4 V (main_v98 : DevRef τ sig) = refConv (layer1 V) (V (main_arg7 : DevRef τ sig)) (V (main_arg8 : DevRef τ sig)) (V (main_arg1 : DevRef τ sig)) (V (main_arg2 : DevRef τ sig)) := by
  unfold val4
  rw [opsConv2_v98, val3_v61, val3_arg V main_arg7 (by decide), val3_arg V main_arg8 (by decide), val3_arg V main_arg1 (by decide), val3_arg V main_arg2 (by decide), val3_v6]
  rfl

theorem val5_v116 (V : Valuation τ sig (Elt F)) : val5 V (main_v116 : DevRef τ sig) = layer2 V := by
  unfold val5
  rw [opsBn2_v116, val4_v98, val4_arg V main_arg9 (by decide), val4_arg V main_arg10 (by decide)]
  rfl

theorem val6_v153 (V : Valuation τ sig (Elt F)) :
    val6 V (main_v153 : DevRef τ sig) = refConv (layer2 V) (V (main_arg11 : DevRef τ sig)) (V (main_arg12 : DevRef τ sig)) (V (main_arg1 : DevRef τ sig)) (V (main_arg2 : DevRef τ sig)) := by
  unfold val6
  rw [opsConv3_v153, val5_v116, val5_arg V main_arg11 (by decide), val5_arg V main_arg12 (by decide), val5_arg V main_arg1 (by decide), val5_arg V main_arg2 (by decide), val5_v6]
  rfl

theorem val7_v171 (V : Valuation τ sig (Elt F)) : val7 V (main_v171 : DevRef τ sig) = layer3 V := by
  unfold val7
  rw [opsBn3_v171, val6_v153, val6_arg V main_arg13 (by decide), val6_arg V main_arg14 (by decide)]
  rfl

theorem val8_v175 (V : Valuation τ sig (Elt F)) :
    val8 V (main_v175 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  unfold val8
  rw [opsLin_v175, val7_v171, val7_arg V main_arg15 (by decide), val7_arg V main_arg16 (by decide)]
  rfl

theorem out_eq (V : Valuation τ sig (Elt F)) :
    after ops V (main_v175 : DevRef τ sig) = refOut (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) := by
  rw [after_ops]
  exact val8_v175 V

end Cert.ReferenceIdeal.Hand

end
-- ==== Proof.lean ====
import proofs.«113696_j26852135535044_1_alg».proof.Defs
import proofs.«113696_j26852135535044_1_alg».proof.Proof.Gen.Kernel
import proofs.«113696_j26852135535044_1_alg».proof.Proof.Gen.KernelIdeal
import proofs.«113696_j26852135535044_1_alg».proof.Proof.Gen.ReferenceIdeal
import proofs.«113696_j26852135535044_1_alg».proof.Proof.Gen.Pre_finite_inputs
import proofs.«113696_j26852135535044_1_alg».proof.Proof.KI.Run
import proofs.«113696_j26852135535044_1_alg».proof.Proof.KI.Result
import proofs.«113696_j26852135535044_1_alg».proof.Proof.Ref.Run
import proofs.«113696_j26852135535044_1_alg».proof.Proof.Ref.Out
import proofs.«113696_j26852135535044_1_alg».proof.Proof.PreFinite
import Idealize.ShloMosaic.Lib.Tactic

noncomputable section

namespace Cert.Proof

open Idealize.ShloMosaic Idealize.SL.Sem

/-- The two kernel programs have the same text and the frame does not depend on the number system, so one proof serves both. -/
theorem frame_k : Cert.frame_Kernel := fun m ρ _ =>
  Eq.mp (by sl_kernel_rfl) (Cert.KernelIdeal.Hand.frame (F := Bits) m ρ)
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

theorem algebraic : Cert.algebraic_KernelIdeal_ReferenceIdeal := by
  intro m ρ m' ρ' hpre hagree
  refine ⟨fun c => Cert.ReferenceIdeal.Hand.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)), ?_, ?_⟩
  · refine (θ_run (Cert.KernelIdeal.defs (F := Ideal)) _ _).mono (fun r h c => ⟨?_, (h c Cert.KernelIdeal.main_arg0 (by decide)).trans (Cert.KernelIdeal.Hand.W18_untouched m ρ c Cert.KernelIdeal.main_arg0 (by decide)),
      (h c Cert.KernelIdeal.main_arg1 (by decide)).trans (Cert.KernelIdeal.Hand.W18_untouched m ρ c Cert.KernelIdeal.main_arg1 (by decide)),
      (h c Cert.KernelIdeal.main_arg2 (by decide)).trans (Cert.KernelIdeal.Hand.W18_untouched m ρ c Cert.KernelIdeal.main_arg2 (by decide)),
      (h c Cert.KernelIdeal.main_arg3 (by decide)).trans (Cert.KernelIdeal.Hand.W18_untouched m ρ c Cert.KernelIdeal.main_arg3 (by decide)),
      (h c Cert.KernelIdeal.main_arg4 (by decide)).trans (Cert.KernelIdeal.Hand.W18_untouched m ρ c Cert.KernelIdeal.main_arg4 (by decide)),
      (h c Cert.KernelIdeal.main_arg5 (by decide)).trans (Cert.KernelIdeal.Hand.W18_untouched m ρ c Cert.KernelIdeal.main_arg5 (by decide)),
      (h c Cert.KernelIdeal.main_arg6 (by decide)).trans (Cert.KernelIdeal.Hand.W18_untouched m ρ c Cert.KernelIdeal.main_arg6 (by decide)),
      (h c Cert.KernelIdeal.main_arg7 (by decide)).trans (Cert.KernelIdeal.Hand.W18_untouched m ρ c Cert.KernelIdeal.main_arg7 (by decide)),
      (h c Cert.KernelIdeal.main_arg8 (by decide)).trans (Cert.KernelIdeal.Hand.W18_untouched m ρ c Cert.KernelIdeal.main_arg8 (by decide)),
      (h c Cert.KernelIdeal.main_arg9 (by decide)).trans (Cert.KernelIdeal.Hand.W18_untouched m ρ c Cert.KernelIdeal.main_arg9 (by decide)),
      (h c Cert.KernelIdeal.main_arg10 (by decide)).trans (Cert.KernelIdeal.Hand.W18_untouched m ρ c Cert.KernelIdeal.main_arg10 (by decide)),
      (h c Cert.KernelIdeal.main_arg11 (by decide)).trans (Cert.KernelIdeal.Hand.W18_untouched m ρ c Cert.KernelIdeal.main_arg11 (by decide)),
      (h c Cert.KernelIdeal.main_arg12 (by decide)).trans (Cert.KernelIdeal.Hand.W18_untouched m ρ c Cert.KernelIdeal.main_arg12 (by decide)),
      (h c Cert.KernelIdeal.main_arg13 (by decide)).trans (Cert.KernelIdeal.Hand.W18_untouched m ρ c Cert.KernelIdeal.main_arg13 (by decide)),
      (h c Cert.KernelIdeal.main_arg14 (by decide)).trans (Cert.KernelIdeal.Hand.W18_untouched m ρ c Cert.KernelIdeal.main_arg14 (by decide)),
      (h c Cert.KernelIdeal.main_arg15 (by decide)).trans (Cert.KernelIdeal.Hand.W18_untouched m ρ c Cert.KernelIdeal.main_arg15 (by decide)),
      (h c Cert.KernelIdeal.main_arg16 (by decide)).trans (Cert.KernelIdeal.Hand.W18_untouched m ρ c Cert.KernelIdeal.main_arg16 (by decide))⟩)
      (Cert.KernelIdeal.Hand.run_all (F := Ideal) m ρ)
    exact (h c Cert.KernelIdeal.main_v120 (by decide)).trans (Cert.KernelIdeal.Hand.result_eq m ρ c (hpre c))
  · refine (θ_run (Cert.ReferenceIdeal.defs (F := Ideal)) _ _).mono (fun r h c => ⟨?_, (h c Cert.ReferenceIdeal.main_arg0).trans (Cert.ReferenceIdeal.Hand.ops_keep _ Cert.ReferenceIdeal.main_arg0 (by decide)),
      (h c Cert.ReferenceIdeal.main_arg1).trans (Cert.ReferenceIdeal.Hand.ops_keep _ Cert.ReferenceIdeal.main_arg1 (by decide)),
      (h c Cert.ReferenceIdeal.main_arg2).trans (Cert.ReferenceIdeal.Hand.ops_keep _ Cert.ReferenceIdeal.main_arg2 (by decide)),
      (h c Cert.ReferenceIdeal.main_arg3).trans (Cert.ReferenceIdeal.Hand.ops_keep _ Cert.ReferenceIdeal.main_arg3 (by decide)),
      (h c Cert.ReferenceIdeal.main_arg4).trans (Cert.ReferenceIdeal.Hand.ops_keep _ Cert.ReferenceIdeal.main_arg4 (by decide)),
      (h c Cert.ReferenceIdeal.main_arg5).trans (Cert.ReferenceIdeal.Hand.ops_keep _ Cert.ReferenceIdeal.main_arg5 (by decide)),
      (h c Cert.ReferenceIdeal.main_arg6).trans (Cert.ReferenceIdeal.Hand.ops_keep _ Cert.ReferenceIdeal.main_arg6 (by decide)),
      (h c Cert.ReferenceIdeal.main_arg7).trans (Cert.ReferenceIdeal.Hand.ops_keep _ Cert.ReferenceIdeal.main_arg7 (by decide)),
      (h c Cert.ReferenceIdeal.main_arg8).trans (Cert.ReferenceIdeal.Hand.ops_keep _ Cert.ReferenceIdeal.main_arg8 (by decide)),
      (h c Cert.ReferenceIdeal.main_arg9).trans (Cert.ReferenceIdeal.Hand.ops_keep _ Cert.ReferenceIdeal.main_arg9 (by decide)),
      (h c Cert.ReferenceIdeal.main_arg10).trans (Cert.ReferenceIdeal.Hand.ops_keep _ Cert.ReferenceIdeal.main_arg10 (by decide)),
      (h c Cert.ReferenceIdeal.main_arg11).trans (Cert.ReferenceIdeal.Hand.ops_keep _ Cert.ReferenceIdeal.main_arg11 (by decide)),
      (h c Cert.ReferenceIdeal.main_arg12).trans (Cert.ReferenceIdeal.Hand.ops_keep _ Cert.ReferenceIdeal.main_arg12 (by decide)),
      (h c Cert.ReferenceIdeal.main_arg13).trans (Cert.ReferenceIdeal.Hand.ops_keep _ Cert.ReferenceIdeal.main_arg13 (by decide)),
      (h c Cert.ReferenceIdeal.main_arg14).trans (Cert.ReferenceIdeal.Hand.ops_keep _ Cert.ReferenceIdeal.main_arg14 (by decide)),
      (h c Cert.ReferenceIdeal.main_arg15).trans (Cert.ReferenceIdeal.Hand.ops_keep _ Cert.ReferenceIdeal.main_arg15 (by decide)),
      (h c Cert.ReferenceIdeal.main_arg16).trans (Cert.ReferenceIdeal.Hand.ops_keep _ Cert.ReferenceIdeal.main_arg16 (by decide))⟩)
      (Cert.ReferenceIdeal.Hand.run_main (F := Ideal) m' ρ')
    refine (h c Cert.ReferenceIdeal.main_v175).trans ((Cert.ReferenceIdeal.Hand.out_eq _).trans ?_)
    obtain ⟨e0, e1, e2, e3, e4, e5, e6, e7, e8, e9, e10, e11, e12, e13, e14, e15, e16⟩ := hagree c
    show Cert.ReferenceIdeal.Hand.refOut (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) = _
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
